-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x1024 .f32) (main_arg1 : IVec S4096 32) (main_arg2 : FVec F S4096x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg2
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 512#32
  let main_v13 : IVec S4096 32 := broadcastInDim S4096 ![] bcast_S_S4096 main_c_4
  let main_v14 : IVec S4096 1 := cmpi .slt main_arg1 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x1024 : Shape := ⟨2, ![4096, 1024]⟩
abbrev S4096 : Shape := ⟨1, ![4096]⟩
abbrev S4096x512 : Shape := ⟨2, ![4096, 512]⟩
abbrev S_ : Shape := ⟨0, ![]⟩
abbrev S4096x1 : Shape := ⟨2, ![4096, 1]⟩
abbrev S1x4096 : Shape := ⟨2, ![1, 4096]⟩
abbrev S512 : Shape := ⟨1, ![512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 182
  | .vmem => 15
  | .smem => 0
  | _ => 0

abbrev hbmTy0_0 (i : Nat) : BufTy := match i % 128 with
  | 0 => ⟨S4096x1024, .f32⟩
  | 1 => ⟨S4096, .i32⟩
  | 2 => ⟨S4096x512, .f32⟩
  | 3 => ⟨S4096x1024, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S4096x1024, .bf16⟩
  | 15 => ⟨S4096x1, .i32⟩
  | 16 => ⟨S1x4096, .i32⟩
  | 17 => ⟨S4096, .i32⟩
  | 18 => ⟨S_, .i32⟩
  | 19 => ⟨S512, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S512, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096, .i32⟩
  | 38 => ⟨S4096, .i1⟩
  | 39 => ⟨S_, .i32⟩
  | 40 => ⟨S_, .i32⟩
  | 41 => ⟨S4096, .i32⟩
  | 42 => ⟨S4096, .i32⟩
  | 43 => ⟨S_, .i32⟩
  | 44 => ⟨S512, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S512, .i32⟩
  | 54 => ⟨S_, .i32⟩
  | 55 => ⟨S512, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S_, .i32⟩
  | 65 => ⟨S4096, .i32⟩
  | 66 => ⟨S512, .i32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096, .i32⟩
  | 85 => ⟨S4096, .i1⟩
  | 86 => ⟨S4096, .i32⟩
  | 87 => ⟨S_, .i32⟩
  | 88 => ⟨S4096, .i32⟩
  | 89 => ⟨S4096, .i1⟩
  | 90 => ⟨S_, .i32⟩
  | 91 => ⟨S_, .i32⟩
  | 92 => ⟨S4096, .i32⟩
  | 93 => ⟨S4096, .i32⟩
  | 94 => ⟨S4096, .f32⟩
  | 95 => ⟨S_, .i32⟩
  | 96 => ⟨S4096, .i32⟩
  | 97 => ⟨S4096, .i1⟩
  | 98 => ⟨S_, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x1024, .f32⟩
  | 111 => ⟨S4096x1024, .f32⟩
  | 112 => ⟨S_, .f32⟩
  | 113 => ⟨S4096, .f32⟩
  | 114 => ⟨S_, .i32⟩
  | 115 => ⟨S4096, .i32⟩
  | 116 => ⟨S4096, .i1⟩
  | 117 => ⟨S_, .f32⟩
  | 118 => ⟨S4096, .f32⟩
  | 119 => ⟨S4096, .f32⟩
  | 120 => ⟨S_, .f32⟩
  | 121 => ⟨S4096, .f32⟩
  | 122 => ⟨S4096, .f32⟩
  | 123 => ⟨S_, .f32⟩
  | 124 => ⟨S_, .f32⟩
  | 125 => ⟨S4096, .f32⟩
  | 126 => ⟨S4096, .f32⟩
  | 127 => ⟨S4096x1, .f32⟩
  | _ => ⟨S4096x1024, .f32⟩

abbrev hbmTy0_1 (i : Nat) : BufTy := match i % 128 with
  | 0 => ⟨S4096x1, .f32⟩
  | 1 => ⟨S4096x1, .f32⟩
  | 2 => ⟨S_, .f32⟩
  | 3 => ⟨S_, .f32⟩
  | 4 => ⟨S_, .f32⟩
  | 5 => ⟨S_, .f32⟩
  | 6 => ⟨S_, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S4096x512, .f32⟩
  | 13 => ⟨S4096x512, .f32⟩
  | 14 => ⟨S4096x512, .f32⟩
  | 15 => ⟨S_, .f32⟩
  | 16 => ⟨S4096, .f32⟩
  | 17 => ⟨S4096x1, .f32⟩
  | 18 => ⟨S4096x1, .f32⟩
  | 19 => ⟨S4096x512, .f32⟩
  | 20 => ⟨S4096x512, .f32⟩
  | 21 => ⟨S4096x1, .i32⟩
  | 22 => ⟨S_, .i32⟩
  | 23 => ⟨S4096x1, .i32⟩
  | 24 => ⟨S4096x1, .i1⟩
  | 25 => ⟨S_, .i32⟩
  | 26 => ⟨S4096x1, .i32⟩
  | 27 => ⟨S4096x1, .i32⟩
  | 28 => ⟨S4096x1, .i32⟩
  | 29 => ⟨S4096x1x1, .i32⟩
  | 30 => ⟨S1, .i32⟩
  | 31 => ⟨S_, .i32⟩
  | 32 => ⟨S4096x1x1, .i32⟩
  | 33 => ⟨S4096x1x1, .i1⟩
  | 34 => ⟨S1x1x1, .i32⟩
  | 35 => ⟨S4096x1x1, .i32⟩
  | 36 => ⟨S4096x1x1, .i1⟩
  | 37 => ⟨S4096x1x1, .i1⟩
  | 38 => ⟨S_, .i1⟩
  | 39 => ⟨S4096x1, .i1⟩
  | 40 => ⟨S4096x1, .f32⟩
  | 41 => ⟨S_, .f32⟩
  | 42 => ⟨S4096x1, .f32⟩
  | 43 => ⟨S4096x1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x1, .i32⟩
  | .local _ .vmem, ⟨1, _⟩ => ⟨S1024x1, .i32⟩
  | .local _ .vmem, ⟨2, _⟩ => ⟨S1x1024, .i32⟩
  | .local _ .vmem, ⟨3, _⟩ => ⟨S1x1024, .i32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_16 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_call4_v0 : Ref sig .tc := ⟨.hbm, 91, rfl⟩
abbrev main_call4_v1 : Ref sig .tc := ⟨.hbm, 92, rfl⟩
abbrev main_v60 : Ref sig .tc := ⟨.hbm, 93, rfl⟩
abbrev main_v61 : Ref sig .tc := ⟨.hbm, 94, rfl⟩
abbrev main_c_18 : Ref sig .tc := ⟨.hbm, 95, rfl⟩
abbrev main_v62 : Ref sig .tc := ⟨.hbm, 96, rfl⟩
abbrev main_v63 : Ref sig .tc := ⟨.hbm, 97, rfl⟩
abbrev main_c_19 : Ref sig .tc := ⟨.hbm, 98, rfl⟩
abbrev main_call5_v0 : Ref sig .tc := ⟨.hbm, 99, rfl⟩
abbrev main_call5_v1 : Ref sig .tc := ⟨.hbm, 100, rfl⟩
abbrev main_v64 : Ref sig .tc := ⟨.hbm, 101, rfl⟩
abbrev main_c_20 : Ref sig .tc := ⟨.hbm, 102, rfl⟩
abbrev main_v65 : Ref sig .tc := ⟨.hbm, 103, rfl⟩
abbrev main_v66 : Ref sig .tc := ⟨.hbm, 104, rfl⟩
abbrev main_c_21 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_c_23 : Ref sig .tc := ⟨.hbm, 114, rfl⟩
abbrev main_v74 : Ref sig .tc := ⟨.hbm, 115, rfl⟩
abbrev main_v75 : Ref sig .tc := ⟨.hbm, 116, rfl⟩
abbrev main_cst_24 : Ref sig .tc := ⟨.hbm, 117, rfl⟩
abbrev main_v76 : Ref sig .tc := ⟨.hbm, 118, rfl⟩
abbrev main_v77 : Ref sig .tc := ⟨.hbm, 119, rfl⟩
abbrev main_cst_25 : Ref sig .tc := ⟨.hbm, 120, rfl⟩
abbrev main_v78 : Ref sig .tc := ⟨.hbm, 121, rfl⟩
abbrev main_v79 : Ref sig .tc := ⟨.hbm, 122, rfl⟩
abbrev main_cst_26 : Ref sig .tc := ⟨.hbm, 123, rfl⟩
abbrev main_call6_v0 : Ref sig .tc := ⟨.hbm, 124, rfl⟩
abbrev main_call6_v1 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_27 : Ref sig .tc := ⟨.hbm, 130, rfl⟩
abbrev main_v84 : Ref sig .tc := ⟨.hbm, 131, rfl⟩
abbrev main_cst_28 : Ref sig .tc := ⟨.hbm, 132, rfl⟩
abbrev main_v85 : Ref sig .tc := ⟨.hbm, 133, rfl⟩
abbrev main_call7_cst : Ref sig .tc := ⟨.hbm, 134, rfl⟩
abbrev main_call7_v0 : Ref sig .tc := ⟨.hbm, 135, rfl⟩
abbrev main_call7_cst_0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_v5 : Ref sig .tc := ⟨.hbm, 141, rfl⟩
abbrev main_call7_v6 : Ref sig .tc := ⟨.hbm, 142, rfl⟩
abbrev main_call7_cst_1 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_v86 : Ref sig .tc := ⟨.hbm, 148, rfl⟩
abbrev main_v87 : Ref sig .tc := ⟨.hbm, 149, rfl⟩
abbrev main_call8_c : Ref sig .tc := ⟨.hbm, 150, rfl⟩
abbrev main_call8_v0 : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_v5 : Ref sig .tc := ⟨.hbm, 157, rfl⟩
abbrev main_call8_c_1 : Ref sig .tc := ⟨.hbm, 158, rfl⟩
abbrev main_call8_c_2 : Ref sig .tc := ⟨.hbm, 159, rfl⟩
abbrev main_call8_v6 : Ref sig .tc := ⟨.hbm, 160, rfl⟩
abbrev main_call8_v7 : Ref sig .tc := ⟨.hbm, 161, rfl⟩
abbrev main_call8_v8 : Ref sig .tc := ⟨.hbm, 162, rfl⟩
abbrev main_call8_v9 : Ref sig .tc := ⟨.hbm, 163, rfl⟩
abbrev main_call8_v10 : Ref sig .tc := ⟨.hbm, 164, rfl⟩
abbrev main_call8_v11 : Ref sig .tc := ⟨.hbm, 165, rfl⟩
abbrev main_call8_c_3 : Ref sig .tc := ⟨.hbm, 166, rfl⟩
abbrev main_call8_v12 : Ref sig .tc := ⟨.hbm, 167, rfl⟩
abbrev main_call8_v13 : Ref sig .tc := ⟨.hbm, 168, rfl⟩
abbrev main_call8_cst : Ref sig .tc := ⟨.hbm, 169, rfl⟩
abbrev main_call8_v14 : Ref sig .tc := ⟨.hbm, 170, rfl⟩
abbrev main_v88 : Ref sig .tc := ⟨.hbm, 171, rfl⟩
abbrev main_cst_29 : Ref sig .tc := ⟨.hbm, 172, rfl⟩
abbrev main_v89 : Ref sig .tc := ⟨.hbm, 173, rfl⟩
abbrev main_cst_30 : Ref sig .tc := ⟨.hbm, 174, rfl⟩
abbrev main_v90 : Ref sig .tc := ⟨.hbm, 175, rfl⟩
abbrev main_v91 : Ref sig .tc := ⟨.hbm, 176, rfl⟩
abbrev main_cst_31 : Ref sig .tc := ⟨.hbm, 177, rfl⟩
abbrev main_v92 : Ref sig .tc := ⟨.hbm, 178, rfl⟩
abbrev main_cst_32 : Ref sig .tc := ⟨.hbm, 179, rfl⟩
abbrev main_v93 : Ref sig .tc := ⟨.hbm, 180, rfl⟩
abbrev main_v94 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  shapeCasts_S4096_S4096x1 : S4096.ShapeCasts S4096x1
  shapeCasts_S4096_S1x4096 : S4096.ShapeCasts S1x4096
  bcast_S_S512 : S_.BroadcastsInDim S512 (![] : Fin 0 → Fin S512.rank)
  bcast_S_S4096 : S_.BroadcastsInDim S4096 (![] : Fin 0 → Fin S4096.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S4096x1_S_d0_1 : S4096x1.ReducesTo [0, 1] S_
  reducesTo_S4096x512_S4096_d1 : S4096x512.ReducesTo [1] S4096
  bcast_S4096x1_S4096x512_0_1 : S4096x1.BroadcastsInDim S4096x512 (![0, 1] : Fin 2 → Fin S4096x512.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  scatter_S512_S4096x1_S4096_n_0_0_1_wf : ScatterDims.WF S512 S4096x1 S4096 [] [0] [0] 1
  gather_S512_S4096x1_S4096_n_0_n_n_0_1_1_wf : GatherDims.WF S512 S4096x1 S4096 [] [0] [] [0] [] 1 ![1]
  gather_S4096x1024_S4096x1_S4096x1024_1_0_n_n_0_1_11024_wf : GatherDims.WF S4096x1024 S4096x1 S4096x1024 [1] [0] [] [0] [] 1 ![1, 1024]
  dot_S1024x1024_S1024x1024_S1024x1024_1_1_0_0_n_n_wf : DotDims.WF S1024x1024 S1024x1024 S1024x1024 [1] [1] [0] [0] [] []
  gather_S4096x512_S4096x1x1_S4096x1_n_1_0_0_1_2_11_wf : GatherDims.WF S4096x512 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .i32 = 32 ∨ (Rect.block (s := S1x4096) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def scatter_S512_S4096x1_S4096_n_0_0_1 : ScatterDims S512 S4096x1 S4096 where
  updateWindowDims := []
  insertedWindowDims := [0]
  scatterDimsToOperandDims := [0]
  indexVectorDim := 1
  wf := scatter_S512_S4096x1_S4096_n_0_0_1_wf
def gather_S512_S4096x1_S4096_n_0_n_n_0_1_1 : GatherDims S512 S4096x1 S4096 where
  offsetDims := []
  collapsedSliceDims := [0]
  operandBatchingDims := []
  startIndicesBatchingDims := []
  startIndexMap := [0]
  indexVectorDim := 1
  sliceSizes := ![1]
  wf := gather_S512_S4096x1_S4096_n_0_n_n_0_1_1_wf
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def gather_S4096x512_S4096x1x1_S4096x1_n_1_0_0_1_2_11 : GatherDims S4096x512 S4096x1x1 S4096x1 where
  offsetDims := []
  collapsedSliceDims := [1]
  operandBatchingDims := [0]
  startIndicesBatchingDims := [0]
  startIndexMap := [1]
  indexVectorDim := 2
  sliceSizes := ![1, 1]
  wf := gather_S4096x512_S4096x1x1_S4096x1_n_1_0_0_1_2_11_wf

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v82) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v81) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v83) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S4096x512 : Shape := ⟨2, ![4096, 512]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩
abbrev S4096x1x1 : Shape := ⟨3, ![4096, 1, 1]⟩
abbrev S1 : Shape := ⟨1, ![1]⟩
abbrev S1x1x1 : Shape := ⟨3, ![1, 1, 1]⟩
abbrev S4096x8192 : Shape := ⟨2, ![4096, 8192]⟩
abbrev S4096x4096x1 : Shape := ⟨3, ![4096, 4096, 1]⟩
abbrev S4096x4096x2 : Shape := ⟨3, ![4096, 4096, 2]⟩
abbrev S4096x8191 : Shape := ⟨2, ![4096, 8191]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096, .i32⟩
  | 2 => ⟨S4096x512, .f32⟩
  | 3 => ⟨S4096x1024, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S1024x4096, .f32⟩
  | 15 => ⟨S4096x4096, .f32⟩
  | 16 => ⟨S_, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x1, .i32⟩
  | 26 => ⟨S1x4096, .i32⟩
  | 27 => ⟨S4096x4096, .i32⟩
  | 28 => ⟨S4096x4096, .i32⟩
  | 29 => ⟨S4096x4096, .i1⟩
  | 30 => ⟨S4096x4096, .i32⟩
  | 31 => ⟨S4096x4096, .i32⟩
  | 32 => ⟨S_, .i32⟩
  | 33 => ⟨S4096x4096, .i32⟩
  | 34 => ⟨S4096x4096, .i32⟩
  | 35 => ⟨S4096x4096, .i1⟩
  | 36 => ⟨S4096x4096, .i1⟩
  | 37 => ⟨S4096x4096, .i1⟩
  | 38 => ⟨S4096x4096, .i1⟩
  | 39 => ⟨S4096x4096, .i32⟩
  | 40 => ⟨S_, .i1⟩
  | 41 => ⟨S_, .i32⟩
  | 42 => ⟨S4096, .i1⟩
  | 43 => ⟨S4096, .i32⟩
  | 44 => ⟨S_, .i1⟩
  | 45 => ⟨S4096, .i1⟩
  | 46 => ⟨S4096x1, .i32⟩
  | 47 => ⟨S_, .i32⟩
  | 48 => ⟨S4096x1, .i32⟩
  | 49 => ⟨S4096x1, .i1⟩
  | 50 => ⟨S_, .i32⟩
  | 51 => ⟨S4096x1, .i32⟩
  | 52 => ⟨S4096x1, .i32⟩
  | 53 => ⟨S4096x1, .i32⟩
  | 54 => ⟨S4096x1x1, .i32⟩
  | 55 => ⟨S1, .i32⟩
  | 56 => ⟨S_, .i32⟩
  | 57 => ⟨S4096x1x1, .i32⟩
  | 58 => ⟨S4096x1x1, .i1⟩
  | 59 => ⟨S1x1x1, .i32⟩
  | 60 => ⟨S4096x1x1, .i32⟩
  | 61 => ⟨S4096x1x1, .i1⟩
  | 62 => ⟨S4096x1x1, .i1⟩
  | 63 => ⟨S_, .i1⟩
  | 64 => ⟨S4096x1, .i1⟩
  | 65 => ⟨S4096x1, .f32⟩
  | 66 => ⟨S_, .f32⟩
  | 67 => ⟨S4096x1, .f32⟩
  | 68 => ⟨S4096x1, .f32⟩
  | 69 => ⟨S4096, .f32⟩
  | 70 => ⟨S_, .f32⟩
  | 71 => ⟨S_, .f32⟩
  | 72 => ⟨S4096, .f32⟩
  | 73 => ⟨S4096, .f32⟩
  | 74 => ⟨S4096x4096, .i32⟩
  | 75 => ⟨S_, .i32⟩
  | 76 => ⟨S_, .i32⟩
  | 77 => ⟨S4096x4096, .i32⟩
  | 78 => ⟨S_, .i32⟩
  | 79 => ⟨S_, .i32⟩
  | 80 => ⟨S4096x4096, .i32⟩
  | 81 => ⟨S4096x4096, .i32⟩
  | 82 => ⟨S4096, .i32⟩
  | 83 => ⟨S4096x1, .i32⟩
  | 84 => ⟨S_, .f32⟩
  | 85 => ⟨S4096x8192, .f32⟩
  | 86 => ⟨S_, .f32⟩
  | 87 => ⟨S_, .f32⟩
  | 88 => ⟨S4096x4096, .f32⟩
  | 89 => ⟨S4096x4096, .f32⟩
  | 90 => ⟨S_, .i32⟩
  | 91 => ⟨S4096x1, .i32⟩
  | 92 => ⟨S4096x1, .i1⟩
  | 93 => ⟨S_, .i32⟩
  | 94 => ⟨S4096x1, .i32⟩
  | 95 => ⟨S4096x1, .i32⟩
  | 96 => ⟨S4096x1, .i32⟩
  | 97 => ⟨S_, .i32⟩
  | 98 => ⟨S4096x4096, .i32⟩
  | 99 => ⟨S4096x4096, .i1⟩
  | 100 => ⟨S_, .i32⟩
  | 101 => ⟨S4096x4096, .i32⟩
  | 102 => ⟨S4096x4096, .i32⟩
  | 103 => ⟨S4096x4096, .i32⟩
  | 104 => ⟨S4096x4096, .i32⟩
  | 105 => ⟨S4096x4096x1, .i32⟩
  | 106 => ⟨S4096x4096x1, .i32⟩
  | 107 => ⟨S4096x4096x2, .i32⟩
  | 108 => ⟨S4096x8192, .f32⟩
  | 109 => ⟨S_, .i32⟩
  | 110 => ⟨S1, .i32⟩
  | 111 => ⟨S4096x8192, .f32⟩
  | 112 => ⟨S4096x8191, .f32⟩
  | 113 => ⟨S_, .f32⟩
  | 114 => ⟨S4096, .f32⟩
  | 115 => ⟨S_, .f32⟩
  | 116 => ⟨S4096, .f32⟩
  | 117 => ⟨S4096, .f32⟩
  | 118 => ⟨S4096x1, .f32⟩
  | 119 => ⟨S4096x8191, .f32⟩
  | 120 => ⟨S4096x8191, .f32⟩
  | 121 => ⟨S4096x8191, .f32⟩
  | 122 => ⟨S_, .f32⟩
  | 123 => ⟨S4096, .f32⟩
  | 124 => ⟨S4096x1, .f32⟩
  | 125 => ⟨S4096x1, .f32⟩
  | 126 => ⟨S4096x8191, .f32⟩
  | 127 => ⟨S4096x8191, .f32⟩
  | _ => ⟨S4096x1024, .f32⟩

abbrev hbmTy0_1 (i : Nat) : BufTy := match i % 128 with
  | 0 => ⟨S4096x1, .f32⟩
  | 1 => ⟨S4096, .f32⟩
  | 2 => ⟨S4096, .f32⟩
  | 3 => ⟨S_, .f32⟩
  | 4 => ⟨S_, .f32⟩
  | 5 => ⟨S_, .f32⟩
  | 6 => ⟨S_, .f32⟩
  | 7 => ⟨S_, .f32⟩
  | 8 => ⟨S4096, .f32⟩
  | 9 => ⟨S_, .f32⟩
  | 10 => ⟨S4096, .f32⟩
  | 11 => ⟨S4096, .f32⟩
  | 12 => ⟨S4096x1, .f32⟩
  | 13 => ⟨S4096x512, .f32⟩
  | 14 => ⟨S4096x512, .f32⟩
  | 15 => ⟨S4096x512, .f32⟩
  | 16 => ⟨S_, .f32⟩
  | 17 => ⟨S4096, .f32⟩
  | 18 => ⟨S4096x1, .f32⟩
  | 19 => ⟨S4096x1, .f32⟩
  | 20 => ⟨S4096x512, .f32⟩
  | 21 => ⟨S4096x512, .f32⟩
  | 22 => ⟨S4096x1, .i32⟩
  | 23 => ⟨S_, .i32⟩
  | 24 => ⟨S4096x1, .i32⟩
  | 25 => ⟨S4096x1, .i1⟩
  | 26 => ⟨S_, .i32⟩
  | 27 => ⟨S4096x1, .i32⟩
  | 28 => ⟨S4096x1, .i32⟩
  | 29 => ⟨S4096x1, .i32⟩
  | 30 => ⟨S4096x1x1, .i32⟩
  | 31 => ⟨S1, .i32⟩
  | 32 => ⟨S_, .i32⟩
  | 33 => ⟨S4096x1x1, .i32⟩
  | 34 => ⟨S4096x1x1, .i1⟩
  | 35 => ⟨S1x1x1, .i32⟩
  | 36 => ⟨S4096x1x1, .i32⟩
  | 37 => ⟨S4096x1x1, .i1⟩
  | 38 => ⟨S4096x1x1, .i1⟩
  | 39 => ⟨S_, .i1⟩
  | 40 => ⟨S4096x1, .i1⟩
  | 41 => ⟨S4096x1, .f32⟩
  | 42 => ⟨S_, .f32⟩
  | 43 => ⟨S4096x1, .f32⟩
  | 44 => ⟨S4096x1, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_v0 : Ref sig .tc := ⟨.hbm, 39, rfl⟩
abbrev main_call2_c : Ref sig .tc := ⟨.hbm, 40, rfl⟩
abbrev main_call2_c_0 : Ref sig .tc := ⟨.hbm, 41, rfl⟩
abbrev main_call2_v1_0 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_cst : Ref sig .tc := ⟨.hbm, 66, rfl⟩
abbrev main_call3_v14 : Ref sig .tc := ⟨.hbm, 67, rfl⟩
abbrev main_v28 : Ref sig .tc := ⟨.hbm, 68, rfl⟩
abbrev main_v29 : Ref sig .tc := ⟨.hbm, 69, rfl⟩
abbrev main_cst_4 : Ref sig .tc := ⟨.hbm, 70, rfl⟩
abbrev main_call4_v0 : Ref sig .tc := ⟨.hbm, 71, rfl⟩
abbrev main_call4_v1 : Ref sig .tc := ⟨.hbm, 72, rfl⟩
abbrev main_v30 : Ref sig .tc := ⟨.hbm, 73, rfl⟩
abbrev main_call5_v0 : Ref sig .tc := ⟨.hbm, 74, rfl⟩
abbrev main_call5_call0_c : Ref sig .tc := ⟨.hbm, 75, rfl⟩
abbrev main_call5_call0_v0 : Ref sig .tc := ⟨.hbm, 76, rfl⟩
abbrev main_v31 : Ref sig .tc := ⟨.hbm, 77, rfl⟩
abbrev main_c_5 : Ref sig .tc := ⟨.hbm, 78, rfl⟩
abbrev main_call6_v0 : Ref sig .tc := ⟨.hbm, 79, rfl⟩
abbrev main_call6_v1 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_6 : Ref sig .tc := ⟨.hbm, 84, rfl⟩
abbrev main_v35 : Ref sig .tc := ⟨.hbm, 85, rfl⟩
abbrev main_cst_7 : Ref sig .tc := ⟨.hbm, 86, rfl⟩
abbrev main_call7_v0 : Ref sig .tc := ⟨.hbm, 87, rfl⟩
abbrev main_call7_v1 : Ref sig .tc := ⟨.hbm, 88, rfl⟩
abbrev main_v36 : Ref sig .tc := ⟨.hbm, 89, rfl⟩
abbrev main_c_8 : Ref sig .tc := ⟨.hbm, 90, rfl⟩
abbrev main_v37 : Ref sig .tc := ⟨.hbm, 91, rfl⟩
abbrev main_v38 : Ref sig .tc := ⟨.hbm, 92, rfl⟩
abbrev main_c_9 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_10 : Ref sig .tc := ⟨.hbm, 97, rfl⟩
abbrev main_v42 : Ref sig .tc := ⟨.hbm, 98, rfl⟩
abbrev main_v43 : Ref sig .tc := ⟨.hbm, 99, rfl⟩
abbrev main_c_11 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_c_12 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_call8_cst : Ref sig .tc := ⟨.hbm, 113, rfl⟩
abbrev main_call8_v0 : Ref sig .tc := ⟨.hbm, 114, rfl⟩
abbrev main_call8_cst_0 : Ref sig .tc := ⟨.hbm, 115, rfl⟩
abbrev main_call8_v1 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_call8_v5 : Ref sig .tc := ⟨.hbm, 120, rfl⟩
abbrev main_call8_v6 : Ref sig .tc := ⟨.hbm, 121, rfl⟩
abbrev main_call8_cst_1 : Ref sig .tc := ⟨.hbm, 122, rfl⟩
abbrev main_call8_v7 : Ref sig .tc := ⟨.hbm, 123, rfl⟩
abbrev main_call8_v8 : Ref sig .tc := ⟨.hbm, 124, rfl⟩
abbrev main_call8_v9 : Ref sig .tc := ⟨.hbm, 125, rfl⟩
abbrev main_call8_v10 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_13 : Ref sig .tc := ⟨.hbm, 131, rfl⟩
abbrev main_v59 : Ref sig .tc := ⟨.hbm, 132, rfl⟩
abbrev main_cst_14 : Ref sig .tc := ⟨.hbm, 133, rfl⟩
abbrev main_v60 : Ref sig .tc := ⟨.hbm, 134, rfl⟩
abbrev main_call9_cst : Ref sig .tc := ⟨.hbm, 135, rfl⟩
abbrev main_call9_v0 : Ref sig .tc := ⟨.hbm, 136, rfl⟩
abbrev main_call9_cst_0 : Ref sig .tc := ⟨.hbm, 137, rfl⟩
abbrev main_call9_v1 : Ref sig .tc := ⟨.hbm, 138, rfl⟩
abbrev main_call9_v2 : Ref sig .tc := ⟨.hbm, 139, rfl⟩
abbrev main_call9_v3 : Ref sig .tc := ⟨.hbm, 140, rfl⟩
abbrev main_call9_v4 : Ref sig .tc := ⟨.hbm, 141, rfl⟩
abbrev main_call9_v5 : Ref sig .tc := ⟨.hbm, 142, rfl⟩
abbrev main_call9_v6 : Ref sig .tc := ⟨.hbm, 143, rfl⟩
abbrev main_call9_cst_1 : Ref sig .tc := ⟨.hbm, 144, rfl⟩
abbrev main_call9_v7 : Ref sig .tc := ⟨.hbm, 145, rfl⟩
abbrev main_call9_v8 : Ref sig .tc := ⟨.hbm, 146, rfl⟩
abbrev main_call9_v9 : Ref sig .tc := ⟨.hbm, 147, rfl⟩
abbrev main_call9_v10 : Ref sig .tc := ⟨.hbm, 148, rfl⟩
abbrev main_v61 : Ref sig .tc := ⟨.hbm, 149, rfl⟩
abbrev main_v62 : Ref sig .tc := ⟨.hbm, 150, rfl⟩
abbrev main_call10_c : Ref sig .tc := ⟨.hbm, 151, rfl⟩
abbrev main_call10_v0 : Ref sig .tc := ⟨.hbm, 152, rfl⟩
abbrev main_call10_v1 : Ref sig .tc := ⟨.hbm, 153, rfl⟩
abbrev main_call10_c_0 : Ref sig .tc := ⟨.hbm, 154, rfl⟩
abbrev main_call10_v2 : Ref sig .tc := ⟨.hbm, 155, rfl⟩
abbrev main_call10_v3 : Ref sig .tc := ⟨.hbm, 156, rfl⟩
abbrev main_call10_v4 : Ref sig .tc := ⟨.hbm, 157, rfl⟩
abbrev main_call10_v5 : Ref sig .tc := ⟨.hbm, 158, rfl⟩
abbrev main_call10_c_1 : Ref sig .tc := ⟨.hbm, 159, rfl⟩
abbrev main_call10_c_2 : Ref sig .tc := ⟨.hbm, 160, rfl⟩
abbrev main_call10_v6 : Ref sig .tc := ⟨.hbm, 161, rfl⟩
abbrev main_call10_v7 : Ref sig .tc := ⟨.hbm, 162, rfl⟩
abbrev main_call10_v8 : Ref sig .tc := ⟨.hbm, 163, rfl⟩
abbrev main_call10_v9 : Ref sig .tc := ⟨.hbm, 164, rfl⟩
abbrev main_call10_v10 : Ref sig .tc := ⟨.hbm, 165, rfl⟩
abbrev main_call10_v11 : Ref sig .tc := ⟨.hbm, 166, rfl⟩
abbrev main_call10_c_3 : Ref sig .tc := ⟨.hbm, 167, rfl⟩
abbrev main_call10_v12 : Ref sig .tc := ⟨.hbm, 168, rfl⟩
abbrev main_call10_v13 : Ref sig .tc := ⟨.hbm, 169, rfl⟩
abbrev main_call10_cst : Ref sig .tc := ⟨.hbm, 170, rfl⟩
abbrev main_call10_v14 : Ref sig .tc := ⟨.hbm, 171, rfl⟩
abbrev main_v63 : Ref sig .tc := ⟨.hbm, 172, rfl⟩
abbrev main_cst_15 : Ref sig .tc := ⟨.hbm, 173, rfl⟩
abbrev main_v64 : Ref sig .tc := ⟨.hbm, 174, rfl⟩
abbrev main_cst_16 : Ref sig .tc := ⟨.hbm, 175, rfl⟩
abbrev main_v65 : Ref sig .tc := ⟨.hbm, 176, rfl⟩
abbrev main_v66 : Ref sig .tc := ⟨.hbm, 177, rfl⟩
abbrev main_cst_17 : Ref sig .tc := ⟨.hbm, 178, rfl⟩
abbrev main_v67 : Ref sig .tc := ⟨.hbm, 179, rfl⟩
abbrev main_cst_18 : Ref sig .tc := ⟨.hbm, 180, rfl⟩
abbrev main_v68 : Ref sig .tc := ⟨.hbm, 181, rfl⟩
abbrev main_v69 : Ref sig .tc := ⟨.hbm, 182, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S_S4096 : S_.BroadcastsInDim S4096 (![] : Fin 0 → Fin S4096.rank)
  natLt_1_32 : 1 < 32
  bcast_S_S_ : S_.BroadcastsInDim S_ (![] : Fin 0 → Fin S_.rank)
  reduceWindows_S4096x4096_S4096x4096_w1s1p0_0_w4096s1p4095_0 : S4096x4096.ReduceWindows (![1, 4096] : Fin 2 → Nat) ![1, 1] ![0, 4095] ![0, 0] S4096x4096
  bcast_S_S4096x8192 : S_.BroadcastsInDim S4096x8192 (![] : Fin 0 → Fin S4096x8192.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bcast_S_S1 : S_.BroadcastsInDim S1 (![] : Fin 0 → Fin S1.rank)
  slices_S4096x8192_S4096x8191_0_0 : S4096x8192.Slices ![0, 0] S4096x8191
  reducesTo_S4096x8191_S4096_d1 : S4096x8191.ReducesTo [1] S4096
  bcast_S4096x1_S4096x8191_0_1 : S4096x1.BroadcastsInDim S4096x8191 (![0, 1] : Fin 2 → Fin S4096x8191.rank)
  slices_S4096x8191_S4096x1_0_0 : S4096x8191.Slices ![0, 0] S4096x1
  reducesTo_S4096_S_d0 : S4096.ReducesTo [0] S_
  reducesTo_S4096x512_S4096_d1 : S4096x512.ReducesTo [1] S4096
  bcast_S4096x1_S4096x512_0_1 : S4096x1.BroadcastsInDim S4096x512 (![0, 1] : Fin 2 → Fin S4096x512.rank)
  reducesTo_S4096x1_S_d0_1 : S4096x1.ReducesTo [0, 1] S_
  dot_S4096x1024_S1024x4096_S4096x4096_1_0_0_1_n_n_wf : DotDims.WF S4096x1024 S1024x4096 S4096x4096 [1] [0] [0] [1] [] []
  gather_S4096x4096_S4096x1x1_S4096x1_n_1_0_0_1_2_11_wf : GatherDims.WF S4096x4096 S4096x1x1 S4096x1 [] [1] [0] [1] [0] 2 ![1, 1]
  scatter_S4096x8192_S4096x4096x2_S4096x4096_n_01_01_2_wf : ScatterDims.WF S4096x8192 S4096x4096x2 S4096x4096 [] [0, 1] [0, 1] 2
  scatter_S4096x8192_S1_S4096_0_1_1_0_wf : ScatterDims.WF S4096x8192 S1 S4096 [0] [1] [1] 0
  gather_S4096x512_S4096x1x1_S4096x1_n_1_0_0_1_2_11_wf : GatherDims.WF S4096x512 S4096x1x1 S4096x1 [] [1] [0] [1] [0] 2 ![1, 1]

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x4096_S4096x1x1_S4096x1_n_1_0_0_1_2_11 : GatherDims S4096x4096 S4096x1x1 S4096x1 where
  offsetDims := []
  collapsedSliceDims := [1]
  operandBatchingDims := [0]
  startIndicesBatchingDims := [0]
  startIndexMap := [1]
  indexVectorDim := 2
  sliceSizes := ![1, 1]
  wf := gather_S4096x4096_S4096x1x1_S4096x1_n_1_0_0_1_2_11_wf
def scatter_S4096x8192_S4096x4096x2_S4096x4096_n_01_01_2 : ScatterDims S4096x8192 S4096x4096x2 S4096x4096 where
  updateWindowDims := []
  insertedWindowDims := [0, 1]
  scatterDimsToOperandDims := [0, 1]
  indexVectorDim := 2
  wf := scatter_S4096x8192_S4096x4096x2_S4096x4096_n_01_01_2_wf
def scatter_S4096x8192_S1_S4096_0_1_1_0 : ScatterDims S4096x8192 S1 S4096 where
  updateWindowDims := [0]
  insertedWindowDims := [1]
  scatterDimsToOperandDims := [1]
  indexVectorDim := 0
  wf := scatter_S4096x8192_S1_S4096_0_1_1_0_wf
def gather_S4096x512_S4096x1x1_S4096x1_n_1_0_0_1_2_11 : GatherDims S4096x512 S4096x1x1 S4096x1 where
  offsetDims := []
  collapsedSliceDims := [1]
  operandBatchingDims := [0]
  startIndicesBatchingDims := [0]
  startIndexMap := [1]
  indexVectorDim := 2
  sliceSizes := ![1, 1]
  wf := gather_S4096x512_S4096x1x1_S4096x1_n_1_0_0_1_2_11_wf

class Facts : Prop extends Facts₀ where

variable [Facts]
-- ==== Proof.Spec.lean ====
import Idealize.ShloMosaic.Lib.ValueIdx

noncomputable section

open scoped BigOperators

namespace Cert.CLCE

open Idealize.ShloMosaic

variable (xn : Fin 4096 → Fin 1024 → EReal) (y : Fin 4096 → BitVec 32)

def dotE (i j : Fin 4096) : EReal := ∑ k : Fin 1024, xn i k * xn j k

def posSet (i : Fin 4096) : Finset (Fin 4096) := Finset.univ.filter fun j => j ≠ i ∧ y j = y i

def firstPos (i : Fin 4096) : Fin 4096 := if h : (posSet y i).Nonempty then (posSet y i).min' h else 0

def sameCount (i : Fin 4096) : ℕ := (Finset.univ.filter fun j : Fin 4096 => y j = y i).card

def quarter : EReal := ((1 / 4 : ℝ) : EReal)

def slot0E (i : Fin 4096) : EReal :=
  if (posSet y i).Nonempty then (dotE xn i (firstPos y i) + 1) * quarter else 0

def negsumE (i : Fin 4096) : EReal :=
  ∑ j : Fin 4096, if y i = y j then 0 else Ideal.exp (dotE xn i j * quarter + quarter)

-- The cross entropy of slot 0 among the negatives' scaled similarities and 4094 + sameCount zero entries.
def rowE (i : Fin 4096) : EReal :=
  Ideal.log (Ideal.exp (slot0E xn y i) + negsumE xn y i + (((4094 : ℝ) : EReal) + ((sameCount y i : ℝ) : EReal)))
    - slot0E xn y i

end Cert.CLCE

end
-- ==== Proof.PreFacts.lean ====
import proofs.«401202_j76493367542062_3_alg».proof.Pre_finite_inputs
import Idealize.ShloMosaic.Lib.ReduceAll
import Idealize.ShloMosaic.Lib.StableHlo.Predicate
import Idealize.ShloMosaic.Lib.IdealHost

noncomputable section

namespace Cert.PreDecode

open Idealize.ShloMosaic Idealize.ShloMosaic.ValueIdx
open scoped BigOperators

instance : Subsingleton (⟨0, ![]⟩ : Shape).Idx := ⟨fun a b => funext fun d => d.elim0⟩

theorem top_eq : Ideal.ofBits .f32 0x7F800000#32 = (⊤ : EReal) := by
  simp [Ideal.ofBits, Ideal.ieee]

-- A value whose absolute value is below +infinity is neither infinity.
theorem real_of_abs_lt_top (a : EReal) (h : Ideal.cmp .olt (max a (-a)) ⊤ = 1#1) : ∃ r : ℝ, a = (r : EReal) := by
  induction a using EReal.rec with
  | coe r => exact ⟨r, rfl⟩
  | _ => simp [Ideal.cmp] at h

section Pre

variable [Cert.Pre_finite_inputs.Facts] (x : FVec Ideal ⟨2, ![4096, 1024]⟩ .f32) (y : IVec ⟨1, ![4096]⟩ 32)
  (p : FVec Ideal ⟨2, ![4096, 512]⟩ .f32) (h : Cert.Pre_finite_inputs.fn (F := Ideal) x y p = fun _ => 1#1)

include h

-- The precondition is a conjunction of all-reductions; each gives its comparison at every index.
theorem split3 :
    (∀ i : (⟨2, ![4096, 1024]⟩ : Shape).Idx, Ideal.cmp .olt (max (x i) (-(x i))) (Ideal.ofBits .f32 0x7F800000#32) = 1#1)
    ∧ (∀ i : (⟨1, ![4096]⟩ : Shape).Idx, IntOp.cmpi .sge (y i) 0#32 = 1#1)
    ∧ (∀ i : (⟨1, ![4096]⟩ : Shape).Idx, IntOp.cmpi .slt (y i) 512#32 = 1#1) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  exact ⟨Host.reduce_andi_all _ _ _ _ _ (IntOp.andi_eq_one.1 h12).1, Host.reduce_andi_all _ _ _ _ _ h3,
    Host.reduce_andi_all _ _ _ _ _ h4⟩

theorem x_real : ∀ i : (⟨2, ![4096, 1024]⟩ : Shape).Idx, ∃ r : ℝ, x i = (r : EReal) := fun i => by
  have e := (split3 x y p h).1 i
  rw [top_eq] at e
  exact real_of_abs_lt_top _ e

theorem y_range : ∀ i : (⟨1, ![4096]⟩ : Shape).Idx, 0 ≤ (y i).toInt ∧ (y i).toInt < 512 := fun i =>
  ⟨IntOp.cmpi_sge.1 ((split3 x y p h).2.1 i), IntOp.cmpi_slt.1 ((split3 x y p h).2.2 i)⟩

theorem y_toNat_lt : ∀ i : (⟨1, ![4096]⟩ : Shape).Idx, (y i).toNat < 512 := fun i => by
  obtain ⟨e3, e4⟩ := y_range x y p h i
  have hlt := (y i).isLt
  rw [BitVec.toInt_eq_toNat_cond] at e3 e4
  split at e3 <;> omega

end Pre

def nrmOf (x : FVec Ideal ⟨2, ![4096, 1024]⟩ .f32) : FVec Ideal ⟨2, ![4096, 1]⟩ .f32 :=
  maximumf
    (broadcastInDim (⟨2, ![4096, 1]⟩ : Shape) ![] (by decide)
      (id (constant (F := Ideal) (⟨0, ![]⟩ : Shape) .f32 0x322BCC77#32)))
    (Host.sqrt
      (broadcastInDim (⟨2, ![4096, 1]⟩ : Shape) ![0] (by decide)
        (Host.reduceAdd (axes := [1]) (t := (⟨1, ![4096]⟩ : Shape)) (mulf x x)
          (constant (F := Ideal) (⟨0, ![]⟩ : Shape) .f32 0x00000000#32) (by decide) (by decide))))

def xnOf (x : FVec Ideal ⟨2, ![4096, 1024]⟩ .f32) : FVec Ideal ⟨2, ![4096, 1024]⟩ .f32 :=
  Host.divf x (broadcastInDim (⟨2, ![4096, 1024]⟩ : Shape) ![0, 1] (by decide) (nrmOf x))

theorem coe_sum {ι : Type} (s : Finset ι) (f : ι → ℝ) :
    ∑ i ∈ s, ((f i : ℝ) : EReal) = ((∑ i ∈ s, f i : ℝ) : EReal) := by
  classical
  exact s.induction_on (by simp) fun a s ha ih => by
    rw [Finset.sum_insert ha, Finset.sum_insert ha, ih, EReal.coe_add]

theorem c8_pos_real : ∃ c : ℝ, 0 < c ∧ Ideal.ofBits .f32 0x322BCC77#32 = (c : EReal) :=
  ⟨(11258999 : ℝ) * (2 : ℝ) ^ (-50 : ℤ), by positivity, by simp [Ideal.ofBits, Ideal.ieee, -EReal.coe_mul]⟩

theorem hostReduceAdd_real {s t : Shape} {axes : List (Fin s.rank)} (h : s.ReducesTo axes t) (f : s.Idx → EReal)
    (g : s.Idx → ℝ) (hg : ∀ i, f i = (g i : EReal)) (hg0 : ∀ i, 0 ≤ g i) (j : t.Idx) :
    ∃ S : ℝ, 0 ≤ S ∧ Ideal.hostReduceAdd h f 0 j = (S : EReal) := by
  unfold Ideal.hostReduceAdd
  rw [zero_add, Finset.sum_congr rfl (fun i _ => hg i), coe_sum]
  exact ⟨_, Finset.sum_nonneg (fun i _ => hg0 i), rfl⟩

theorem nrmOf_apply (x : FVec Ideal ⟨2, ![4096, 1024]⟩ .f32) (j : (⟨2, ![4096, 1]⟩ : Shape).Idx) :
    ∃ j' : (⟨1, ![4096]⟩ : Shape).Idx, nrmOf x j = max (Ideal.ofBits .f32 0x322BCC77#32) (Ideal.sqrt (Ideal.hostReduceAdd (axes := [1])
      (by decide : (⟨2, ![4096, 1024]⟩ : Shape).ReducesTo [1] ⟨1, ![4096]⟩) (fun i => x i * x i)
      (Ideal.ofBits .f32 0x00000000#32) j')) := ⟨_, rfl⟩

theorem xnOf_apply (x : FVec Ideal ⟨2, ![4096, 1024]⟩ .f32) (j : (⟨2, ![4096, 1024]⟩ : Shape).Idx) :
    ∃ j' : (⟨2, ![4096, 1]⟩ : Shape).Idx, xnOf x j = Ideal.div (x j) (nrmOf x j') := ⟨_, rfl⟩

-- The norm is the larger of a positive constant and the square root of a finite non-negative sum.
theorem nrmOf_pos_real (x : FVec Ideal ⟨2, ![4096, 1024]⟩ .f32)
    (hx : ∀ i : (⟨2, ![4096, 1024]⟩ : Shape).Idx, ∃ r : ℝ, x i = (r : EReal)) :
    ∀ j : (⟨2, ![4096, 1]⟩ : Shape).Idx, ∃ r : ℝ, 0 < r ∧ nrmOf x j = (r : EReal) := fun j => by
  choose r hr using hx
  obtain ⟨j', e⟩ := nrmOf_apply x j
  obtain ⟨S, hS0, hS⟩ := hostReduceAdd_real (axes := [1])
    (by decide : (⟨2, ![4096, 1024]⟩ : Shape).ReducesTo [1] ⟨1, ![4096]⟩) (fun i => x i * x i) (fun i => r i * r i)
    (fun i => by rw [hr i, EReal.coe_mul]) (fun i => mul_self_nonneg _) j'
  obtain ⟨c, hc0, hc⟩ := c8_pos_real
  rw [e, Ideal.ofBits_zero_f32, hS, Ideal.sqrt_coe, if_neg (not_lt.2 hS0), hc]
  exact ⟨max c (Real.sqrt S), lt_max_of_lt_left hc0, (EReal.coe_strictMono.monotone.map_max).symm⟩

theorem div_real (a n : ℝ) (hn : 0 < n) : Ideal.div (a : EReal) (n : EReal) = ((a / n : ℝ) : EReal) := by
  unfold Ideal.div
  rw [if_neg (by exact_mod_cast hn.ne'), ← EReal.coe_inv, ← EReal.coe_mul, div_eq_mul_inv]

theorem xnOf_real_ix (x : FVec Ideal ⟨2, ![4096, 1024]⟩ .f32)
    (hx : ∀ i : (⟨2, ![4096, 1024]⟩ : Shape).Idx, ∃ r : ℝ, x i = (r : EReal)) (i : Fin 4096) (k : Fin 1024) :
    ∃ r : ℝ, xnOf x (ix2 i k) = (r : EReal) := by
  obtain ⟨j', e⟩ := xnOf_apply x (ix2 i k)
  obtain ⟨n, hn0, hn⟩ := nrmOf_pos_real x hx j'
  obtain ⟨a, ha⟩ := hx (ix2 i k)
  exact ⟨a / n, by rw [e, ha, hn, div_real a n hn0]⟩

end Cert.PreDecode

end
-- ==== Proof.Tails.lean ====
import proofs.«401202_j76493367542062_3_alg».proof.KernelIdeal
import proofs.«401202_j76493367542062_3_alg».proof.ReferenceIdeal
import Idealize.ShloMosaic.Lib.IdealHost

noncomputable section

open scoped BigOperators

namespace Cert.CLCE.Tails

open Idealize.ShloMosaic Idealize.ShloMosaic.ValueIdx

theorem sum_idx_vec {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  exact (Equiv.sum_comp e.symm f).symm

section Kernel

open Cert.KernelIdeal Cert.KernelIdeal.Facts₀ Cert.KernelIdeal.Facts

variable {F : FTy → Type} [FloatOps F] [Cert.KernelIdeal.Facts]

def kLogSoftmax (p : FVec F S4096x512 .f32) : FVec F S4096x512 .f32 :=
  let v0 := Host.reduce (FloatOps.maximumf (F := F)) p (constant (F := F) S_ .f32 0xFF800000#32) reducesTo_S4096x512_S4096_d1 h_S_
  let v1 := broadcastInDim S4096 ![] bcast_S_S4096 (constant (F := F) S_ .f32 0xFF800000#32)
  let v2 := maximumf v1 v0
  let v3 := broadcastInDim S4096x1 ![0] bcast_S4096_S4096x1_0 v2
  let v4 := broadcastInDim S4096x512 ![0, 1] bcast_S4096x1_S4096x512_0_1 v3
  let v5 := subf p v4
  let v6 := Host.exp (F := F) v5
  let v7 := Host.reduceAdd (F := F) v6 (constant (F := F) S_ .f32 0x00000000#32) reducesTo_S4096x512_S4096_d1 h_S_
  let v8 := broadcastInDim S4096x1 ![0] bcast_S4096_S4096x1_0 v7
  let v9 := Host.log (F := F) v8
  let v10 := broadcastInDim S4096x512 ![0, 1] bcast_S4096x1_S4096x512_0_1 v9
  subf v5 v10

def kTakeAlong (x : FVec F S4096x512 .f32) (idx : IVec S4096x1 32) : FVec F S4096x1 .f32 :=
  let v0 := broadcastInDim S4096x1 ![] bcast_S_S4096x1 (constantI S_ 32 0#32)
  let v1 := cmpi .slt idx v0
  let v2 := broadcastInDim S4096x1 ![] bcast_S_S4096x1 (constantI S_ 32 512#32)
  let v3 := addi idx v2
  let v4 := select v1 v3 idx
  let v5 := shapeCast S4096x1x1 v4 shapeCasts_S4096x1_S4096x1x1
  let v6 := broadcastInDim S4096x1x1 ![] bcast_S_S4096x1x1 (constantI S_ 32 0#32)
  let v7 := cmpi .sge v5 v6
  let v8 := broadcastInDim S1x1x1 ![2] bcast_S1_S1x1x1_2 (constantI S1 32 511#32)
  let v9 := broadcastInDim S4096x1x1 ![0, 1, 2] bcast_S1x1x1_S4096x1x1_0_1_2 v8
  let v10 := cmpi .sle v5 v9
  let v11 := andi v7 v10
  let v12 := Host.reduce IntOp.andi v11 (constantI S_ 1 1#1) reducesTo_S4096x1x1_S4096x1_d2 h_S_
  let v13 := Host.gather gather_S4096x512_S4096x1x1_S4096x1_n_1_0_0_1_2_11 x v5
  let v14 := broadcastInDim S4096x1 ![] bcast_S_S4096x1 (constant (F := F) S_ .f32 0x7FC00000#32)
  select v12 v13 v14

def kCe (p : FVec F S4096x512 .f32) (y : IVec S4096 32) : FVec F S_ .f32 :=
  let v86 := kLogSoftmax p
  let v87 := broadcastInDim S4096x1 ![0] bcast_S4096_S4096x1_0 y
  let v88 := kTakeAlong v86 v87
  let v89 := Host.reduceAdd (F := F) v88 (constant (F := F) S_ .f32 0x00000000#32) reducesTo_S4096x1_S_d0_1 h_S_
  let v90 := Host.divf (F := F) v89 (constant (F := F) S_ .f32 0x45800000#32)
  Host.negf (F := F) v90

def kCl (out : FVec F S4096x1 .f32) : FVec F S_ .f32 :=
  let v84 := Host.reduceAdd (F := F) out (constant (F := F) S_ .f32 0x00000000#32) reducesTo_S4096x1_S_d0_1 h_S_
  Host.divf (F := F) v84 (constant (F := F) S_ .f32 0x45800000#32)

def kernelTail (out : FVec F S4096x1 .f32) (p : FVec F S4096x512 .f32) (y : IVec S4096 32) : FVec F S_ .f32 :=
  let v92 := mulf (constant (F := F) S_ .f32 0x3F000000#32) (kCl out)
  let v93 := mulf (constant (F := F) S_ .f32 0x3F000000#32) (kCe p y)
  addf v92 v93

end Kernel

section Reference

open Cert.ReferenceIdeal Cert.ReferenceIdeal.Facts₀ Cert.ReferenceIdeal.Facts

variable {F : FTy → Type} [FloatOps F] [Cert.ReferenceIdeal.Facts]

def rLogSoftmax (p : FVec F S4096x512 .f32) : FVec F S4096x512 .f32 :=
  let v0 := Host.reduce (FloatOps.maximumf (F := F)) p (constant (F := F) S_ .f32 0xFF800000#32) reducesTo_S4096x512_S4096_d1 h_S_
  let v1 := broadcastInDim S4096 ![] bcast_S_S4096 (constant (F := F) S_ .f32 0xFF800000#32)
  let v2 := maximumf v1 v0
  let v3 := broadcastInDim S4096x1 ![0] bcast_S4096_S4096x1_0 v2
  let v4 := broadcastInDim S4096x512 ![0, 1] bcast_S4096x1_S4096x512_0_1 v3
  let v5 := subf p v4
  let v6 := Host.exp (F := F) v5
  let v7 := Host.reduceAdd (F := F) v6 (constant (F := F) S_ .f32 0x00000000#32) reducesTo_S4096x512_S4096_d1 h_S_
  let v8 := broadcastInDim S4096x1 ![0] bcast_S4096_S4096x1_0 v7
  let v9 := Host.log (F := F) v8
  let v10 := broadcastInDim S4096x512 ![0, 1] bcast_S4096x1_S4096x512_0_1 v9
  subf v5 v10

def rTakeAlong (x : FVec F S4096x512 .f32) (idx : IVec S4096x1 32) : FVec F S4096x1 .f32 :=
  let v0 := broadcastInDim S4096x1 ![] bcast_S_S4096x1 (constantI S_ 32 0#32)
  let v1 := cmpi .slt idx v0
  let v2 := broadcastInDim S4096x1 ![] bcast_S_S4096x1 (constantI S_ 32 512#32)
  let v3 := addi idx v2
  let v4 := select v1 v3 idx
  let v5 := shapeCast S4096x1x1 v4 shapeCasts_S4096x1_S4096x1x1
  let v6 := broadcastInDim S4096x1x1 ![] bcast_S_S4096x1x1 (constantI S_ 32 0#32)
  let v7 := cmpi .sge v5 v6
  let v8 := broadcastInDim S1x1x1 ![2] bcast_S1_S1x1x1_2 (constantI S1 32 511#32)
  let v9 := broadcastInDim S4096x1x1 ![0, 1, 2] bcast_S1x1x1_S4096x1x1_0_1_2 v8
  let v10 := cmpi .sle v5 v9
  let v11 := andi v7 v10
  let v12 := Host.reduce IntOp.andi v11 (constantI S_ 1 1#1) reducesTo_S4096x1x1_S4096x1_d2 h_S_
  let v13 := Host.gather gather_S4096x512_S4096x1x1_S4096x1_n_1_0_0_1_2_11 x v5
  let v14 := broadcastInDim S4096x1 ![] bcast_S_S4096x1 (constant (F := F) S_ .f32 0x7FC00000#32)
  select v12 v13 v14

def rCe (p : FVec F S4096x512 .f32) (y : IVec S4096 32) : FVec F S_ .f32 :=
  let v61 := rLogSoftmax p
  let v62 := broadcastInDim S4096x1 ![0] bcast_S4096_S4096x1_0 y
  let v63 := rTakeAlong v61 v62
  let v64 := Host.reduceAdd (F := F) v63 (constant (F := F) S_ .f32 0x00000000#32) reducesTo_S4096x1_S_d0_1 h_S_
  let v65 := Host.divf (F := F) v64 (constant (F := F) S_ .f32 0x45800000#32)
  Host.negf (F := F) v65

def rCl (cl : FVec F S4096 .f32) : FVec F S_ .f32 :=
  let v59 := Host.reduceAdd (F := F) cl (constant (F := F) S_ .f32 0x00000000#32) reducesTo_S4096_S_d0 h_S_
  Host.divf (F := F) v59 (constant (F := F) S_ .f32 0x45800000#32)

def refTail (cl : FVec F S4096 .f32) (p : FVec F S4096x512 .f32) (y : IVec S4096 32) : FVec F S_ .f32 :=
  let v67 := mulf (constant (F := F) S_ .f32 0x3F000000#32) (rCl cl)
  let v68 := mulf (constant (F := F) S_ .f32 0x3F000000#32) (rCe p y)
  addf v67 v68

end Reference

section Agree

variable [Cert.KernelIdeal.Facts] [Cert.ReferenceIdeal.Facts]

-- Both reductions are the total sum over the 4096 rows.
theorem cl_agree (out : FVec Ideal Cert.KernelIdeal.S4096x1 .f32) (cl : FVec Ideal Cert.ReferenceIdeal.S4096 .f32)
    (h : ∀ i : Fin 4096, out (ix2 i 0) = cl (ix1 i)) : kCl (F := Ideal) out = rCl (F := Ideal) cl := by
  have hsum : Host.reduceAdd (F := Ideal) out (constant (F := Ideal) Cert.KernelIdeal.S_ .f32 0x00000000#32)
        Cert.KernelIdeal.Facts₀.reducesTo_S4096x1_S_d0_1 Cert.KernelIdeal.Facts₀.h_S_
      = Host.reduceAdd (F := Ideal) cl (constant (F := Ideal) Cert.ReferenceIdeal.S_ .f32 0x00000000#32)
        Cert.ReferenceIdeal.Facts₀.reducesTo_S4096_S_d0 Cert.ReferenceIdeal.Facts₀.h_S_ := by
    funext j
    rw [hostReduceAdd_apply, hostReduceAdd_apply, Ideal.hostReduceAdd_total _ (fun b => b.elim0),
      Ideal.hostReduceAdd_total _ (fun b => b.elim0), sum_idx2, sum_idx_vec]
    simp only [Fin.sum_univ_one]
    exact congrArg _ (Finset.sum_congr rfl fun i _ => h i)
  simp only [kCl, rCl]
  rw [hsum]

theorem tails_agree (out : FVec Ideal Cert.KernelIdeal.S4096x1 .f32) (cl : FVec Ideal Cert.ReferenceIdeal.S4096 .f32)
    (p : FVec Ideal Cert.KernelIdeal.S4096x512 .f32) (y : IVec Cert.KernelIdeal.S4096 32)
    (h : ∀ i : Fin 4096, out (ix2 i 0) = cl (ix1 i)) :
    kernelTail (F := Ideal) out p y = refTail (F := Ideal) cl p y := by
  simp only [kernelTail, refTail]
  rw [cl_agree out cl h]; rfl

end Agree

end Cert.CLCE.Tails

end
-- ==== Proof.RefOps.lean ====
import proofs.«401202_j76493367542062_3_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.TRef.binary (.of main_arg0 : StableHlo.TRef sig ⟨S4096x1024, .f32⟩) (.of main_arg0 : StableHlo.TRef sig ⟨S4096x1024, .f32⟩) main_call0.v0 mulf,
    StableHlo.TRef.nullary main_call0.cst (constant S_ .f32 0x00000000#32),
    StableHlo.TRef.binary main_call0.v0 main_call0.cst main_call0.v1 (fun x v => Host.reduceAdd x v reducesTo_S4096x1024_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x322BCC77#32),
    StableHlo.TRef.unary (.of main_cst : StableHlo.TRef sig ⟨S_, .f32⟩) main_call1.v0 id,
    StableHlo.TRef.unary main_call1.v0 main_call1.v1 (broadcastInDim S4096x1 ![] bcast_S_S4096x1),
    StableHlo.TRef.binary main_call1.v1 (.of main_v0 : StableHlo.TRef sig ⟨S4096x1, .f32⟩) main_call1.v2 maximumf,
    StableHlo.unary main_v1 main_v2 (broadcastInDim S4096x1024 ![0, 1] bcast_S4096x1_S4096x1024_0_1),
    StableHlo.binary main_arg0 main_v2 main_v3 (Host.divf),
    StableHlo.unary main_v3 main_v4 ((transpose S1024x4096 [1, 0] · transposes_S4096x1024_S1024x4096_1_0)),
    StableHlo.binary main_v3 main_v4 main_v5 ((fun l r => Host.dotGeneral dot_S4096x1024_S1024x4096_S4096x4096_1_0_0_1_n_n none l r)),
    StableHlo.nullary main_cst_0 (constant S_ .f32 0x3F800000#32),
    StableHlo.unary main_cst_0 main_v6 (broadcastInDim S4096x4096 ![] bcast_S_S4096x4096),
    StableHlo.binary main_v5 main_v6 main_v7 (addf),
    StableHlo.nullary main_cst_1 (constant S_ .f32 0x3F000000#32),
    StableHlo.unary main_cst_1 main_v8 (broadcastInDim S4096x4096 ![] bcast_S_S4096x4096),
    StableHlo.binary main_v7 main_v8 main_v9 (mulf),
    StableHlo.nullary main_cst_2 (constant S_ .f32 0x3F000000#32),
    StableHlo.unary main_cst_2 main_v10 (broadcastInDim S4096x4096 ![] bcast_S_S4096x4096),
    StableHlo.binary main_v9 main_v10 main_v11 (mulf),
    StableHlo.unary main_arg1 main_v12 (broadcastInDim S4096x1 ![0] bcast_S4096_S4096x1_0),
    StableHlo.unary main_arg1 main_v13 (broadcastInDim S1x4096 ![1] bcast_S4096_S1x4096_1),
    StableHlo.unary main_v12 main_v14 (broadcastInDim S4096x4096 ![0, 1] bcast_S4096x1_S4096x4096_0_1),
    StableHlo.unary main_v13 main_v15 (broadcastInDim S4096x4096 ![0, 1] bcast_S1x4096_S4096x4096_0_1),
    StableHlo.binary main_v14 main_v15 main_v16 (cmpi .eq),
    StableHlo.nullary main_v17 (iotaInDim S4096x4096 32 0),
    StableHlo.nullary main_v18 (iotaInDim S4096x4096 32 1),
    StableHlo.nullary main_c (constantI S_ 32 0#32),
    StableHlo.unary main_c main_v19 (broadcastInDim S4096x4096 ![] bcast_S_S4096x4096),
    StableHlo.binary main_v17 main_v19 main_v20 (addi),
    StableHlo.binary main_v20 main_v18 main_v21 (cmpi .eq),
    StableHlo.unary main_v21 main_v22 (noti),
    StableHlo.binary main_v16 main_v22 main_v23 (andi),
    StableHlo.unary main_v16 main_v24 (noti) ]

abbrev wr0 : List (Ref sig .tc) :=
  [main_call0.v0.ref, main_call0.cst.ref, main_call0.v1.ref, main_call0.v2.ref, main_call0.v3.ref, main_cst, main_call1.v0.ref, main_call1.v1.ref, main_call1.v2.ref, main_v2, main_v3, main_v4, main_v5, main_cst_0, main_v6, main_v7, main_cst_1, main_v8, main_v9, main_cst_2, main_v10, main_v11, main_v12, main_v13, main_v14, main_v15, main_v16, main_v17, main_v18, main_c, main_v19, main_v20, main_v21, main_v22, main_v23, main_v24]

theorem ops0_sub : (ops0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops0_writes : List.Forall₂ (fun (op : HloOp τ sig (Elt F)) (y : Ref sig .tc) => op.writes = {(Proc.devRef .tc y : DevRef τ sig)}) ops0 wr0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

abbrev ops1 : List (HloOp τ sig (Elt F)) :=
  [ StableHlo.TRef.nullary main_call2.v0 (iotaInDim S4096x4096 32 1),
    StableHlo.TRef.nullary main_call2.c (constantI S_ 1 0#1),
    StableHlo.TRef.nullary main_call2.c_0 (constantI S_ 32 0#32),
    StableHlo.TRef.quaternary (.of main_v23 : StableHlo.TRef sig ⟨S4096x4096, .i1⟩) main_call2.v0 main_call2.c main_call2.c_0 main_call2.v1_0 (fun x y u v j => (Host.reduce2 reducer_argmax_i1_i32 x y u v reducesTo_S4096x4096_S4096_d1 h_S_ j).1),
    StableHlo.TRef.quaternary (.of main_v23 : StableHlo.TRef sig ⟨S4096x4096, .i1⟩) main_call2.v0 main_call2.c main_call2.c_0 main_call2.v1_1 (fun x y u v j => (Host.reduce2 reducer_argmax_i1_i32 x y u v reducesTo_S4096x4096_S4096_d1 h_S_ j).2),
    StableHlo.nullary main_c_3 (constantI S_ 1 0#1),
    StableHlo.binary main_v23 main_c_3 main_v26 ((fun x v => Host.reduce IntOp.ori x v reducesTo_S4096x4096_S4096_d1 h_S_)),
    StableHlo.unary main_v25 main_v27 (broadcastInDim S4096x1 ![0] bcast_S4096_S4096x1_0),
    StableHlo.TRef.nullary main_call3.c (constantI S_ 32 0#32),
    StableHlo.TRef.unary main_call3.c main_call3.v0 (broadcastInDim S4096x1 ![] bcast_S_S4096x1),
    StableHlo.TRef.binary (.of main_v27 : StableHlo.TRef sig ⟨S4096x1, .i32⟩) main_call3.v0 main_call3.v1 (cmpi .slt),
    StableHlo.TRef.nullary main_call3.c_0 (constantI S_ 32 4096#32),
    StableHlo.TRef.unary main_call3.c_0 main_call3.v2 (broadcastInDim S4096x1 ![] bcast_S_S4096x1),
    StableHlo.TRef.binary (.of main_v27 : StableHlo.TRef sig ⟨S4096x1, .i32⟩) main_call3.v2 main_call3.v3 addi,
    StableHlo.TRef.ternary main_call3.v1 main_call3.v3 (.of main_v27 : StableHlo.TRef sig ⟨S4096x1, .i32⟩) main_call3.v4 select,
    StableHlo.TRef.reshape main_call3.v4 main_call3.v5 rfl shapeCasts_S4096x1_S4096x1x1,
    StableHlo.TRef.nullary main_call3.c_1 (constantI S1 32 4095#32),
    StableHlo.TRef.nullary main_call3.c_2 (constantI S_ 32 0#32),
    StableHlo.TRef.unary main_call3.c_2 main_call3.v6 (broadcastInDim S4096x1x1 ![] bcast_S_S4096x1x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S4096x1x1 ![0, 1, 2] bcast_S1x1x1_S4096x1x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x1x1_S4096x1_d2 h_S_),
    StableHlo.TRef.binary (.of main_v11 : StableHlo.TRef sig ⟨S4096x4096, .f32⟩) main_call3.v5 main_call3.v13 (fun x i => Host.gather gather_S4096x4096_S4096x1x1_S4096x1_n_1_0_0_1_2_11 x i),
    StableHlo.TRef.nullary main_call3.cst (constant S_ .f32 0x7FC00000#32),
    StableHlo.TRef.unary main_call3.cst main_call3.v14 (broadcastInDim S4096x1 ![] bcast_S_S4096x1),
    StableHlo.TRef.ternary main_call3.v12 main_call3.v13 main_call3.v14 main_call3.v15 select,
    StableHlo.reshape main_v28 main_v29 rfl shapeCasts_S4096x1_S4096,
    StableHlo.nullary main_cst_4 (constant S_ .f32 0x00000000#32),
    StableHlo.TRef.unary (.of main_cst_4 : StableHlo.TRef sig ⟨S_, .f32⟩) main_call4.v0 id,
    StableHlo.TRef.unary main_call4.v0 main_call4.v1 (broadcastInDim S4096 ![] bcast_S_S4096),
    StableHlo.TRef.ternary (.of main_v26 : StableHlo.TRef sig ⟨S4096, .i1⟩) (.of main_v29 : StableHlo.TRef sig ⟨S4096, .f32⟩) main_call4.v1 main_call4.v2 select ]

abbrev wr1 : List (Ref sig .tc) :=
  [main_call2.v0.ref, main_call2.c.ref, main_call2.c_0.ref, main_call2.v1_0.ref, main_call2.v1_1.ref, main_c_3, main_v26, main_v27, main_call3.c.ref, main_call3.v0.ref, main_call3.v1.ref, main_call3.c_0.ref, main_call3.v2.ref, main_call3.v3.ref, main_call3.v4.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.cst.ref, main_call3.v14.ref, main_call3.v15.ref, main_v29, main_cst_4, main_call4.v0.ref, main_call4.v1.ref, main_call4.v2.ref]

theorem ops1_sub : (ops1 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., unary_bufs_sub .., ternary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_writes : List.Forall₂ (fun (op : HloOp τ sig (Elt F)) (y : Ref sig .tc) => op.writes = {(Proc.devRef .tc y : DevRef τ sig)}) ops1 wr1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))

abbrev ops2 : List (HloOp τ sig (Elt F)) :=
  [ StableHlo.TRef.unary (.of main_v24 : StableHlo.TRef sig ⟨S4096x4096, .i1⟩) main_call5.v0 (extui 32 · natLt_1_32),
    StableHlo.TRef.nullary main_call5.call0.c (constantI S_ 32 0#32),
    StableHlo.TRef.unary main_call5.call0.c main_call5.call0.v0 (broadcastInDim S_ ![] bcast_S_S_),
    StableHlo.TRef.binary main_call5.v0 main_call5.call0.v0 main_call5.call0.v1 (fun x v => Host.reduceWindow IntOp.addi ![1, 4096] ![1, 1] ![0, 4095] ![0, 0] x v reduceWindows_S4096x4096_S4096x4096_w1s1p0_0_w4096s1p4095_0 h_S_),
    StableHlo.nullary main_c_5 (constantI S_ 32 8191#32),
    StableHlo.TRef.unary (.of main_c_5 : StableHlo.TRef sig ⟨S_, .i32⟩) main_call6.v0 id,
    StableHlo.TRef.unary main_call6.v0 main_call6.v1 (broadcastInDim S4096x4096 ![] bcast_S_S4096x4096),
    StableHlo.TRef.ternary (.of main_v24 : StableHlo.TRef sig ⟨S4096x4096, .i1⟩) (.of main_v31 : StableHlo.TRef sig ⟨S4096x4096, .i32⟩) main_call6.v1 main_call6.v2 select,
    StableHlo.nullary main_v33 (iotaInDim S4096 32 0),
    StableHlo.unary main_v33 main_v34 (broadcastInDim S4096x1 ![0] bcast_S4096_S4096x1_0),
    StableHlo.nullary main_cst_6 (constant S_ .f32 0x00000000#32),
    StableHlo.unary main_cst_6 main_v35 (broadcastInDim S4096x8192 ![] bcast_S_S4096x8192),
    StableHlo.nullary main_cst_7 (constant S_ .f32 0x00000000#32),
    StableHlo.TRef.unary (.of main_cst_7 : StableHlo.TRef sig ⟨S_, .f32⟩) main_call7.v0 id,
    StableHlo.TRef.unary main_call7.v0 main_call7.v1 (broadcastInDim S4096x4096 ![] bcast_S_S4096x4096),
    StableHlo.TRef.ternary (.of main_v24 : StableHlo.TRef sig ⟨S4096x4096, .i1⟩) (.of main_v11 : StableHlo.TRef sig ⟨S4096x4096, .f32⟩) main_call7.v1 main_call7.v2 select,
    StableHlo.nullary main_c_8 (constantI S_ 32 0#32),
    StableHlo.unary main_c_8 main_v37 (broadcastInDim S4096x1 ![] bcast_S_S4096x1),
    StableHlo.binary main_v34 main_v37 main_v38 (cmpi .slt),
    StableHlo.nullary main_c_9 (constantI S_ 32 4096#32),
    StableHlo.unary main_c_9 main_v39 (broadcastInDim S4096x1 ![] bcast_S_S4096x1),
    StableHlo.binary main_v34 main_v39 main_v40 (addi),
    StableHlo.ternary main_v38 main_v40 main_v34 main_v41 (select),
    StableHlo.nullary main_c_10 (constantI S_ 32 0#32),
    StableHlo.unary main_c_10 main_v42 (broadcastInDim S4096x4096 ![] bcast_S_S4096x4096),
    StableHlo.binary main_v32 main_v42 main_v43 (cmpi .slt),
    StableHlo.nullary main_c_11 (constantI S_ 32 8192#32),
    StableHlo.unary main_c_11 main_v44 (broadcastInDim S4096x4096 ![] bcast_S_S4096x4096),
    StableHlo.binary main_v32 main_v44 main_v45 (addi) ]

abbrev wr2 : List (Ref sig .tc) :=
  [main_call5.v0.ref, main_call5.call0.c.ref, main_call5.call0.v0.ref, main_call5.call0.v1.ref, main_c_5, main_call6.v0.ref, main_call6.v1.ref, main_call6.v2.ref, main_v33, main_v34, main_cst_6, main_v35, main_cst_7, main_call7.v0.ref, main_call7.v1.ref, main_call7.v2.ref, main_c_8, main_v37, main_v38, main_c_9, main_v39, main_v40, main_v41, main_c_10, main_v42, main_v43, main_c_11, main_v44, main_v45]

theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_writes : List.Forall₂ (fun (op : HloOp τ sig (Elt F)) (y : Ref sig .tc) => op.writes = {(Proc.devRef .tc y : DevRef τ sig)}) ops2 wr2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))

abbrev ops3 : List (HloOp τ sig (Elt F)) :=
  [ StableHlo.ternary main_v43 main_v45 main_v32 main_v46 (select),
    StableHlo.unary main_v41 main_v47 (broadcastInDim S4096x4096 ![0, 1] bcast_S4096x1_S4096x4096_0_1),
    StableHlo.unary main_v47 main_v48 (broadcastInDim S4096x4096x1 ![0, 1] bcast_S4096x4096_S4096x4096x1_0_1),
    StableHlo.unary main_v46 main_v49 (broadcastInDim S4096x4096x1 ![0, 1] bcast_S4096x4096_S4096x4096x1_0_1) ]

abbrev wr3 : List (Ref sig .tc) :=
  [main_v46, main_v47, main_v48, main_v49]

theorem ops3_sub : (ops3 : List (HloOp τ sig (Elt F))).Forall fun op => op.bufs ⊆ tcRefs τ sig :=
  ⟨ternary_bufs_sub .., unary_bufs_sub .., unary_bufs_sub .., unary_bufs_sub ..⟩

theorem ops3_fresh : (ops3 : List (HloOp τ sig (Elt F))).Forall fun op => op.fresh = ∅ :=
  ⟨rfl, rfl, rfl, rfl⟩

theorem ops3_writes : List.Forall₂ (fun (op : HloOp τ sig (Elt F)) (y : Ref sig .tc) => op.writes = {(Proc.devRef .tc y : DevRef τ sig)}) ops3 wr3 :=
  .cons rfl (.cons rfl (.cons rfl (.cons rfl (.nil))))

abbrev ops4 : List (HloOp τ sig (Elt F)) :=
  [ StableHlo.binary main_v48 main_v49 main_v50 ((fun a b => concatenate S4096x4096x2 2 [⟨S4096x4096x1, a⟩, ⟨S4096x4096x1, b⟩] concatenates_S4096x4096x1_S4096x4096x1_S4096x4096x2_d2)),
    StableHlo.ternary main_v35 main_v50 main_v36 main_v51 ((fun x i u => Host.scatterAdd scatter_S4096x8192_S4096x4096x2_S4096x4096_n_01_01_2 x i u)),
    StableHlo.nullary main_c_12 (constantI S_ 32 0#32),
    StableHlo.unary main_c_12 main_v52 (broadcastInDim S1 ![] bcast_S_S1),
    StableHlo.ternary main_v51 main_v52 main_v30 main_v53 ((fun x i u => Host.scatter scatter_S4096x8192_S1_S4096_0_1_1_0 (fun _ b => b) x i u)),
    StableHlo.unary main_v53 main_v54 ((extractStridedSlice S4096x8191 ![0, 0] · slices_S4096x8192_S4096x8191_0_0)),
    StableHlo.TRef.nullary main_call8.cst (constant S_ .f32 0xFF800000#32),
    StableHlo.TRef.binary (.of main_v54 : StableHlo.TRef sig ⟨S4096x8191, .f32⟩) main_call8.cst main_call8.v0 (fun x v => Host.reduce FloatOps.maximumf x v reducesTo_S4096x8191_S4096_d1 h_S_),
    StableHlo.TRef.nullary main_call8.cst_0 (constant S_ .f32 0xFF800000#32),
    StableHlo.TRef.unary main_call8.cst_0 main_call8.v1 (broadcastInDim S4096 ![] bcast_S_S4096),
    StableHlo.TRef.binary main_call8.v1 main_call8.v0 main_call8.v2 maximumf,
    StableHlo.TRef.unary main_call8.v2 main_call8.v3 (broadcastInDim S4096x1 ![0] bcast_S4096_S4096x1_0),
    StableHlo.TRef.unary main_call8.v3 main_call8.v4 (broadcastInDim S4096x8191 ![0, 1] bcast_S4096x1_S4096x8191_0_1),
    StableHlo.TRef.binary (.of main_v54 : StableHlo.TRef sig ⟨S4096x8191, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S4096x8191_S4096_d1 h_S_),
    StableHlo.TRef.unary main_call8.v7 main_call8.v8 (broadcastInDim S4096x1 ![0] bcast_S4096_S4096x1_0),
    StableHlo.TRef.unary main_call8.v8 main_call8.v9 Host.log,
    StableHlo.TRef.unary main_call8.v9 main_call8.v10 (broadcastInDim S4096x8191 ![0, 1] bcast_S4096x1_S4096x8191_0_1),
    StableHlo.TRef.binary main_call8.v5 main_call8.v10 main_call8.v11 subf,
    StableHlo.unary main_v55 main_v56 ((extractStridedSlice S4096x1 ![0, 0] · slices_S4096x8191_S4096x1_0_0)),
    StableHlo.reshape main_v56 main_v57 rfl shapeCasts_S4096x1_S4096,
    StableHlo.unary main_v57 main_v58 (Host.negf),
    StableHlo.nullary main_cst_13 (constant S_ .f32 0x00000000#32),
    StableHlo.binary main_v58 main_cst_13 main_v59 ((fun x v => Host.reduceAdd x v reducesTo_S4096_S_d0 h_S_)),
    StableHlo.nullary main_cst_14 (constant S_ .f32 0x45800000#32),
    StableHlo.binary main_v59 main_cst_14 main_v60 (Host.divf) ]

abbrev wr4 : List (Ref sig .tc) :=
  [main_v50, main_v51, main_c_12, main_v52, main_v53, main_v54, main_call8.cst.ref, main_call8.v0.ref, main_call8.cst_0.ref, main_call8.v1.ref, main_call8.v2.ref, main_call8.v3.ref, main_call8.v4.ref, main_call8.v5.ref, main_call8.v6.ref, main_call8.cst_1.ref, main_call8.v7.ref, main_call8.v8.ref, main_call8.v9.ref, main_call8.v10.ref, main_call8.v11.ref, main_v56, main_v57, main_v58, main_cst_13, main_v59, main_cst_14, main_v60]

theorem ops4_sub : (ops4 : List (HloOp τ sig (Elt F))).Forall fun op => op.bufs ⊆ tcRefs τ sig :=
  ⟨binary_bufs_sub .., ternary_bufs_sub .., nullary_bufs_sub .., unary_bufs_sub .., ternary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem ops4_writes : List.Forall₂ (fun (op : HloOp τ sig (Elt F)) (y : Ref sig .tc) => op.writes = {(Proc.devRef .tc y : DevRef τ sig)}) ops4 wr4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))

abbrev ops5 : List (HloOp τ sig (Elt F)) :=
  [ StableHlo.TRef.nullary main_call9.cst (constant S_ .f32 0xFF800000#32),
    StableHlo.TRef.binary (.of main_arg2 : StableHlo.TRef sig ⟨S4096x512, .f32⟩) main_call9.cst main_call9.v0 (fun x v => Host.reduce FloatOps.maximumf x v reducesTo_S4096x512_S4096_d1 h_S_),
    StableHlo.TRef.nullary main_call9.cst_0 (constant S_ .f32 0xFF800000#32),
    StableHlo.TRef.unary main_call9.cst_0 main_call9.v1 (broadcastInDim S4096 ![] bcast_S_S4096),
    StableHlo.TRef.binary main_call9.v1 main_call9.v0 main_call9.v2 maximumf,
    StableHlo.TRef.unary main_call9.v2 main_call9.v3 (broadcastInDim S4096x1 ![0] bcast_S4096_S4096x1_0),
    StableHlo.TRef.unary main_call9.v3 main_call9.v4 (broadcastInDim S4096x512 ![0, 1] bcast_S4096x1_S4096x512_0_1),
    StableHlo.TRef.binary (.of main_arg2 : StableHlo.TRef sig ⟨S4096x512, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S4096x512_S4096_d1 h_S_),
    StableHlo.TRef.unary main_call9.v7 main_call9.v8 (broadcastInDim S4096x1 ![0] bcast_S4096_S4096x1_0),
    StableHlo.TRef.unary main_call9.v8 main_call9.v9 Host.log,
    StableHlo.TRef.unary main_call9.v9 main_call9.v10 (broadcastInDim S4096x512 ![0, 1] bcast_S4096x1_S4096x512_0_1),
    StableHlo.TRef.binary main_call9.v5 main_call9.v10 main_call9.v11 subf,
    StableHlo.unary main_arg1 main_v62 (broadcastInDim S4096x1 ![0] bcast_S4096_S4096x1_0),
    StableHlo.TRef.nullary main_call10.c (constantI S_ 32 0#32),
    StableHlo.TRef.unary main_call10.c main_call10.v0 (broadcastInDim S4096x1 ![] bcast_S_S4096x1),
    StableHlo.TRef.binary (.of main_v62 : StableHlo.TRef sig ⟨S4096x1, .i32⟩) main_call10.v0 main_call10.v1 (cmpi .slt),
    StableHlo.TRef.nullary main_call10.c_0 (constantI S_ 32 512#32),
    StableHlo.TRef.unary main_call10.c_0 main_call10.v2 (broadcastInDim S4096x1 ![] bcast_S_S4096x1),
    StableHlo.TRef.binary (.of main_v62 : StableHlo.TRef sig ⟨S4096x1, .i32⟩) main_call10.v2 main_call10.v3 addi,
    StableHlo.TRef.ternary main_call10.v1 main_call10.v3 (.of main_v62 : StableHlo.TRef sig ⟨S4096x1, .i32⟩) main_call10.v4 select,
    StableHlo.TRef.reshape main_call10.v4 main_call10.v5 rfl shapeCasts_S4096x1_S4096x1x1,
    StableHlo.TRef.nullary main_call10.c_1 (constantI S1 32 511#32),
    StableHlo.TRef.nullary main_call10.c_2 (constantI S_ 32 0#32),
    StableHlo.TRef.unary main_call10.c_2 main_call10.v6 (broadcastInDim S4096x1x1 ![] bcast_S_S4096x1x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S4096x1x1 ![0, 1, 2] bcast_S1x1x1_S4096x1x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S4096x1x1_S4096x1_d2 h_S_),
    StableHlo.TRef.binary (.of main_v61 : StableHlo.TRef sig ⟨S4096x512, .f32⟩) main_call10.v5 main_call10.v13 (fun x i => Host.gather gather_S4096x512_S4096x1x1_S4096x1_n_1_0_0_1_2_11 x i),
    StableHlo.TRef.nullary main_call10.cst (constant S_ .f32 0x7FC00000#32),
    StableHlo.TRef.unary main_call10.cst main_call10.v14 (broadcastInDim S4096x1 ![] bcast_S_S4096x1),
    StableHlo.TRef.ternary main_call10.v12 main_call10.v13 main_call10.v14 main_call10.v15 select,
    StableHlo.nullary main_cst_15 (constant S_ .f32 0x00000000#32),
    StableHlo.binary main_v63 main_cst_15 main_v64 ((fun x v => Host.reduceAdd x v reducesTo_S4096x1_S_d0_1 h_S_)),
    StableHlo.nullary main_cst_16 (constant S_ .f32 0x45800000#32),
    StableHlo.binary main_v64 main_cst_16 main_v65 (Host.divf),
    StableHlo.unary main_v65 main_v66 (Host.negf),
    StableHlo.nullary main_cst_17 (constant S_ .f32 0x3F000000#32),
    StableHlo.binary main_cst_17 main_v60 main_v67 (mulf),
    StableHlo.nullary main_cst_18 (constant S_ .f32 0x3F000000#32),
    StableHlo.binary main_cst_18 main_v66 main_v68 (mulf),
    StableHlo.binary main_v67 main_v68 main_v69 (addf) ]

abbrev wr5 : List (Ref sig .tc) :=
  [main_call9.cst.ref, main_call9.v0.ref, main_call9.cst_0.ref, main_call9.v1.ref, main_call9.v2.ref, main_call9.v3.ref, main_call9.v4.ref, main_call9.v5.ref, main_call9.v6.ref, main_call9.cst_1.ref, main_call9.v7.ref, main_call9.v8.ref, main_call9.v9.ref, main_call9.v10.ref, main_call9.v11.ref, main_v62, main_call10.c.ref, main_call10.v0.ref, main_call10.v1.ref, main_call10.c_0.ref, main_call10.v2.ref, main_call10.v3.ref, main_call10.v4.ref, main_call10.v5.ref, main_call10.c_1.ref, main_call10.c_2.ref, main_call10.v6.ref, main_call10.v7.ref, main_call10.v8.ref, main_call10.v9.ref, main_call10.v10.ref, main_call10.v11.ref, main_call10.c_3.ref, main_call10.v12.ref, main_call10.v13.ref, main_call10.cst.ref, main_call10.v14.ref, main_call10.v15.ref, main_cst_15, main_v64, main_cst_16, main_v65, main_v66, main_cst_17, main_v67, main_cst_18, main_v68, main_v69]

theorem ops5_sub : (ops5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., nullary_bufs_sub .., binary_bufs_sub .., nullary_bufs_sub .., binary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_writes : List.Forall₂ (fun (op : HloOp τ sig (Elt F)) (y : Ref sig .tc) => op.writes = {(Proc.devRef .tc y : DevRef τ sig)}) ops5 wr5 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))

end Cert.ReferenceIdeal.HRun

end
-- ==== Proof.LibLine.lean ====
import Idealize.ShloMosaic.Lib.StableHlo.Run

noncomputable section

namespace Cert.Lib.Line

open Idealize.ShloMosaic Idealize.ShloMosaic.TcCoe Idealize.SL.Sem Idealize.ShloMosaic.StableHlo

variable {τ : Topo} {sig : RefSig} {Val : EltTy → Type}

abbrev Writes (l : List (HloOp τ sig Val)) (W : List (Ref sig .tc)) : Prop :=
  List.Forall₂ (fun op y => op.writes = {(Proc.devRef .tc y : DevRef τ sig)}) l W

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons hop _ ih => exact .cons hop ih

theorem Writes.after_of_not_mem {l : List (HloOp τ sig Val)} {W : List (Ref sig .tc)} (h : Writes l W)
    {r : Ref sig .tc} (hr : r ∉ W) (V : Valuation τ sig Val) :
    after l V (Proc.devRef .tc r) = V (Proc.devRef .tc r) := by
  induction h generalizing V with
  | nil => rfl
  | @cons op y l W hop _ ih =>
    rw [after_cons, ih (fun hm => hr (List.mem_cons_of_mem _ hm))]
    refine op.result_of_not_mem V ?_
    rw [hop, Finset.mem_singleton]
    intro e
    have hry : r = y := Proc.devRef_injective _ e
    exact hr (hry ▸ List.mem_cons_self)

theorem Writes.after_take {l : List (HloOp τ sig Val)} {W : List (Ref sig .tc)} (h : Writes l W) (p : Nat)
    {r : Ref sig .tc} (hr : r ∉ W.drop p) (V : Valuation τ sig Val) :
    after (l.take p) V (Proc.devRef .tc r) = after l V (Proc.devRef .tc r) := by
  induction h generalizing p V with
  | nil => rw [List.take_nil]
  | @cons op y l W hop hl ih =>
    cases p with
    | zero => exact (Writes.after_of_not_mem (List.Forall₂.cons hop hl) hr V).symm
    | succ p =>
      rw [List.take_succ_cons, after_cons, after_cons]
      exact ih p hr _

theorem Writes.after_at {l : List (HloOp τ sig Val)} {W : List (Ref sig .tc)} (h : Writes l W) (hnd : W.Nodup) (p : Nat)
    {op : HloOp τ sig Val} {y : Ref sig .tc} (hop : l[p]? = some op)
    (hw : op.writes = {(Proc.devRef .tc y : DevRef τ sig)}) (V : Valuation τ sig Val) :
    after l V (Proc.devRef .tc y) = op.result (after (l.take p) V) (Proc.devRef .tc y) := by
  induction h generalizing p V with
  | nil => simp at hop
  | @cons op0 y0 l W hop0 hl ih =>
    cases p with
    | zero =>
      rw [List.getElem?_cons_zero, Option.some.injEq] at hop
      subst hop
      have hy : y = y0 := Proc.devRef_injective _ (Finset.singleton_injective (hw.symm.trans hop0))
      subst hy
      rw [after_cons, List.take_zero, after_nil]
      exact Writes.after_of_not_mem hl (List.nodup_cons.mp hnd).1 _
    | succ p =>
      rw [List.getElem?_cons_succ] at hop
      rw [after_cons, List.take_succ_cons, after_cons]
      exact ih (List.nodup_cons.mp hnd).2 p hop _

variable {l : List (HloOp τ sig Val)} {W : List (Ref sig .tc)} {x a b c e y : Ref sig .tc}

theorem Writes.read_nullary (h : Writes l W) (hnd : W.Nodup) (p : Nat) {v : y.ty.Contents Val} {hy}
    (hop : l[p]? = some (nullary y v hy)) (V : Valuation τ sig Val) :
    after l V (Proc.devRef .tc y) = v := by
  rw [h.after_at hnd p hop rfl V, nullary_result]

theorem Writes.read_unary (h : Writes l W) (hnd : W.Nodup) (p : Nat) {f : x.ty.Contents Val → y.ty.Contents Val} {hx hy}
    (hop : l[p]? = some (unary x y f hx hy)) (hx' : x ∉ W.drop p) (V : Valuation τ sig Val) :
    after l V (Proc.devRef .tc y) = f (after l V (Proc.devRef .tc x)) := by
  rw [h.after_at hnd p hop rfl V, unary_result, h.after_take p hx' V]

theorem Writes.read_binary (h : Writes l W) (hnd : W.Nodup) (p : Nat)
    {f : a.ty.Contents Val → b.ty.Contents Val → y.ty.Contents Val} {ha hb hy}
    (hop : l[p]? = some (binary a b y f ha hb hy)) (ha' : a ∉ W.drop p) (hb' : b ∉ W.drop p) (V : Valuation τ sig Val) :
    after l V (Proc.devRef .tc y) = f (after l V (Proc.devRef .tc a)) (after l V (Proc.devRef .tc b)) := by
  rw [h.after_at hnd p hop rfl V, binary_result, h.after_take p ha' V, h.after_take p hb' V]

theorem Writes.read_ternary (h : Writes l W) (hnd : W.Nodup) (p : Nat)
    {f : c.ty.Contents Val → a.ty.Contents Val → b.ty.Contents Val → y.ty.Contents Val} {hc ha hb hy}
    (hop : l[p]? = some (ternary c a b y f hc ha hb hy)) (hc' : c ∉ W.drop p) (ha' : a ∉ W.drop p) (hb' : b ∉ W.drop p)
    (V : Valuation τ sig Val) :
    after l V (Proc.devRef .tc y)
      = f (after l V (Proc.devRef .tc c)) (after l V (Proc.devRef .tc a)) (after l V (Proc.devRef .tc b)) := by
  rw [h.after_at hnd p hop rfl V, ternary_result, h.after_take p hc' V, h.after_take p ha' V, h.after_take p hb' V]

theorem Writes.read_quaternary (h : Writes l W) (hnd : W.Nodup) (p : Nat)
    {f : a.ty.Contents Val → b.ty.Contents Val → c.ty.Contents Val → e.ty.Contents Val → y.ty.Contents Val} {ha hb hc he hy}
    (hop : l[p]? = some (quaternary a b c e y f ha hb hc he hy))
    (ha' : a ∉ W.drop p) (hb' : b ∉ W.drop p) (hc' : c ∉ W.drop p) (he' : e ∉ W.drop p) (V : Valuation τ sig Val) :
    after l V (Proc.devRef .tc y)
      = f (after l V (Proc.devRef .tc a)) (after l V (Proc.devRef .tc b)) (after l V (Proc.devRef .tc c))
          (after l V (Proc.devRef .tc e)) := by
  rw [h.after_at hnd p hop rfl V, quaternary_result, h.after_take p ha' V, h.after_take p hb' V, h.after_take p hc' V,
    h.after_take p he' V]

theorem Writes.read_reshape (h : Writes l W) (hnd : W.Nodup) (p : Nat) {he : x.ty.elt = y.ty.elt}
    {hn : x.ty.shape.ShapeCasts y.ty.shape} {hx hy}
    (hop : l[p]? = some (reshape x y he hn hx hy)) (hx' : x ∉ W.drop p) (V : Valuation τ sig Val) :
    after l V (Proc.devRef .tc y) = fun i => he ▸ shapeCast y.ty.shape (after l V (Proc.devRef .tc x)) hn i := by
  rw [h.after_at hnd p hop rfl V, reshape_result, h.after_take p hx' V]

end Cert.Lib.Line

end
-- ==== Proof.RefRun.lean ====
import proofs.«401202_j76493367542062_3_alg».proof.Proof.RefOps
import proofs.«401202_j76493367542062_3_alg».proof.Proof.LibLine
import Idealize.ShloMosaic.Lib.Pipeline.Frame
import Idealize.ShloMosaic.Lib.Pipeline.Regions

noncomputable section

namespace Cert.ReferenceIdeal.HRun

open Cert.ReferenceIdeal Cert.ReferenceIdeal.Gen Idealize.ShloMosaic Idealize.ShloMosaic.TcCoe Idealize.SL.Sem Idealize.ShloMosaic.StableHlo Idealize.ShloMosaic.Pipeline Cert.Lib.Line

variable {F : FTy → Type} [FloatOps F]

def ops : List (HloOp τ sig (Elt F)) := ops0 ++ (ops1 ++ (ops2 ++ (ops3 ++ (ops4 ++ ops5))))

def wr : List (Ref sig .tc) := wr0 ++ (wr1 ++ (wr2 ++ (wr3 ++ (wr4 ++ wr5))))

theorem main_part0_eq (c : Dev nD) : main_part0 (F := F) c = seq (ops0 ++ (ops1 ++ ops2)) := by
  chain_rfl

theorem main_part1_eq (c : Dev nD) : main_part1 (F := F) c = seq (ops3 ++ (ops4 ++ ops5)) := by
  chain_rfl

theorem main_eq (c : Dev nD) : main (F := F) c = seq ops := by
  have h : (ops : List (HloOp τ sig (Elt F))) = (ops0 ++ (ops1 ++ ops2)) ++ (ops3 ++ (ops4 ++ ops5)) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

theorem ops_writes : Writes (ops : List (HloOp τ sig (Elt F))) wr :=
  Writes.append ops0_writes (Writes.append ops1_writes (Writes.append ops2_writes (Writes.append ops3_writes
    (Writes.append ops4_writes ops5_writes))))

set_option maxRecDepth 100000 in
theorem wr_nodup : wr.Nodup := by decide

set_option maxRecDepth 100000 in
theorem arg0_eq (V : Valuation τ sig (Elt F)) : after ops V (main_arg0 : DevRef τ sig) = V (main_arg0 : DevRef τ sig) :=
  Writes.after_of_not_mem ops_writes (by decide) V

set_option maxRecDepth 100000 in
theorem arg1_eq (V : Valuation τ sig (Elt F)) : after ops V (main_arg1 : DevRef τ sig) = V (main_arg1 : DevRef τ sig) :=
  Writes.after_of_not_mem ops_writes (by decide) V

set_option maxRecDepth 100000 in
theorem arg2_eq (V : Valuation τ sig (Elt F)) : after ops V (main_arg2 : DevRef τ sig) = V (main_arg2 : DevRef τ sig) :=
  Writes.after_of_not_mem ops_writes (by decide) V

end Cert.ReferenceIdeal.HRun

end
-- ==== Proof.LibScatter1D.lean ====
import Idealize.ShloMosaic.Lib.ValueIdx
import Idealize.ShloMosaic.Lib.StableHlo.Predicate

namespace Cert.LibScatter1D

open Idealize.ShloMosaic Idealize.ShloMosaic.ValueIdx

section General

variable {s si u : Shape} {α : Type} {w : Nat}

-- Only the updates sent to index i touch it, and they act in order.
theorem scatter_apply (d : ScatterDims s si u) (f : α → α → α) (x : s.Idx → α) (idx : IVec si w) (upd : u.Idx → α)
    (i : s.Idx) :
    Host.scatter d f x idx upd i =
      ((List.finRange u.numel).filter fun n => d.resultIdx? (u.rowMajor.symm n) idx = some i).foldl
        (fun a n => f a (upd (u.rowMajor.symm n))) (x i) := by
  unfold Host.scatter
  have key : ∀ (L : List (Fin u.numel)) (r0 : s.Idx → α),
      (L.foldl (fun r n =>
          match d.resultIdx? (u.rowMajor.symm n) idx with
          | some i => fun i' => if i' = i then f (r i) (upd (u.rowMajor.symm n)) else r i'
          | none => r) r0) i
        = (L.filter fun n => d.resultIdx? (u.rowMajor.symm n) idx = some i).foldl
            (fun a n => f a (upd (u.rowMajor.symm n))) (r0 i) := by
    intro L
    induction L with
    | nil => intro r0; rfl
    | cons n L ih =>
      intro r0
      rw [List.foldl_cons, ih, List.filter_cons]
      cases hres : d.resultIdx? (u.rowMajor.symm n) idx with
      | none => simp
      | some j =>
        rcases eq_or_ne j i with rfl | hji
        · simp
        · simp [hji, hji.symm]
  exact key _ x

theorem slt_iff_lt {a b : BitVec 32} (ha : a.toNat < 2 ^ 31) (hb : b.toNat < 2 ^ 31) :
    a.slt b = true ↔ a.toNat < b.toNat := by
  have := StableHlo.Predicate.slt_bool_iff_toNat ha hb
  rwa [StableHlo.Predicate.ofBool_eq_one_iff] at this

theorem minsi_small {a b : BitVec 32} (ha : a.toNat < 2 ^ 31) (hb : b.toNat < 2 ^ 31) :
    (IntOp.minsi a b).toNat = min a.toNat b.toNat ∧ (IntOp.minsi a b = a ∨ IntOp.minsi a b = b) := by
  unfold IntOp.minsi
  by_cases h : a.slt b = true
  · rw [if_pos h]; exact ⟨(min_eq_left ((slt_iff_lt ha hb).1 h).le).symm, Or.inl rfl⟩
  · rw [if_neg h]; exact ⟨(min_eq_right (not_lt.1 fun h' => h ((slt_iff_lt ha hb).2 h'))).symm, Or.inr rfl⟩

-- Below 2^31 the signed minimum is the minimum of the values, so the fold is a lower bound that is attained.
theorem foldl_minsi_spec {ι : Type} (L : List ι) (v : ι → BitVec 32) (x0 : BitVec 32) (hx0 : x0.toNat < 2 ^ 31)
    (hv : ∀ n ∈ L, (v n).toNat < 2 ^ 31) :
    (L.foldl (fun a n => IntOp.minsi a (v n)) x0).toNat ≤ x0.toNat ∧
      (∀ n ∈ L, (L.foldl (fun a n => IntOp.minsi a (v n)) x0).toNat ≤ (v n).toNat) ∧
      (L.foldl (fun a n => IntOp.minsi a (v n)) x0 = x0 ∨ ∃ n ∈ L, L.foldl (fun a n => IntOp.minsi a (v n)) x0 = v n) := by
  induction L generalizing x0 with
  | nil => exact ⟨le_refl _, fun n hn => absurd hn List.not_mem_nil, Or.inl rfl⟩
  | cons m L ih =>
    have hm := hv m List.mem_cons_self
    obtain ⟨h1, h2⟩ := minsi_small hx0 hm
    have hx1 : (IntOp.minsi x0 (v m)).toNat < 2 ^ 31 := by rw [h1]; exact lt_of_le_of_lt (min_le_left _ _) hx0
    obtain ⟨i1, i2, i3⟩ := ih (IntOp.minsi x0 (v m)) hx1 (fun n hn => hv n (List.mem_cons_of_mem _ hn))
    simp only [List.foldl_cons]
    refine ⟨?_, ?_, ?_⟩
    · exact le_trans i1 (by rw [h1]; exact min_le_left _ _)
    · intro n hn
      rcases List.mem_cons.1 hn with rfl | hn
      · exact le_trans i1 (by rw [h1]; exact min_le_right _ _)
      · exact i2 n hn
    · rcases i3 with e | ⟨n, hn, e⟩
      · rcases h2 with h2 | h2
        · left; rw [e, h2]
        · right; exact ⟨m, List.mem_cons_self, by rw [e, h2]⟩
      · right; exact ⟨n, List.mem_cons_of_mem _ hn, e⟩

theorem foldl_addi_one_toNat {ι : Type} (L : List ι) (v : ι → BitVec 32) (hv : ∀ n ∈ L, v n = 1#32) (x0 : BitVec 32)
    (hL : x0.toNat + L.length < 2 ^ 32) :
    (L.foldl (fun a n => IntOp.addi a (v n)) x0).toNat = x0.toNat + L.length := by
  induction L generalizing x0 with
  | nil => simp
  | cons m L ih =>
    simp only [List.foldl_cons, List.length_cons] at hL ⊢
    have h1 : (IntOp.addi x0 (v m)).toNat = x0.toNat + 1 := by
      rw [hv m List.mem_cons_self]; unfold IntOp.addi
      rw [BitVec.toNat_add, show (1#32).toNat = 1 from rfl]; omega
    rw [ih (fun n hn => hv n (List.mem_cons_of_mem _ hn)) _ (by rw [h1]; omega), h1]; omega

theorem scatter_minsi_spec (d : ScatterDims s si u) (x : s.Idx → BitVec 32) (idx : IVec si w) (upd : u.Idx → BitVec 32)
    (i : s.Idx) (hx : (x i).toNat < 2 ^ 31) (hu : ∀ j, (upd j).toNat < 2 ^ 31) :
    (Host.scatter d IntOp.minsi x idx upd i).toNat ≤ (x i).toNat ∧
      (∀ j, d.resultIdx? j idx = some i → (Host.scatter d IntOp.minsi x idx upd i).toNat ≤ (upd j).toNat) ∧
      (Host.scatter d IntOp.minsi x idx upd i = x i ∨
        ∃ j, d.resultIdx? j idx = some i ∧ Host.scatter d IntOp.minsi x idx upd i = upd j) := by
  rw [scatter_apply]
  obtain ⟨h1, h2, h3⟩ := foldl_minsi_spec
    ((List.finRange u.numel).filter fun n => decide (d.resultIdx? (u.rowMajor.symm n) idx = some i))
    (fun n => upd (u.rowMajor.symm n)) (x i) hx (fun n _ => hu _)
  refine ⟨h1, fun j hj => ?_,
    h3.imp id fun ⟨n, hn, e⟩ => ⟨u.rowMajor.symm n, by simpa using (List.mem_filter.1 hn).2, e⟩⟩
  simpa using h2 (u.rowMajor j) (List.mem_filter.2 ⟨List.mem_finRange _, by simpa using hj⟩)

theorem scatter_addi_one_toNat (d : ScatterDims s si u) (x : s.Idx → BitVec 32) (idx : IVec si w) (upd : u.Idx → BitVec 32)
    (hu : ∀ j, upd j = 1#32) (i : s.Idx) (hx : (x i).toNat + u.numel < 2 ^ 32) :
    (Host.scatter d IntOp.addi x idx upd i).toNat =
      (x i).toNat + (Finset.univ.filter fun j : u.Idx => d.resultIdx? j idx = some i).card := by
  rw [scatter_apply]
  set L := (List.finRange u.numel).filter fun n => decide (d.resultIdx? (u.rowMajor.symm n) idx = some i)
  have hlen : L.length = (Finset.univ.filter fun j : u.Idx => d.resultIdx? j idx = some i).card :=
    (show L.length = (Finset.univ.filter fun n : Fin u.numel => d.resultIdx? (u.rowMajor.symm n) idx = some i).card by
      rw [Fin.univ_def]; rfl).trans (Finset.card_equiv u.rowMajor.symm (by intro n; simp))
  have hle : L.length ≤ u.numel := (List.length_filter_le _ _).trans (by simp)
  rw [foldl_addi_one_toNat _ _ (fun n _ => hu _) _ (by omega), hlen]

end General

-- With one inserted axis and a one-entry index vector the result index is the index word itself, when in range.
theorem resultIdx?_1d {C n w : Nat} (d : ScatterDims ⟨1, ![C]⟩ ⟨2, ![n, 1]⟩ ⟨1, ![n]⟩)
    (huw : d.updateWindowDims = []) (hins : d.insertedWindowDims = [0]) (hsd : d.scatterDimsToOperandDims = [0])
    (hivd : d.indexVectorDim = 1) (idx : IVec ⟨2, ![n, 1]⟩ w) (p : Fin n) (c : Fin C) :
    d.resultIdx? (ix1 p) idx = some (ix1 c) ↔ (idx (ix2 p 0)).toInt = (c.val : Int) := by
  have hk : (0 : Fin 1) ∉ d.sKept := by
    show (0 : Fin 1) ∉ (⟨1, ![C]⟩ : Shape).kept d.insertedWindowDims
    rw [hins]; simp [Shape.kept]
  have hm : (0 : Fin 1) ∈ d.scatterDimsToOperandDims := by rw [hsd]; exact List.mem_singleton.mpr rfl
  have hwin : ∀ a : Fin 1, d.window (ix1 p) a = 0 := by
    intro a
    obtain rfl : a = 0 := Subsingleton.elim _ _
    unfold ScatterDims.window; rw [dif_neg hk]
  have hsi : ∀ c', d.siIdx (ix1 p) c' = ix2 p 0 := by
    intro c'
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        obtain rfl : X = 0 := Subsingleton.elim _ _
        rfl
      exact e _
    | ⟨1, _⟩ =>
      unfold ScatterDims.siIdx
      rw [dif_pos (by rw [hivd])]
      apply Fin.ext
      have hlen : d.scatterDimsToOperandDims.length = 1 := by rw [hsd]; rfl
      have := c'.isLt
      show c'.val = 0
      omega
  have hstart : ∀ a : Fin 1, d.start (ix1 p) idx a = (idx (ix2 p 0)).toInt := by
    intro a
    obtain rfl : a = 0 := Subsingleton.elim _ _
    unfold ScatterDims.start; rw [dif_pos hm, hsi]
  unfold ScatterDims.resultIdx?
  constructor
  · intro h
    split at h
    · rename_i hin
      have h'' := congrArg Fin.val (congrFun (Option.some.inj h) 0)
      simp only [hstart, hwin] at h'' hin
      have := (hin 0).1
      change ((idx (ix2 p 0)).toInt + ((0 : Nat) : Int)).toNat = c.val at h''
      omega
    · exact absurd h (by simp)
  · intro h
    have hin : ∀ a, 0 ≤ d.start (ix1 p) idx a + d.window (ix1 p) a ∧
        d.start (ix1 p) idx a + d.window (ix1 p) a < (⟨1, ![C]⟩ : Shape).size a := by
      intro a
      obtain rfl : a = 0 := Subsingleton.elim _ _
      rw [hstart, hwin, h]
      have := c.isLt
      show (0 : Int) ≤ (c.val : Int) + ((0 : Nat) : Int) ∧ (c.val : Int) + ((0 : Nat) : Int) < ((C : Nat) : Int)
      omega
    rw [dif_pos hin]
    congr 1
    funext a
    obtain rfl : a = 0 := Subsingleton.elim _ _
    apply Fin.ext
    show (d.start (ix1 p) idx 0 + (d.window (ix1 p) 0 : Int)).toNat = c.val
    rw [hstart, hwin, h]
    omega

end Cert.LibScatter1D
-- ==== Proof.KerInt.lean ====
import proofs.«401202_j76493367542062_3_alg».proof.KernelIdeal
import proofs.«401202_j76493367542062_3_alg».proof.Proof.Spec
import proofs.«401202_j76493367542062_3_alg».proof.Proof.LibScatter1D
import Idealize.ShloMosaic.Lib.StableHlo.Predicate
import Idealize.ShloMosaic.Lib.ValueIdx

noncomputable section

namespace Cert.KernelIdeal.KInt

open Idealize.ShloMosaic Idealize.ShloMosaic.ValueIdx Cert.KernelIdeal Cert.KernelIdeal.Facts₀

variable [Facts₀]

def yNormK (y : IVec S4096 32) : IVec S4096 32 :=
  select (cmpi .slt y (broadcastInDim S4096 ![] bcast_S_S4096 (constantI S_ 32 0#32)))
    (addi y (broadcastInDim S4096 ![] bcast_S_S4096 (constantI S_ 32 512#32))) y

def yColK (y : IVec S4096 32) : IVec S4096x1 32 := broadcastInDim S4096x1 ![0] bcast_S4096_S4096x1_0 (yNormK y)

def iotaK : IVec S4096 32 := iotaInDim S4096 32 0

def minIdxK (y : IVec S4096 32) : IVec S512 32 :=
  Host.scatter scatter_S512_S4096x1_S4096_n_0_0_1 IntOp.minsi
    (broadcastInDim S512 ![] bcast_S_S512 (constantI S_ 32 4096#32)) (yColK y) iotaK

def gmK (y : IVec S4096 32) : IVec S4096 32 :=
  Host.gather gather_S512_S4096x1_S4096_n_0_n_n_0_1_1 (minIdxK y) (yColK y)

def idx2K (y : IVec S4096 32) : IVec S4096 32 :=
  select (cmpi .eq iotaK (gmK y)) (broadcastInDim S4096 ![] bcast_S_S4096 (id (constantI S_ 32 4096#32))) iotaK

def secMinK (y : IVec S4096 32) : IVec S512 32 :=
  Host.scatter scatter_S512_S4096x1_S4096_n_0_0_1 IntOp.minsi
    (broadcastInDim S512 ![] bcast_S_S512 (constantI S_ 32 4096#32)) (yColK y) (idx2K y)

def countsK (y : IVec S4096 32) : IVec S512 32 :=
  Host.scatter scatter_S512_S4096x1_S4096_n_0_0_1 IntOp.addi
    (broadcastInDim S512 ![] bcast_S_S512 (constantI S_ 32 0#32)) (yColK y)
    (broadcastInDim S4096 ![] bcast_S_S4096 (constantI S_ 32 1#32))

def sK (y : IVec S4096 32) : IVec S4096 32 :=
  Host.gather gather_S512_S4096x1_S4096_n_0_n_n_0_1_1 (secMinK y) (yColK y)

def cntK (y : IVec S4096 32) : IVec S4096 32 :=
  Host.gather gather_S512_S4096x1_S4096_n_0_n_n_0_1_1 (countsK y) (yColK y)

def fp0K (y : IVec S4096 32) : IVec S4096 32 := select (cmpi .eq iotaK (gmK y)) (sK y) (gmK y)

def fpK (y : IVec S4096 32) : IVec S4096 32 :=
  select (cmpi .sge (cntK y) (broadcastInDim S4096 ![] bcast_S_S4096 (constantI S_ 32 2#32))) (fp0K y)
    (broadcastInDim S4096 ![] bcast_S_S4096 (id (constantI S_ 32 4294967295#32)))

theorem ofFin_eq_ix1 {n : Nat} (k : Fin n) : Shape.Idx.ofFin k = ix1 k := by
  funext a
  have : a = 0 := Subsingleton.elim _ _
  subst this
  exact Fin.ext rfl

theorem ixP_eq_ix2 {n : Nat} (p : Fin n) : StableHlo.Predicate.ixP p = ix2 p (0 : Fin 1) := by
  funext b
  match b with
  | ⟨0, _⟩ => rfl
  | ⟨1, _⟩ => rfl

theorem toNat_ofNat_fin (p : Fin 4096) : (BitVec.ofNat 32 p.val).toNat = p.val := by
  rw [BitVec.toNat_ofNat]
  have := p.isLt
  omega

theorem ofNat_fin_inj {p q : Fin 4096} : BitVec.ofNat 32 p.val = BitVec.ofNat 32 q.val ↔ p = q := by
  constructor
  · intro e
    have := congrArg BitVec.toNat e
    rw [toNat_ofNat_fin, toNat_ofNat_fin] at this
    exact Fin.ext this
  · intro e; rw [e]

theorem select_eq_ite {α : Type} (c : BitVec 1) (P : Prop) [Decidable P] (hP : c = 1#1 ↔ P) (a b : α) :
    Scalar.select c a b = if P then a else b := by
  unfold Scalar.select
  by_cases hp : P
  · rw [if_pos hp]; exact if_pos (hP.2 hp)
  · rw [if_neg hp]; exact if_neg (fun hc => hp (hP.1 hc))

variable (Y : IVec S4096 32)

abbrev lab : Fin 4096 → BitVec 32 := fun i => Y (ix1 i)

theorem yNormK_at (h : ∀ i : Fin 4096, (Y (ix1 i)).toNat < 512) (p : Fin 4096) : yNormK Y (ix1 p) = Y (ix1 p) := by
  show Scalar.select (IntOp.cmpi .slt (Y (ix1 p)) 0#32) (IntOp.addi (Y (ix1 p)) 512#32) (Y (ix1 p)) = Y (ix1 p)
  unfold Scalar.select
  rw [if_neg]
  intro hc
  have := (StableHlo.Predicate.slt_iff_toNat (by have := h p; omega) (by decide)).1 hc
  simp at this

theorem yColK_at (h : ∀ i : Fin 4096, (Y (ix1 i)).toNat < 512) (p : Fin 4096) :
    yColK Y (ix2 p (0 : Fin 1)) = Y (ix1 p) := by
  unfold yColK
  have := StableHlo.Predicate.bcast_col1 bcast_S4096_S4096x1_0 (yNormK Y) p
  rw [ixP_eq_ix2, ofFin_eq_ix1] at this
  rw [this, yNormK_at Y h p]

theorem hit_iff (h : ∀ i : Fin 4096, (Y (ix1 i)).toNat < 512) (p : Fin 4096) (c : Fin 512) :
    scatter_S512_S4096x1_S4096_n_0_0_1.resultIdx? (ix1 p) (yColK Y) = some (ix1 c) ↔ (Y (ix1 p)).toNat = c.val := by
  rw [Cert.LibScatter1D.resultIdx?_1d _ rfl rfl rfl rfl, yColK_at Y h p,
    StableHlo.Predicate.toInt_eq_toNat_of_lt (by have := h p; omega)]
  exact Nat.cast_inj

theorem gather_at (T : IVec S512 32) (h : ∀ i : Fin 4096, (Y (ix1 i)).toNat < 512) (p : Fin 4096) :
    Host.gather gather_S512_S4096x1_S4096_n_0_n_n_0_1_1 T (yColK Y) (ix1 p) = T (ix1 ⟨(Y (ix1 p)).toNat, h p⟩) := by
  have := StableHlo.Predicate.gather_take gather_S512_S4096x1_S4096_n_0_n_n_0_1_1 rfl rfl rfl rfl T (yColK Y) p
    (by decide)
  simp only [ofFin_eq_ix1, ixP_eq_ix2, yColK_at Y h p] at this
  rw [this]
  congr 2
  apply Fin.ext
  show min (Y (ix1 p)).toInt.toNat (512 - 1) = (Y (ix1 p)).toNat
  rw [StableHlo.Predicate.toInt_eq_toNat_of_lt (by have := h p; omega)]
  have := h p
  simp only [Int.toNat_natCast]
  omega

theorem iotaK_at (p : Fin 4096) : iotaK (ix1 p) = BitVec.ofNat 32 p.val := rfl

theorem minScatter_spec (h : ∀ i : Fin 4096, (Y (ix1 i)).toNat < 512) (u : IVec S4096 32)
    (hu : ∀ p : Fin 4096, (u (ix1 p)).toNat ≤ 4096) (T : IVec S512 32)
    (hT : T = Host.scatter scatter_S512_S4096x1_S4096_n_0_0_1 IntOp.minsi
      (broadcastInDim S512 ![] bcast_S_S512 (constantI S_ 32 4096#32)) (yColK Y) u) (c : Fin 512) :
    (T (ix1 c)).toNat ≤ 4096 ∧
      (∀ p : Fin 4096, (Y (ix1 p)).toNat = c.val → (T (ix1 c)).toNat ≤ (u (ix1 p)).toNat) ∧
      (T (ix1 c) = 4096#32 ∨ ∃ p : Fin 4096, (Y (ix1 p)).toNat = c.val ∧ T (ix1 c) = u (ix1 p)) := by
  subst hT
  obtain ⟨h1, h2, h3⟩ := Cert.LibScatter1D.scatter_minsi_spec scatter_S512_S4096x1_S4096_n_0_0_1
    (broadcastInDim S512 ![] bcast_S_S512 (constantI S_ 32 4096#32)) (yColK Y) u (ix1 c)
    (by show (4096#32).toNat < 2 ^ 31; decide)
    (by
      intro j
      obtain ⟨p, rfl⟩ : ∃ p, j = ix1 p := ⟨j 0, eq_ix1 j⟩
      have := hu p
      omega)
  refine ⟨h1, fun p hp => h2 (ix1 p) ((hit_iff Y h p c).2 hp), ?_⟩
  rcases h3 with e | ⟨j, hj, e⟩
  · exact Or.inl e
  · obtain ⟨p, rfl⟩ : ∃ p, j = ix1 p := ⟨j 0, eq_ix1 j⟩
    exact Or.inr ⟨p, (hit_iff Y h p c).1 hj, e⟩

theorem gmK_congr (h : ∀ i : Fin 4096, (Y (ix1 i)).toNat < 512) {p q : Fin 4096} (hpq : Y (ix1 p) = Y (ix1 q)) :
    gmK Y (ix1 p) = gmK Y (ix1 q) := by
  unfold gmK
  rw [gather_at Y _ h p, gather_at Y _ h q]
  congr 2
  exact Fin.ext (congrArg BitVec.toNat hpq)

theorem gmK_spec (h : ∀ i : Fin 4096, (Y (ix1 i)).toNat < 512) (i : Fin 4096) :
    ∃ m : Fin 4096, gmK Y (ix1 i) = BitVec.ofNat 32 m.val ∧ Y (ix1 m) = Y (ix1 i) ∧
      ∀ p : Fin 4096, Y (ix1 p) = Y (ix1 i) → m ≤ p := by
  unfold gmK
  rw [gather_at Y _ h i]
  obtain ⟨h1, h2, h3⟩ := minScatter_spec Y h iotaK
    (fun p => by rw [iotaK_at, toNat_ofNat_fin]; exact p.isLt.le) (minIdxK Y) rfl ⟨(Y (ix1 i)).toNat, h i⟩
  have hi := h2 i rfl
  rw [iotaK_at, toNat_ofNat_fin] at hi
  rcases h3 with e | ⟨m, hm, e⟩
  · exfalso
    rw [e] at hi
    have h4096 : (4096#32).toNat = 4096 := rfl
    have := i.isLt
    omega
  · refine ⟨m, e, BitVec.eq_of_toNat_eq hm, ?_⟩
    intro p hp
    have := h2 p (congrArg BitVec.toNat hp)
    rw [e, iotaK_at, iotaK_at, toNat_ofNat_fin, toNat_ofNat_fin] at this
    exact this

theorem idx2K_at (p : Fin 4096) :
    idx2K Y (ix1 p) = if BitVec.ofNat 32 p.val = gmK Y (ix1 p) then 4096#32 else BitVec.ofNat 32 p.val := by
  show Scalar.select (IntOp.cmpi .eq (BitVec.ofNat 32 p.val) (gmK Y (ix1 p))) 4096#32 (BitVec.ofNat 32 p.val) = _
  exact select_eq_ite _ _ StableHlo.Predicate.cmpi_eq_iff _ _

theorem idx2K_of_class (h : ∀ i : Fin 4096, (Y (ix1 i)).toNat < 512) {i m : Fin 4096}
    (hgm : gmK Y (ix1 i) = BitVec.ofNat 32 m.val) {p : Fin 4096} (hp : Y (ix1 p) = Y (ix1 i)) :
    idx2K Y (ix1 p) = if p = m then 4096#32 else BitVec.ofNat 32 p.val := by
  rw [idx2K_at, gmK_congr Y h hp, hgm]
  by_cases e : p = m
  · rw [if_pos (ofNat_fin_inj.2 e), if_pos e]
  · rw [if_neg (fun hc => e (ofNat_fin_inj.1 hc)), if_neg e]

theorem idx2K_toNat_le (p : Fin 4096) : (idx2K Y (ix1 p)).toNat ≤ 4096 := by
  rw [idx2K_at]
  split
  · exact le_of_eq rfl
  · rw [toNat_ofNat_fin]; exact le_of_lt p.isLt

theorem countsK_toNat (h : ∀ i : Fin 4096, (Y (ix1 i)).toNat < 512) (c : Fin 512) :
    (countsK Y (ix1 c)).toNat = (Finset.univ.filter fun p : Fin 4096 => (Y (ix1 p)).toNat = c.val).card := by
  have hn : S4096.numel = 4096 := by simp [Shape.numel]
  have := Cert.LibScatter1D.scatter_addi_one_toNat scatter_S512_S4096x1_S4096_n_0_0_1
    (broadcastInDim S512 ![] bcast_S_S512 (constantI S_ 32 0#32)) (yColK Y)
    (broadcastInDim S4096 ![] bcast_S_S4096 (constantI S_ 32 1#32)) (fun _ => rfl) (ix1 c)
    (by show (0#32).toNat + S4096.numel < 2 ^ 32; rw [hn]; decide)
  have h0 : (broadcastInDim S512 ![] bcast_S_S512 (constantI S_ 32 0#32) (ix1 c)).toNat = 0 := rfl
  rw [h0, Nat.zero_add] at this
  unfold countsK
  rw [this]
  refine Finset.card_bij (fun j _ => j 0) ?_ ?_ ?_
  · intro j hj
    have hj' := (Finset.mem_filter.1 hj).2
    rw [eq_ix1 j] at hj'
    exact Finset.mem_filter.2 ⟨Finset.mem_univ _, (hit_iff Y h (j 0) c).1 hj'⟩
  · intro j _ j' _ e
    rw [eq_ix1 j, eq_ix1 j', e]
  · intro p hp
    exact ⟨ix1 p, Finset.mem_filter.2 ⟨Finset.mem_univ _, (hit_iff Y h p c).2 (Finset.mem_filter.1 hp).2⟩, rfl⟩

theorem cntK_toNat (h : ∀ i : Fin 4096, (Y (ix1 i)).toNat < 512) (i : Fin 4096) :
    (cntK Y (ix1 i)).toNat = (Finset.univ.filter fun j : Fin 4096 => Y (ix1 j) = Y (ix1 i)).card := by
  unfold cntK
  rw [gather_at Y _ h i, countsK_toNat Y h]
  refine congrArg Finset.card (Finset.filter_congr fun p _ => ?_)
  exact ⟨fun e => BitVec.eq_of_toNat_eq e, fun e => congrArg BitVec.toNat e⟩

theorem cntK_toNat_le (h : ∀ i : Fin 4096, (Y (ix1 i)).toNat < 512) (i : Fin 4096) : (cntK Y (ix1 i)).toNat ≤ 4096 := by
  rw [cntK_toNat Y h i]
  exact (Finset.card_le_univ _).trans (by simp)

theorem fp0K_at (i : Fin 4096) :
    fp0K Y (ix1 i) = if BitVec.ofNat 32 i.val = gmK Y (ix1 i) then sK Y (ix1 i) else gmK Y (ix1 i) := by
  show Scalar.select (IntOp.cmpi .eq (BitVec.ofNat 32 i.val) (gmK Y (ix1 i))) (sK Y (ix1 i)) (gmK Y (ix1 i)) = _
  exact select_eq_ite _ _ StableHlo.Predicate.cmpi_eq_iff _ _

theorem fpK_at (h : ∀ i : Fin 4096, (Y (ix1 i)).toNat < 512) (i : Fin 4096) :
    fpK Y (ix1 i) = if 2 ≤ (cntK Y (ix1 i)).toNat then fp0K Y (ix1 i) else 0xFFFFFFFF#32 := by
  show Scalar.select (IntOp.cmpi .sge (cntK Y (ix1 i)) 2#32) (fp0K Y (ix1 i)) 0xFFFFFFFF#32 = _
  have hle := cntK_toNat_le Y h i
  have hiff := StableHlo.Predicate.sge_iff_toNat (a := cntK Y (ix1 i)) (b := 2#32) (by omega) (by decide)
  have h2 : (2#32).toNat = 2 := rfl
  rw [h2] at hiff
  exact select_eq_ite _ _ hiff _ _

theorem fpK_of_exists (h : ∀ i : Fin 4096, (Y (ix1 i)).toNat < 512) (i : Fin 4096)
    (hex : ∃ j : Fin 4096, j ≠ i ∧ Y (ix1 j) = Y (ix1 i)) :
    ∃ fp : Fin 4096, fpK Y (ix1 i) = BitVec.ofNat 32 fp.val ∧ fp ≠ i ∧ Y (ix1 fp) = Y (ix1 i) ∧
      ∀ j : Fin 4096, j ≠ i → Y (ix1 j) = Y (ix1 i) → fp ≤ j := by
  obtain ⟨j, hji, hjy⟩ := hex
  have hc2 : 2 ≤ (cntK Y (ix1 i)).toNat := by
    rw [cntK_toNat Y h i]
    have hsub : ({i, j} : Finset (Fin 4096)) ⊆ Finset.univ.filter fun p : Fin 4096 => Y (ix1 p) = Y (ix1 i) := by
      intro p hp
      rcases Finset.mem_insert.1 hp with e | e
      · exact Finset.mem_filter.2 ⟨Finset.mem_univ _, by rw [e]⟩
      · rw [Finset.mem_singleton.1 e]
        exact Finset.mem_filter.2 ⟨Finset.mem_univ _, hjy⟩
    calc 2 = ({i, j} : Finset (Fin 4096)).card := (Finset.card_pair (Ne.symm hji)).symm
      _ ≤ _ := Finset.card_le_card hsub
  rw [fpK_at Y h i, if_pos hc2, fp0K_at]
  obtain ⟨m, hgm, hmy, hmin⟩ := gmK_spec Y h i
  by_cases him : BitVec.ofNat 32 i.val = gmK Y (ix1 i)
  ·
    rw [if_pos him]
    have hmi : i = m := by rw [hgm] at him; exact ofNat_fin_inj.1 him
    unfold sK
    rw [gather_at Y _ h i]
    obtain ⟨s1, s2, s3⟩ := minScatter_spec Y h (idx2K Y) (idx2K_toNat_le Y) (secMinK Y) rfl ⟨(Y (ix1 i)).toNat, h i⟩
    have hidx : ∀ p : Fin 4096, Y (ix1 p) = Y (ix1 i) → p ≠ i → idx2K Y (ix1 p) = BitVec.ofNat 32 p.val := by
      intro p hp hpi
      rw [idx2K_of_class Y h hgm hp, if_neg (by rw [← hmi]; exact hpi)]
    have hidxi : idx2K Y (ix1 i) = 4096#32 := by
      rw [idx2K_of_class Y h hgm rfl, if_pos hmi]
    have h4096 : (4096#32).toNat = 4096 := rfl
    have hj := s2 j (congrArg BitVec.toNat hjy)
    rw [hidx j hjy hji, toNat_ofNat_fin] at hj
    have hjlt := j.isLt
    rcases s3 with e | ⟨p, hp, e⟩
    · exfalso; rw [e, h4096] at hj; omega
    · have hpy : Y (ix1 p) = Y (ix1 i) := BitVec.eq_of_toNat_eq hp
      by_cases hpi : p = i
      · exfalso; rw [e, hpi, hidxi, h4096] at hj; omega
      · rw [hidx p hpy hpi] at e
        refine ⟨p, e, hpi, hpy, ?_⟩
        intro q hqi hqy
        have hq := s2 q (congrArg BitVec.toNat hqy)
        rw [e, hidx q hqy hqi, toNat_ofNat_fin, toNat_ofNat_fin] at hq
        exact hq
  ·
    rw [if_neg him, hgm]
    refine ⟨m, rfl, ?_, hmy, fun q _ hq => hmin q hq⟩
    intro e
    apply him
    rw [hgm, e]

theorem fpK_of_not_exists (h : ∀ i : Fin 4096, (Y (ix1 i)).toNat < 512) (i : Fin 4096)
    (hno : ¬ ∃ j : Fin 4096, j ≠ i ∧ Y (ix1 j) = Y (ix1 i)) :
    fpK Y (ix1 i) = 0xFFFFFFFF#32 := by
  have hc1 : (cntK Y (ix1 i)).toNat ≤ 1 := by
    rw [cntK_toNat Y h i]
    refine Finset.card_le_one.2 fun a ha b hb => ?_
    have ha' : a = i := by
      by_contra hne
      exact hno ⟨a, hne, (Finset.mem_filter.1 ha).2⟩
    have hb' : b = i := by
      by_contra hne
      exact hno ⟨b, hne, (Finset.mem_filter.1 hb).2⟩
    rw [ha', hb']
  rw [fpK_at Y h i, if_neg (by omega)]

open Cert.CLCE

theorem posSet_nonempty_iff (i : Fin 4096) :
    (posSet (lab Y) i).Nonempty ↔ ∃ j : Fin 4096, j ≠ i ∧ Y (ix1 j) = Y (ix1 i) := by
  unfold posSet
  constructor
  · rintro ⟨j, hj⟩
    exact ⟨j, (Finset.mem_filter.1 hj).2⟩
  · rintro ⟨j, hj⟩
    exact ⟨j, Finset.mem_filter.2 ⟨Finset.mem_univ _, hj⟩⟩

theorem cntK_eq_sameCount (h : ∀ i : Fin 4096, (Y (ix1 i)).toNat < 512) (i : Fin 4096) :
    (cntK Y (ix1 i)).toNat = sameCount (lab Y) i := cntK_toNat Y h i

theorem fpK_of_nonempty (h : ∀ i : Fin 4096, (Y (ix1 i)).toNat < 512) (i : Fin 4096)
    (hne : (posSet (lab Y) i).Nonempty) : fpK Y (ix1 i) = BitVec.ofNat 32 (firstPos (lab Y) i).val := by
  obtain ⟨fp, e, hfi, hfy, hmin⟩ := fpK_of_exists Y h i ((posSet_nonempty_iff Y i).1 hne)
  rw [e]
  have : fp = firstPos (lab Y) i := by
    unfold firstPos
    rw [dif_pos hne]
    apply le_antisymm
    · refine Finset.le_min' _ _ _ fun q hq => ?_
      have hq' := (Finset.mem_filter.1 hq).2
      exact hmin q hq'.1 hq'.2
    · exact Finset.min'_le _ _ (Finset.mem_filter.2 ⟨Finset.mem_univ _, hfi, hfy⟩)
  rw [this]

theorem fpK_of_empty (h : ∀ i : Fin 4096, (Y (ix1 i)).toNat < 512) (i : Fin 4096)
    (hne : ¬ (posSet (lab Y) i).Nonempty) : fpK Y (ix1 i) = 0xFFFFFFFF#32 :=
  fpK_of_not_exists Y h i fun hex => hne ((posSet_nonempty_iff Y i).2 hex)

end Cert.KernelIdeal.KInt

end
-- ==== Proof.KHostVals.lean ====
import proofs.«401202_j76493367542062_3_alg».proof.KernelIdeal
import proofs.«401202_j76493367542062_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.IdealHost

noncomputable section

open scoped BigOperators

namespace Cert.KernelIdeal.KHost

open Idealize.ShloMosaic Idealize.ShloMosaic.ValueIdx Cert.KernelIdeal Cert.KernelIdeal.Facts₀

variable [Facts₀]

def fpSafe0 (fp : IVec S4096 32) : IVec S4096 32 :=
  select (cmpi .sge fp (broadcastInDim S4096 ![] bcast_S_S4096 (constantI S_ 32 0#32))) fp
    (broadcastInDim S4096 ![] bcast_S_S4096 (id (constantI S_ 32 0#32)))

def fpNorm (fp : IVec S4096 32) : IVec S4096 32 :=
  select (cmpi .slt (fpSafe0 fp) (broadcastInDim S4096 ![] bcast_S_S4096 (constantI S_ 32 0#32)))
    (addi (fpSafe0 fp) (broadcastInDim S4096 ![] bcast_S_S4096 (constantI S_ 32 4096#32))) (fpSafe0 fp)

def gatherK (xn : FVec Ideal S4096x1024 .f32) (fp : IVec S4096 32) : FVec Ideal S4096x1024 .f32 :=
  Host.gather gather_S4096x1024_S4096x1_S4096x1024_1_0_n_n_0_1_11024 xn
    (broadcastInDim S4096x1 ![0] bcast_S4096_S4096x1_0 (fpNorm fp))

def dotK (xn : FVec Ideal S4096x1024 .f32) (fp : IVec S4096 32) : FVec Ideal S4096 .f32 :=
  Host.reduceAdd (mulf xn (gatherK xn fp)) (constant (F := Ideal) S_ .f32 0x00000000#32) reducesTo_S4096x1024_S4096_d1 h_S_

def slot0V (xn : FVec Ideal S4096x1024 .f32) (fp : IVec S4096 32) : FVec Ideal S4096 .f32 :=
  select (cmpi .sge fp (broadcastInDim S4096 ![] bcast_S_S4096 (constantI S_ 32 0#32)))
    (mulf (addf (dotK xn fp) (broadcastInDim S4096 ![] bcast_S_S4096 (constant (F := Ideal) S_ .f32 0x3F800000#32)))
      (broadcastInDim S4096 ![] bcast_S_S4096 (constant (F := Ideal) S_ .f32 0x3E800000#32)))
    (broadcastInDim S4096 ![] bcast_S_S4096 (id (constant (F := Ideal) S_ .f32 0x00000000#32)))

def slot0K (xn : FVec Ideal S4096x1024 .f32) (fp : IVec S4096 32) : FVec Ideal S4096x1 .f32 :=
  shapeCast S4096x1 (slot0V xn fp) shapeCasts_S4096_S4096x1

def samecntK (cnt : IVec S4096 32) : FVec Ideal S4096x1 .f32 :=
  shapeCast S4096x1 (sitofp (F := Ideal) .f32 cnt) shapeCasts_S4096_S4096x1

theorem reshape_col_apply {α : Type} (v : S4096.Idx → α) (i : Fin 4096) (u : Fin 1) :
    shapeCast S4096x1 v shapeCasts_S4096_S4096x1 (ix2 i u) = v (ix1 i) :=
  shapeCast_apply v shapeCasts_S4096_S4096x1 _ _ (by
    have hu : u.val = 0 := by omega
    rw [Shape.rowMajor_val_one, Shape.rowMajor_val_two]
    show i.val = i.val * 1 + u.val
    rw [hu, Nat.mul_one, Nat.add_zero])

theorem reshape_row_apply {α : Type} (v : S4096.Idx → α) (u : Fin 1) (j : Fin 4096) :
    shapeCast S1x4096 v shapeCasts_S4096_S1x4096 (ix2 u j) = v (ix1 j) :=
  shapeCast_a_1a_apply v _ u j

theorem cast_bf16_apply (xn : FVec Ideal S4096x1024 .f32) (j : S4096x1024.Idx) :
    (truncf .bf16 xn bitsLt_bf16_f32 : FVec Ideal S4096x1024 .bf16) j = xn j := rfl

theorem gather_row_apply {α : Type} {w : Nat} (x : S4096x1024.Idx → α) (idx : IVec S4096x1 w) (i : Fin 4096) (k : Fin 1024) :
    Host.gather gather_S4096x1024_S4096x1_S4096x1024_1_0_n_n_0_1_11024 x idx (ix2 i k)
      = x (ix2 ⟨min (idx (ix2 i (0 : Fin 1))).toInt.toNat 4095, by omega⟩ k) := by
  unfold Host.gather
  congr 1
  funext a
  refine Fin.ext ?_
  match a with
  | ⟨0, _⟩ =>

    show gather_S4096x1024_S4096x1_S4096x1024_1_0_n_n_0_1_11024.start (ix2 i k) idx 0
        + gather_S4096x1024_S4096x1_S4096x1024_1_0_n_n_0_1_11024.batchCoord (ix2 i k) 0
        + gather_S4096x1024_S4096x1_S4096x1024_1_0_n_n_0_1_11024.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1024_S4096x1_S4096x1024_1_0_n_n_0_1_11024.startIndexMap from List.mem_singleton.mpr rfl)]
    have hsi : gather_S4096x1024_S4096x1_S4096x1024_1_0_n_n_0_1_11024.siIdx (ix2 i k)
        ⟨List.idxOf (0 : Fin 2) gather_S4096x1024_S4096x1_S4096x1024_1_0_n_n_0_1_11024.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>

    show gather_S4096x1024_S4096x1_S4096x1024_1_0_n_n_0_1_11024.start (ix2 i k) idx 1
        + gather_S4096x1024_S4096x1_S4096x1024_1_0_n_n_0_1_11024.batchCoord (ix2 i k) 1
        + gather_S4096x1024_S4096x1_S4096x1024_1_0_n_n_0_1_11024.offCoord (ix2 i k) 1 = _
    rw [GatherDims.batchCoord_eq_zero _ _ _ List.not_mem_nil]
    unfold GatherDims.start
    rw [dif_neg (show (1 : Fin 2) ∉ gather_S4096x1024_S4096x1_S4096x1024_1_0_n_n_0_1_11024.startIndexMap by
      intro h; exact absurd (List.mem_singleton.mp h) (by decide))]
    unfold GatherDims.offCoord
    rw [dif_pos (show (1 : Fin 2) ∈ gather_S4096x1024_S4096x1_S4096x1024_1_0_n_n_0_1_11024.sKept by
      rw [GatherDims.mem_sKept]; exact ⟨by intro h; exact absurd (List.mem_singleton.mp h) (by decide), List.not_mem_nil⟩)]
    simp only [Nat.zero_add]
    rfl

theorem bcast_col_apply {α : Type} (v : S4096.Idx → α) (i : Fin 4096) (u : Fin 1) :
    broadcastInDim S4096x1 ![0] bcast_S4096_S4096x1_0 v (ix2 i u) = v (ix1 i) := by
  unfold broadcastInDim
  congr 1
  funext a
  obtain rfl : a = 0 := Subsingleton.elim _ _
  refine Fin.ext ?_
  split
  · next h1 => exact absurd (show (4096 : ℕ) = 1 from h1) (by decide)
  · rfl

theorem ofBits_quarter_f32 : Ideal.ofBits .f32 0x3E800000#32 = Cert.CLCE.quarter := by
  unfold Cert.CLCE.quarter
  simp [Ideal.ofBits, Ideal.ieee, -EReal.coe_mul]; norm_num

theorem toNat_ofNat_small {f : ℕ} (hf : f < 4096) : (BitVec.ofNat 32 f).toNat = f := by
  rw [BitVec.toNat_ofNat]; exact Nat.mod_eq_of_lt (by omega)

theorem cond_pos (fp : IVec S4096 32) (i : Fin 4096) {f : ℕ} (hf : f < 4096) (h : fp (ix1 i) = BitVec.ofNat 32 f) :
    cmpi .sge fp (broadcastInDim S4096 ![] bcast_S_S4096 (constantI S_ 32 0#32)) (ix1 i) = 1#1 := by
  show IntOp.cmpi .sge (fp (ix1 i)) 0#32 = 1#1
  rw [h]
  exact (StableHlo.Predicate.sge_iff_toNat (by rw [toNat_ofNat_small hf]; omega) (by decide)).mpr (Nat.zero_le _)

theorem cond_neg (fp : IVec S4096 32) (i : Fin 4096) (h : fp (ix1 i) = -1#32) :
    cmpi .sge fp (broadcastInDim S4096 ![] bcast_S_S4096 (constantI S_ 32 0#32)) (ix1 i) = 0#1 := by
  show IntOp.cmpi .sge (fp (ix1 i)) 0#32 = 0#1
  rw [h]
  decide

theorem fpNorm_apply_pos (fp : IVec S4096 32) (i : Fin 4096) {f : ℕ} (hf : f < 4096) (h : fp (ix1 i) = BitVec.ofNat 32 f) :
    fpNorm fp (ix1 i) = BitVec.ofNat 32 f := by
  have hs : fpSafe0 fp (ix1 i) = BitVec.ofNat 32 f := by
    show Scalar.select (cmpi .sge fp (broadcastInDim S4096 ![] bcast_S_S4096 (constantI S_ 32 0#32)) (ix1 i)) (fp (ix1 i)) 0#32 = _
    rw [cond_pos fp i hf h, select_one, h]
  show Scalar.select (IntOp.cmpi .slt (fpSafe0 fp (ix1 i)) 0#32) (IntOp.addi (fpSafe0 fp (ix1 i)) 4096#32) (fpSafe0 fp (ix1 i)) = _
  rw [hs]
  have hn : IntOp.cmpi .slt (BitVec.ofNat 32 f) 0#32 = 0#1 :=
    eq_zero_of_ne_one fun h1 => absurd ((StableHlo.Predicate.slt_iff_toNat (by rw [toNat_ofNat_small hf]; omega) (by decide)).mp h1)
      (Nat.not_lt_zero _)
  rw [hn, select_zero]

theorem gatherK_apply_pos (xn : FVec Ideal S4096x1024 .f32) (fp : IVec S4096 32) (i : Fin 4096) (f : Fin 4096)
    (h : fp (ix1 i) = BitVec.ofNat 32 f.val) (k : Fin 1024) : gatherK xn fp (ix2 i k) = xn (ix2 f k) := by
  unfold gatherK
  rw [gather_row_apply]
  refine congrArg (fun r : Fin 4096 => xn (ix2 r k)) (Fin.ext ?_)
  show min (broadcastInDim S4096x1 ![0] bcast_S4096_S4096x1_0 (fpNorm fp) (ix2 i (0 : Fin 1))).toInt.toNat 4095 = f.val
  rw [bcast_col_apply, fpNorm_apply_pos fp i f.isLt h, StableHlo.Predicate.toInt_ofNat_small f.val (by omega), Int.toNat_natCast]
  exact Nat.min_eq_left (by omega)

theorem dotK_apply (xn : FVec Ideal S4096x1024 .f32) (fp : IVec S4096 32) (i : Fin 4096) :
    dotK xn fp (ix1 i) = ∑ k : Fin 1024, xn (ix2 i k) * gatherK xn fp (ix2 i k) := by
  unfold dotK
  rw [hostReduceAdd_apply, Ideal.hostReduceAdd_single reducesTo_S4096x1024_S4096_d1 (by decide : S4096x1024.Reduces [1] S4096)]
  show Ideal.ofBits .f32 0x00000000#32 + _ = _
  rw [Ideal.ofBits_zero_f32, zero_add]
  refine Finset.sum_congr rfl fun k _ => ?_
  have hl : (by decide : S4096x1024.Reduces [1] S4096).lift (ix1 i) k = ix2 i k := by
    funext c; refine Fin.ext ?_
    match c with
    | ⟨0, _⟩ => rfl
    | ⟨1, _⟩ => rfl
  rw [hl]
  rfl

theorem samecntK_apply (y : Fin 4096 → BitVec 32) (cnt : IVec S4096 32)
    (hcnt : ∀ i : Fin 4096, (cnt (ix1 i)).toNat = Cert.CLCE.sameCount y i) (i : Fin 4096) :
    samecntK cnt (ix2 i (0 : Fin 1)) = ((Cert.CLCE.sameCount y i : ℝ) : EReal) := by
  have hle : Cert.CLCE.sameCount y i ≤ 4096 := by
    unfold Cert.CLCE.sameCount
    exact (Finset.card_filter_le _ _).trans (by simp)
  have hlt : (cnt (ix1 i)).toNat < 2 ^ 31 := by rw [hcnt i]; omega
  unfold samecntK
  rw [reshape_col_apply, sitofp_apply]
  show (((cnt (ix1 i)).toInt : ℝ) : EReal) = _
  rw [StableHlo.Predicate.toInt_eq_toNat_of_lt hlt, hcnt i]
  norm_cast

theorem slot0K_apply (xnf : Fin 4096 → Fin 1024 → EReal) (y : Fin 4096 → BitVec 32)
    (xn : FVec Ideal S4096x1024 .f32) (fp : IVec S4096 32)
    (hxn : ∀ (i : Fin 4096) (k : Fin 1024), xn (ix2 i k) = xnf i k)
    (hfp : ∀ i : Fin 4096, (Cert.CLCE.posSet y i).Nonempty → fp (ix1 i) = BitVec.ofNat 32 (Cert.CLCE.firstPos y i).val)
    (hfp' : ∀ i : Fin 4096, ¬ (Cert.CLCE.posSet y i).Nonempty → fp (ix1 i) = -1#32) (i : Fin 4096) :
    slot0K xn fp (ix2 i (0 : Fin 1)) = Cert.CLCE.slot0E xnf y i := by
  unfold slot0K
  rw [reshape_col_apply]
  unfold slot0V
  rw [select_apply]
  by_cases hne : (Cert.CLCE.posSet y i).Nonempty
  · have hf := hfp i hne
    rw [cond_pos fp i (Cert.CLCE.firstPos y i).isLt hf, select_one, mulf_apply, addf_apply, dotK_apply]
    show (∑ k : Fin 1024, xn (ix2 i k) * gatherK xn fp (ix2 i k) + Ideal.ofBits .f32 0x3F800000#32)
      * Ideal.ofBits .f32 0x3E800000#32 = _
    rw [Ideal.ofBits_one_f32, ofBits_quarter_f32]
    unfold Cert.CLCE.slot0E Cert.CLCE.dotE
    rw [if_pos hne]
    congr 2
    refine Finset.sum_congr rfl fun k _ => ?_
    rw [gatherK_apply_pos xn fp i _ hf k, hxn, hxn]
  · rw [cond_neg fp i (hfp' i hne), select_zero]
    show Ideal.ofBits .f32 0x00000000#32 = _
    rw [Ideal.ofBits_zero_f32]
    unfold Cert.CLCE.slot0E
    rw [if_neg hne]

end Cert.KernelIdeal.KHost

end
-- ==== Proof.KBody.lean ====
import proofs.«401202_j76493367542062_3_alg».proof.Proof.Gen.KernelIdeal
import proofs.«401202_j76493367542062_3_alg».proof.Proof.Gen.KernelIdeal.Skeleton
import proofs.«401202_j76493367542062_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (q : Fin cfg0.W → PosShare TreeShare)

theorem N_0 : cfg0.N = 16 := by decide

abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

theorem off0 : (![0, 0] : Fin 2 → ℕ) = fun _ => 0 := by funext a; fin_cases a <;> rfl

theorem readAt_unread0 {S : Shape} {e : EltTy} (m : Memref sig .tc .vmem S e) (h : m.IsWhole)
    {off : Fin S.rank → ℕ} (ho : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero ho]

theorem read_writes_cons0 {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

theorem bigSep_W {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem liveAt : ∀ (w : Fin cfg0.W) (t : Fin cfg0.N), w ≠ 6 → cfg0.idle w (grid0.coords t) = false := by decide +kernel
theorem idleAt6 : ∀ t : Fin cfg0.N, ¬cond2 (grid0.coords t) → cfg0.idle 6 (grid0.coords t) = true := by decide +kernel
theorem noFlush6 : ∀ t : Fin cfg0.N, ¬cond2 (grid0.coords t) → (cfg0.win 6).flush t = false := by decide +kernel
theorem liveAt6 : ∀ t : Fin cfg0.N, cond2 (grid0.coords t) → cfg0.idle 6 (grid0.coords t) = false := by decide +kernel

abbrev ms0 (t : Fin cfg0.N) : Memref sig .tc .vmem S1024x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .i32 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x1 .f32 := win0_4.stage (cfg0.slots t 4)
abbrev ms5 (t : Fin cfg0.N) : Memref sig .tc .vmem S1024x1 .f32 := win0_5.stage (cfg0.slots t 5)
abbrev ms6 (t : Fin cfg0.N) : Memref sig .tc .vmem S1024x1 .f32 := win0_6.stage (cfg0.slots t 6)
abbrev scM : Memref sig .tc .vmem S1024x1 .f32 := Memref.whole cc0_scratch0

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def scrAt (c : Dev nD) : (n : ℕ) → n < cfg0.N → Vec F S1024x1 .f32
  | 0, hn => k0_pay2 (iblk V c 2 ⟨0, hn⟩) (iblk V c 3 ⟨0, hn⟩) (iblk V c 0 ⟨0, hn⟩) (iblk V c 1 ⟨0, hn⟩) (k0_pay1 (F := F))
  | n + 1, hn =>
    if (n + 1) % 4 = 0 then
      k0_pay2 (iblk V c 2 ⟨n + 1, hn⟩) (iblk V c 3 ⟨n + 1, hn⟩) (iblk V c 0 ⟨n + 1, hn⟩) (iblk V c 1 ⟨n + 1, hn⟩) (k0_pay1 (F := F))
    else
      k0_pay2 (iblk V c 2 ⟨n + 1, hn⟩) (iblk V c 3 ⟨n + 1, hn⟩) (iblk V c 0 ⟨n + 1, hn⟩) (iblk V c 1 ⟨n + 1, hn⟩) (scrAt c n (Nat.lt_of_succ_lt hn))

def outAt (c : Dev nD) (t : Fin cfg0.N) : Vec F S1024x1 .f32 :=
  k0_pay3 (iblk V c 5 t) (scrAt V c t.val t.isLt) (iblk V c 4 t) (iblk V c 5 t)

theorem scrAt_A (c : Dev nD) (t : Fin cfg0.N) (h0 : t.val % 4 = 0) :
    scrAt V c t.val t.isLt = k0_pay2 (iblk V c 2 t) (iblk V c 3 t) (iblk V c 0 t) (iblk V c 1 t) (k0_pay1 (F := F)) := by
  obtain ⟨n, hn⟩ := t
  cases n with
  | zero => rfl
  | succ n => exact (if_pos h0).trans rfl

theorem scrAt_BC (c : Dev nD) (t : Fin cfg0.N) (h0 : ¬t.val % 4 = 0) :
    scrAt V c t.val t.isLt = k0_pay2 (iblk V c 2 t) (iblk V c 3 t) (iblk V c 0 t) (iblk V c 1 t)
      (scrAt V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS (c : Dev nD) : (n : ℕ) → n ≤ cfg0.N → sProp 𝕄
  | 0, _ => iprop(∃ d, owns (c : Thread nD τ) scM fullShare d)
  | n + 1, hn => owns (c : Thread nD τ) scM fullShare (scrAt V c n hn)

-- Past the first point the scratch column holds the running sums of the point before; at the first point it holds anything.
theorem PhiS_elim (c : Dev nD) (n : ℕ) (h : n ≤ cfg0.N) :
    PhiS V c n h ⊢ iprop(∃ xs, ⌜∀ hz : n ≠ 0, xs = scrAt V c (n - 1) (by omega)⌝ ∗ owns (c : Thread nD τ) scM fullShare xs) := by
  cases n with
  | zero =>
    show iprop(∃ d, owns (c : Thread nD τ) scM fullShare d) ⊢ _
    iintro ⟨%d, H⟩; iexists d; isplitr; · ipureintro; exact fun hz => absurd rfl hz
    iexact H
  | succ n =>
    show owns (c : Thread nD τ) scM fullShare (scrAt V c n h) ⊢ _
    iintro H; iexists (scrAt V c n h); isplitr; · ipureintro; exact fun _ => rfl
    iexact H

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := q
  owed _ := 0

theorem Phi_zero (c : Dev nD) : (dats V q c).Φ 0 = iprop(∃ d, owns (c : Thread nD τ) scM fullShare d) := rfl
theorem Phi_succ (c : Dev nD) (t : Fin cfg0.N) :
    (dats V q c).Φ t.succ = owns (c : Thread nD τ) scM fullShare (scrAt V c t.val t.isLt) := rfl

theorem Phi_castSucc (c : Dev nD) (t : Fin cfg0.N) :
    (dats V q c).Φ t.castSucc = PhiS V c t.val (Nat.le_of_lt t.isLt) := by
  dsimp only [dats]; simp only [Fin.coe_castSucc]
theorem Phi_last (c : Dev nD) :
    (dats V q c).Φ (Fin.last cfg0.N) = owns (c : Thread nD τ) scM fullShare (scrAt V c 15 (by rw [N_0]; decide)) :=
  Phi_succ V q c ⟨15, by rw [N_0]; decide⟩

theorem after6 (c : Dev nD) (t : Fin cfg0.N) : (dats V q c).after 6 t = outAt V c t := by dsimp only [dats]

theorem before0 (c : Dev nD) (t : Fin cfg0.N) (d) : (dats V q c).before 0 t d = iblk V c 0 t :=
  ((dats V q c).before_in_eq_fetched 0 rfl (fun _ => rfl) (fun _ _ _ => rfl) (fun _ => rfl) t d).trans rfl
theorem before1 (c : Dev nD) (t : Fin cfg0.N) (d) : (dats V q c).before 1 t d = iblk V c 1 t :=
  ((dats V q c).before_in_eq_fetched 1 rfl (fun _ => rfl) (fun _ _ _ => rfl) (fun _ => rfl) t d).trans rfl
theorem before2 (c : Dev nD) (t : Fin cfg0.N) (d) : (dats V q c).before 2 t d = iblk V c 2 t :=
  ((dats V q c).before_in_eq_fetched 2 rfl (fun _ => rfl) (fun _ _ _ => rfl) (fun _ => rfl) t d).trans rfl
theorem before3 (c : Dev nD) (t : Fin cfg0.N) (d) : (dats V q c).before 3 t d = iblk V c 3 t :=
  ((dats V q c).before_in_eq_fetched 3 rfl (fun _ => rfl) (fun _ _ _ => rfl) (fun _ => rfl) t d).trans rfl
theorem before4 (c : Dev nD) (t : Fin cfg0.N) (d) : (dats V q c).before 4 t d = iblk V c 4 t :=
  ((dats V q c).before_in_eq_fetched 4 rfl (fun _ => rfl) (fun _ _ _ => rfl) (fun _ => rfl) t d).trans rfl
theorem before5 (c : Dev nD) (t : Fin cfg0.N) (d) : (dats V q c).before 5 t d = iblk V c 5 t :=
  ((dats V q c).before_in_eq_fetched 5 rfl (fun _ => rfl) (fun _ _ _ => rfl) (fun _ => rfl) t d).trans rfl

theorem leaves_in (c : Dev nD) (w : Fin cfg0.W) (hw : w ≠ 6) (t : Fin cfg0.N) :
    (dats V q c).leavesExact w t = owns (c : Thread nD τ) ((cfg0.win w).stage (cfg0.slots t w)) fullShare ((dats V q c).after w t) := by
  unfold Dat.leavesExact; rw [liveAt w t hw]

-- One step: the scratch restarts from zero when ci = 0, gains this point's masked row sums, and the result block is written only when ci = 3.
set_option maxHeartbeats 3000000 in
theorem run (c : Dev nD) (i : grid0.Coords) (a2 : Memref sig .tc .vmem S1024x1 .i32) (h2 : a2.IsWhole) (a3 : Memref sig .tc .vmem S1x1024 .i32) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole) (h12 : cond1 i → ¬cond2 i)
    (x0 : Vec F S1024x1 .i32) (x1 : Vec F S1x1024 .i32) (x2 x3 : Vec F S1024x1024 .bf16) (x4 x5 xo xs : Vec F S1024x1 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare (if cond2 i then k0_pay3 x5 (k0_pay2 x2 x3 x0 x1 (if cond1 i then k0_pay1 else xs)) x4 x5 else xo) ∗ owns (c : Thread nD τ) a9 fullShare (k0_pay2 x2 x3 x0 x1 (if cond1 i then k0_pay1 else xs))) -∗ K ⟨⟩))
      ⊢ wp frame (wpE (defs₀ (F := F)) Variants.none c none) E (cc0__clce_kernel i a2 h2 a3 h3 a4 h4 a5 h5 a6 h6 a7 h7 a8 h8 a9 h9) K := by
  by_cases hc1 : cond1 i <;> by_cases hc2 : cond2 i
  · exact absurd hc2 (h12 hc1)
  all_goals
  first | rw [if_pos hc1] | rw [if_neg hc1]
  first | rw [if_pos hc2] | rw [if_neg hc2]
  simp only [cc0__clce_kernel_eq_skeleton]; unfold cc0__clce_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hf9
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr
    swap; · iexact H6
    ipureintro
    first
    | exact h8.read_unread _
    | sl_unfold_run_names
      rw [read_writes_cons0 _ _ off0, View.readCov_unit_zero _ off0, readAt_unread0 _ h7 off0, readAt_unread0 _ h6 off0,
        readAt_unread0 _ h4 off0, readAt_unread0 _ h5 off0, readAt_unread0 _ h2 off0, readAt_unread0 _ h3 off0, readAt_unread0 _ h9 off0]
  iexists _; isplitr
  swap; · iexact H9
  ipureintro
  try sl_unfold_run_names
  rw [read_writes_cons0 _ _ off0, readAt_unread0 _ h4 off0, readAt_unread0 _ h5 off0, readAt_unread0 _ h2 off0, readAt_unread0 _ h3 off0]
  first | rw [View.readCov_unit_zero _ off0] | rw [readAt_unread0 _ h9 off0]

def bodyPre (c : Dev nD) (t : Fin cfg0.N) : sProp 𝕄 :=
  iprop((dats V q c).Φ t.castSucc ∗ (dats V q c).owesAt () t.castSucc
    ∗ (∃ d, owns (c : Thread nD τ) (ms0 t) fullShare ((dats V q c).before 0 t d))
    ∗ (∃ d, owns (c : Thread nD τ) (ms1 t) fullShare ((dats V q c).before 1 t d))
    ∗ (∃ d, owns (c : Thread nD τ) (ms2 t) fullShare ((dats V q c).before 2 t d))
    ∗ (∃ d, owns (c : Thread nD τ) (ms3 t) fullShare ((dats V q c).before 3 t d))
    ∗ (∃ d, owns (c : Thread nD τ) (ms4 t) fullShare ((dats V q c).before 4 t d))
    ∗ (∃ d, owns (c : Thread nD τ) (ms5 t) fullShare ((dats V q c).before 5 t d))
    ∗ (∃ d, owns (c : Thread nD τ) (ms6 t) fullShare ((dats V q c).before 6 t d)))

def bodyPost (c : Dev nD) (t : Fin cfg0.N) : sProp 𝕄 :=
  iprop((dats V q c).Φ t.succ ∗ (dats V q c).owesAt () t.succ
    ∗ (dats V q c).leavesExact 0 t ∗ (dats V q c).leavesExact 1 t ∗ (dats V q c).leavesExact 2 t
    ∗ (dats V q c).leavesExact 3 t ∗ (dats V q c).leavesExact 4 t ∗ (dats V q c).leavesExact 5 t
    ∗ (dats V q c).leavesExact 6 t)

-- The result block is the closed form when ci = 3 and is left as found otherwise.
theorem leaves_out (c : Dev nD) (t : Fin cfg0.N) (d) :
    owns (c : Thread nD τ) (ms6 t) fullShare (if cond2 (grid0.coords t) then outAt V c t else (dats V q c).before 6 t d)
      ⊢ (dats V q c).leavesExact 6 t := by
  by_cases hc2 : cond2 (grid0.coords t)
  · rw [if_pos hc2]; unfold Dat.leavesExact; rw [liveAt6 t hc2, after6]
  · rw [if_neg hc2, Dat.leavesExact_idle (dats V q c) 6 t (idleAt6 t hc2) (noFlush6 t hc2)]
    iintro H; iexists _; iexact H

-- Both conditions are functions of t mod 4, so the one step above serves every grid point.
set_option maxHeartbeats 1600000 in
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0, before1, before2, before3, before4, before5]
  rw [show (dats V q c).owesAt () t.succ = (dats V q c).owesAt () t.castSucc from rfl, Phi_succ, Phi_castSucc,
    show _ = owns (c : Thread nD τ) (ms0 t) fullShare (iblk V c 0 t) from leaves_in V q c 0 (by decide) t,
    show _ = owns (c : Thread nD τ) (ms1 t) fullShare (iblk V c 1 t) from leaves_in V q c 1 (by decide) t,
    show _ = owns (c : Thread nD τ) (ms2 t) fullShare (iblk V c 2 t) from leaves_in V q c 2 (by decide) t,
    show _ = owns (c : Thread nD τ) (ms3 t) fullShare (iblk V c 3 t) from leaves_in V q c 3 (by decide) t,
    show _ = owns (c : Thread nD τ) (ms4 t) fullShare (iblk V c 4 t) from leaves_in V q c 4 (by decide) t,
    show _ = owns (c : Thread nD τ) (ms5 t) fullShare (iblk V c 5 t) from leaves_in V q c 5 (by decide) t]
  iintro ⟨HS, Ho, ⟨%d0, H0⟩, ⟨%d1, H1⟩, ⟨%d2, H2⟩, ⟨%d3, H3⟩, ⟨%d4, H4⟩, ⟨%d5, H5⟩, ⟨%d6, H6⟩⟩
  ihave HS := (PhiS_elim V c _ _) $$ HS
  icases HS with ⟨%xs, %hxs, HS⟩
  have e : k0_pay2 (iblk V c 2 t) (iblk V c 3 t) (iblk V c 0 t) (iblk V c 1 t) (if cond1 (grid0.coords t) then k0_pay1 else xs)
      = scrAt V c t.val t.isLt := by
    by_cases h0 : t.val % 4 = 0
    · rw [if_pos ((hcond1 t).mpr h0), scrAt_A V c t h0]
    · rw [if_neg fun h => h0 ((hcond1 t).mp h), scrAt_BC V c t h0, hxs fun h => h0 (by rw [h])]
  iapply (run c (grid0.coords t) _ _ _ _ _ _ _ _ _ _ _ _ _ _ _ _
    (fun h1 h2 => by have := (hcond1 t).mp h1; have := (hcond2 t).mp h2; omega)
    (iblk V c 0 t) (iblk V c 1 t) (iblk V c 2 t) (iblk V c 3 t) (iblk V c 4 t) (iblk V c 5 t) ((dats V q c).before 6 t d6) xs Set.univ _)
  rw [e, show k0_pay3 (iblk V c 5 t) (scrAt V c t.val t.isLt) (iblk V c 4 t) (iblk V c 5 t) = outAt V c t from rfl]
  iframe H0 H1 H2 H3 H4 H5 H6 HS
  iintro ⟨H0, H1, H2, H3, H4, H5, H6, HS⟩
  iframe HS Ho H0 H1 H2 H3 H4 H5
  iapply (leaves_out V q c t d6); iexact H6

theorem body_obligation_exact (c : Dev nD) :
    BodyObligation (dats V q c) (defs₀ (F := F)) Variants.none () Set.univ := fun t => by
  rw [bigSep_W, bigSep_W]
  exact sound_body V q c t

theorem body_obligation : ∀ c : Dev nD,
    BodyObligationLoose (dats V q c) (defs₀ (F := F)) Variants.none () Set.univ :=
  fun c => (body_obligation_exact V q c).loose

end Cert.KernelIdeal.Body

end
-- ==== Proof.LibTileSum.lean ====
import Mathlib.Algebra.BigOperators.Fin
import Mathlib.Algebra.BigOperators.Intervals

namespace Cert.Lib.TileSum

open Finset

-- Row-major numbering is a bijection from pairs (tile, offset) onto the flat index.
theorem sum_tiles {M : Type*} [AddCommMonoid M] (T R : ℕ) (f : ℕ → M) :
    ∑ t : Fin T, ∑ r : Fin R, f (t.val * R + r.val) = ∑ n : Fin (T * R), f n.val := by
  rw [← Fintype.sum_prod_type' (f := fun (t : Fin T) (r : Fin R) => f (t.val * R + r.val))]
  refine Fintype.sum_equiv finProdFinEquiv _ _ (fun x => ?_)
  simp only [finProdFinEquiv_apply_val]
  rw [Nat.add_comm, Nat.mul_comm]

end Cert.Lib.TileSum
-- ==== Proof.KPayload.lean ====
import proofs.«401202_j76493367542062_3_alg».proof.Proof.Gen.KernelIdeal.Skeleton
import proofs.«401202_j76493367542062_3_alg».proof.Proof.Spec
import proofs.«401202_j76493367542062_3_alg».proof.Proof.LibTileSum
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.KPay

open Idealize.ShloMosaic Idealize.ShloMosaic.ValueIdx Cert.KernelIdeal Cert.KernelIdeal.Gen Cert.CLCE

theorem quarter_word : Ideal.ofBits .f32 0x3E800000#32 = quarter := by
  unfold quarter
  simp [Ideal.ofBits, Ideal.ieee, -EReal.coe_mul]; norm_num

theorem c4094_word : Ideal.ofBits .f32 0x457FE000#32 = ((4094 : ℝ) : EReal) := by
  simp [Ideal.ofBits, Ideal.ieee, -EReal.coe_mul]; norm_num

theorem pay1_apply (r : Fin 1024) : (k0_pay1 (F := Ideal)) (ix2 r (0 : Fin 1)) = (0 : EReal) := by
  unfold k0_pay1
  rw [shapeCast_self]
  exact Ideal.ofBits_zero_f32

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem matmul_rows_apply (a b : FVec Ideal S1024x1024 .bf16) (r q : Fin 1024) :
    matmul dot_S1024x1024_S1024x1024_S1024x1024_1_1_0_0_n_n none a b (constant (F := Ideal) S1024x1024 .f32 0x00000000#32) (ix2 r q)
      = ∑ k : Fin 1024, (a (ix2 r k) : EReal) * (b (ix2 q k) : EReal) := by
  show FloatOps.matmul dot_S1024x1024_S1024x1024_S1024x1024_1_1_0_0_n_n none a b _ (ix2 r q) = _
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k

  have el : dot_S1024x1024_S1024x1024_S1024x1024_1_1_0_0_n_n.lhsIdx (ix2 r q)
      ((contrEquiv1 dot_S1024x1024_S1024x1024_S1024x1024_1_1_0_0_n_n 1024 rfl rfl).symm k) = ix2 r k :=
    funext fun ax => Fin.ext (by
      match ax with
      | ⟨0, _⟩ => exact lhs_axis0 _ _
      | ⟨1, _⟩ => exact (lhs_axis1 _ _).trans hk)
  have er : dot_S1024x1024_S1024x1024_S1024x1024_1_1_0_0_n_n.rhsIdx (ix2 r q)
      ((contrEquiv1 dot_S1024x1024_S1024x1024_S1024x1024_1_1_0_0_n_n 1024 rfl rfl).symm k) = ix2 q k :=
    funext fun ax => Fin.ext (by
      match ax with
      | ⟨0, _⟩ => exact rhs_axis0 _ _
      | ⟨1, _⟩ => exact (rhs_axis1 _ _).trans hk)
  rw [el, er]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lane_sum_apply (src : FVec Ideal S1024x1024 .f32) (hφ : FKind.Formats .f32)
    (hacc : (0x00000000#32 : BitVec 32) = 0x00000000#32) (r : Fin 1024) :
    multiReduction (F := Ideal) .add [1] S1024 src 0x00000000#32 reduces_S1024x1024_S1024 hφ hacc (ix1 r)
      = ∑ q : Fin 1024, (src (ix2 r q) : EReal) := by
  refine (Ideal.multiReduction_add_single src 0x00000000#32 reduces_S1024x1024_S1024 hφ hacc (ix1 r)).trans ?_
  refine Finset.sum_congr rfl fun q _ => congrArg src ?_
  funext ax
  match ax with
  | ⟨0, _⟩ => rfl
  | ⟨1, _⟩ => rfl

theorem pay2_apply (a b : Vec Ideal S1024x1024 .bf16) (yr : Vec Ideal S1024x1 .i32) (yc : Vec Ideal S1x1024 .i32)
    (acc : Vec Ideal S1024x1 .f32) (r : Fin 1024) :
    k0_pay2 a b yr yc acc (ix2 r (0 : Fin 1))
      = (acc (ix2 r (0 : Fin 1)) : EReal) + ∑ q : Fin 1024,
          (if (yr (ix2 r (0 : Fin 1)) : BitVec 32) = yc (ix2 (0 : Fin 1) q) then (0 : EReal)
           else Ideal.exp ((∑ k : Fin 1024, (a (ix2 r k) : EReal) * (b (ix2 q k) : EReal)) * quarter + quarter)) := by
  unfold k0_pay2
  simp only [shapeCast_self]

  refine (addf_apply _ _ _).trans (congrArg (fun t : EReal => (acc (ix2 r (0 : Fin 1)) : EReal) + t) ?_)
  refine (shapeCast_a_a1_apply _ _ r 0).trans ?_
  refine (lane_sum_apply _ _ _ r).trans ?_
  refine Finset.sum_congr rfl fun q _ => ?_
  refine (select_apply _ _ _ (ix2 r q)).trans ?_

  have hc : ∀ (u : IVec S1024x1 32) (v : IVec S1x1024 32),
      cmpi CmpIPredicate.eq (broadcastTo S1024x1024 u broadcasts_S1024x1_S1024x1024)
        (broadcastTo S1024x1024 v broadcasts_S1x1024_S1024x1024) (ix2 r q)
        = IntOp.cmpi .eq (u (ix2 r (0 : Fin 1))) (v (ix2 (0 : Fin 1) q)) := by
    intro u v
    show IntOp.cmpi .eq (broadcastTo S1024x1024 u _ (ix2 r q)) (broadcastTo S1024x1024 v _ (ix2 r q)) = _
    rw [broadcastTo_a1_ab_apply, broadcastTo_1b_ab_apply]

  have hv : ∀ m : FVec Ideal S1024x1024 .f32,
      exp (addf (mulf m (broadcast S1024x1024 (FloatOps.ofBits .f32 0x3E800000#32)))
        (broadcast S1024x1024 (FloatOps.ofBits .f32 0x3E800000#32))) (ix2 r q)
        = Ideal.exp ((m (ix2 r q) : EReal) * quarter + quarter) := by
    intro m
    show Ideal.exp ((m (ix2 r q) : EReal) * Ideal.ofBits .f32 0x3E800000#32 + Ideal.ofBits .f32 0x3E800000#32) = _
    rw [quarter_word]
  rw [hc, hv, matmul_rows_apply]

  by_cases h : (yr (ix2 r (0 : Fin 1)) : BitVec 32) = yc (ix2 (0 : Fin 1) q)
  · rw [if_pos h, StableHlo.Predicate.cmpi_eq_iff.mpr h, select_one]
    exact Ideal.ofBits_zero_f32
  · rw [if_neg h, eq_zero_of_ne_one (fun h1 => h (StableHlo.Predicate.cmpi_eq_iff.mp h1)), select_zero]

theorem pay3_apply (s0 ns cnt s0' : Vec Ideal S1024x1 .f32) (r : Fin 1024) :
    k0_pay3 s0 ns cnt s0' (ix2 r (0 : Fin 1))
      = Ideal.log (Ideal.exp (s0 (ix2 r (0 : Fin 1))) + (ns (ix2 r (0 : Fin 1)) : EReal)
          + (((4094 : ℝ) : EReal) + (cnt (ix2 r (0 : Fin 1)) : EReal))) - (s0' (ix2 r (0 : Fin 1)) : EReal) := by
  unfold k0_pay3
  simp only [shapeCast_self]
  show Ideal.log (Ideal.exp (s0 (ix2 r (0 : Fin 1))) + (ns (ix2 r (0 : Fin 1)) : EReal)
      + (Ideal.ofBits .f32 0x457FE000#32 + (cnt (ix2 r (0 : Fin 1)) : EReal))) - (s0' (ix2 r (0 : Fin 1)) : EReal) = _
  rw [c4094_word]

def row (t : Fin 4) (r : Fin 1024) : Fin 4096 := ⟨t.val * 1024 + r.val, by omega⟩

@[simp] theorem row_val (t : Fin 4) (r : Fin 1024) : (row t r).val = t.val * 1024 + r.val := rfl

variable (xn : Fin 4096 → Fin 1024 → EReal) (y : Fin 4096 → BitVec 32)

def negTermN (i : Fin 4096) (n : ℕ) : EReal :=
  if h : n < 4096 then (if y i = y ⟨n, h⟩ then 0 else Ideal.exp (dotE xn i ⟨n, h⟩ * quarter + quarter)) else 0

def negPart (i : Fin 4096) (c : ℕ) : EReal :=
  ∑ t ∈ Finset.range c, ∑ q : Fin 1024, negTermN xn y i (t * 1024 + q.val)

theorem negPart_zero (i : Fin 4096) : negPart xn y i 0 = 0 := by
  unfold negPart
  exact Finset.sum_range_zero _

theorem negPart_succ (i : Fin 4096) (c : Fin 4) :
    negPart xn y i (c.val + 1) = negPart xn y i c.val
      + ∑ q : Fin 1024, (if y i = y (row c q) then 0 else Ideal.exp (dotE xn i (row c q) * quarter + quarter)) := by
  unfold negPart
  rw [Finset.sum_range_succ]
  refine congrArg (fun t : EReal => _ + t) (Finset.sum_congr rfl fun q _ => ?_)

  have hlt : c.val * 1024 + q.val < 4096 := by omega
  unfold negTermN
  rw [dif_pos hlt]
  rfl

theorem negPart_four (i : Fin 4096) : negPart xn y i 4 = negsumE xn y i := by
  unfold negPart negsumE

  have e := Cert.Lib.TileSum.sum_tiles 4 1024 (negTermN xn y i)
  rw [Finset.sum_range (fun t => ∑ q : Fin 1024, negTermN xn y i (t * 1024 + q.val))]
  refine e.trans ?_
  show ∑ n : Fin 4096, negTermN xn y i n.val = _
  refine Finset.sum_congr rfl fun j _ => ?_
  unfold negTermN
  rw [dif_pos j.isLt]

theorem pay2_block (ri ci : Fin 4) (a b : Vec Ideal S1024x1024 .bf16) (yr : Vec Ideal S1024x1 .i32) (yc : Vec Ideal S1x1024 .i32)
    (acc : Vec Ideal S1024x1 .f32)
    (ha : ∀ (r : Fin 1024) (k : Fin 1024), (a (ix2 r k) : EReal) = xn (row ri r) k)
    (hb : ∀ (q : Fin 1024) (k : Fin 1024), (b (ix2 q k) : EReal) = xn (row ci q) k)
    (hyr : ∀ r : Fin 1024, (yr (ix2 r (0 : Fin 1)) : BitVec 32) = y (row ri r))
    (hyc : ∀ q : Fin 1024, (yc (ix2 (0 : Fin 1) q) : BitVec 32) = y (row ci q))
    (r : Fin 1024) (hacc : (acc (ix2 r (0 : Fin 1)) : EReal) = negPart xn y (row ri r) ci.val) :
    k0_pay2 a b yr yc acc (ix2 r (0 : Fin 1)) = negPart xn y (row ri r) (ci.val + 1) := by
  rw [pay2_apply, hacc, negPart_succ xn y (row ri r) ci]
  refine congrArg (fun t : EReal => _ + t) (Finset.sum_congr rfl fun q _ => ?_)

  have hd : (∑ k : Fin 1024, (a (ix2 r k) : EReal) * (b (ix2 q k) : EReal)) = dotE xn (row ri r) (row ci q) := by
    unfold dotE
    exact Finset.sum_congr rfl fun k _ => by rw [ha r k, hb q k]
  rw [hyr r, hyc q, hd]

theorem pay3_block (ri : Fin 4) (s0 ns cnt s0' : Vec Ideal S1024x1 .f32) (r : Fin 1024)
    (hs0 : (s0 (ix2 r (0 : Fin 1)) : EReal) = slot0E xn y (row ri r))
    (hs0' : (s0' (ix2 r (0 : Fin 1)) : EReal) = slot0E xn y (row ri r))
    (hns : (ns (ix2 r (0 : Fin 1)) : EReal) = negPart xn y (row ri r) 4)
    (hcnt : (cnt (ix2 r (0 : Fin 1)) : EReal) = ((sameCount y (row ri r) : ℝ) : EReal)) :
    k0_pay3 s0 ns cnt s0' (ix2 r (0 : Fin 1)) = rowE xn y (row ri r) := by
  rw [pay3_apply, hs0, hs0', hns, hcnt, negPart_four, rowE]

end Cert.KernelIdeal.KPay

end
-- ==== Proof.RealLaws.lean ====
import Mathlib.Analysis.SpecialFunctions.Log.Basic
import Idealize.ShloMosaic.PureOps.Ideal.Laws
import proofs.«401202_j76493367542062_3_alg».proof.Proof.Spec
import proofs.«401202_j76493367542062_3_alg».proof.Proof.LibTileSum

noncomputable section

open scoped BigOperators

namespace Cert.CLCE.Math

open Idealize.ShloMosaic Finset

theorem quarter_eq : Cert.CLCE.quarter = ((0.25 : ℝ) : EReal) := by
  unfold Cert.CLCE.quarter; norm_num

-- The inclusion of the reals is additive, so it passes through a finite sum.
theorem coe_sum {ι : Type*} (s : Finset ι) (f : ι → ℝ) :
    ∑ c ∈ s, ((f c : ℝ) : EReal) = ((∑ c ∈ s, f c : ℝ) : EReal) := by
  classical
  exact s.induction_on (by simp) fun a s ha ih => by rw [sum_insert ha, sum_insert ha, ih, EReal.coe_add]

-- Shifting every entry by M divides the sum of exponentials by exp M, and the logarithm gives the M back.
theorem lse_shift_real {ι : Type*} [Fintype ι] (v : ι → ℝ) (M : ℝ) (i0 : ι) :
    -((v i0 - M) - Real.log (∑ c, Real.exp (v c - M))) = Real.log (∑ c, Real.exp (v c)) - v i0 := by
  have hS : 0 < ∑ c, Real.exp (v c) := sum_pos (fun c _ => Real.exp_pos _) ⟨i0, mem_univ _⟩
  have h : ∑ c, Real.exp (v c - M) = (∑ c, Real.exp (v c)) / Real.exp M := by
    rw [sum_div]; exact sum_congr rfl fun c _ => Real.exp_sub _ _
  rw [h, Real.log_div hS.ne' (Real.exp_ne_zero M), Real.log_exp]; ring

-- At finite entries every extended-real operation is the real one.
theorem lse_shift_ideal_coe {ι : Type*} [Fintype ι] (v : ι → ℝ) (M : ℝ) (i0 : ι) :
    -(((v i0 : EReal) - (M : EReal)) - Ideal.log (0 + ∑ c, Ideal.exp ((v c : EReal) - (M : EReal))))
      = ((Real.log (∑ c, Real.exp (v c)) - v i0 : ℝ) : EReal) := by
  have hpos : 0 < ∑ c, Real.exp (v c - M) := sum_pos (fun c _ => Real.exp_pos _) ⟨i0, mem_univ _⟩
  have hsum : (0 : EReal) + ∑ c, Ideal.exp ((v c : EReal) - (M : EReal)) = ((∑ c, Real.exp (v c - M) : ℝ) : EReal) := by
    rw [zero_add, ← coe_sum]
    exact sum_congr rfl fun c _ => by rw [← EReal.coe_sub, Ideal.exp_coe]
  rw [hsum, Ideal.log_coe, if_neg (not_le.mpr hpos), ← EReal.coe_sub, ← EReal.coe_sub, ← EReal.coe_neg, lse_shift_real]

-- An injective column map leaves each selected entry alone in its column; the other W - 1 - n columns hold empty sums.
theorem scattered_row {J A B : Type*} [Fintype J] [AddCommMonoid A] [AddCommMonoid B] (neg : J → Prop) [DecidablePred neg]
    (col : J → ℕ) (W n : ℕ) (hinj : Set.InjOn col {j | neg j}) (hcol : ∀ j, neg j → 1 ≤ col j ∧ col j < W)
    (hn : (univ.filter neg).card = n) (s : J → A) (g : A → B) :
    ∑ c ∈ Ico 1 W, g (∑ j ∈ univ.filter (fun j => neg j ∧ col j = c), s j)
      = ∑ j ∈ univ.filter neg, g (s j) + (W - 1 - n) • g 0 := by
  classical
  have hmem : ∀ j, j ∈ univ.filter neg ↔ neg j := fun j => by simp
  have hinj' : Set.InjOn col (univ.filter neg : Finset J) := fun a ha b hb =>
    hinj ((hmem a).mp (mem_coe.mp ha)) ((hmem b).mp (mem_coe.mp hb))
  have hsub : (univ.filter neg).image col ⊆ Ico 1 W := fun c hc => by
    obtain ⟨j, hj, rfl⟩ := mem_image.mp hc
    exact mem_Ico.mpr (hcol j ((hmem j).mp hj))
  have hempty : ∀ c ∈ Ico 1 W \ (univ.filter neg).image col,
      g (∑ j ∈ univ.filter (fun j => neg j ∧ col j = c), s j) = g 0 := fun c hc => by
    have h : univ.filter (fun j => neg j ∧ col j = c) = ∅ :=
      filter_eq_empty_iff.mpr fun j _ hj => (mem_sdiff.mp hc).2 (mem_image.mpr ⟨j, (hmem j).mpr hj.1, hj.2⟩)
    rw [h, sum_empty]
  have hhit : ∀ j ∈ univ.filter neg,
      g (∑ j' ∈ univ.filter (fun j' => neg j' ∧ col j' = col j), s j') = g (s j) := fun j hj => by
    have hjn := (hmem j).mp hj
    have h : univ.filter (fun j' => neg j' ∧ col j' = col j) = {j} := by
      ext j'
      simp only [mem_filter, mem_univ, true_and, mem_singleton]
      exact ⟨fun h => hinj h.1 hjn h.2, fun h => by subst h; exact ⟨hjn, rfl⟩⟩
    rw [h, sum_singleton]
  rw [← sum_sdiff hsub, sum_congr rfl hempty, sum_const, card_sdiff_of_subset hsub, Nat.card_Ico,
    card_image_of_injOn hinj', hn, sum_image hinj', sum_congr rfl hhit, add_comm]

theorem sim_eq (d : ℝ) : ((d + 1) * 0.5) * 0.5 = d * 0.25 + 0.25 := by ring

-- Entry 0 apart, the row is a scattered row of width 8191 whose empty columns each contribute exp 0 = 1.
theorem row_sum_real {J : Type*} [Fintype J] (neg : J → Prop) [DecidablePred neg] (col : J → ℕ)
    (hinj : Set.InjOn col {j | neg j}) (hcol : ∀ j, neg j → 1 ≤ col j ∧ col j < 8191) (cnt : ℕ)
    (hcnt : (univ.filter neg).card + cnt = 4096) (d : J → ℝ) (s0 : ℝ) (v : Fin 8191 → ℝ) (h0 : v 0 = s0)
    (hv : ∀ c : Fin 8191, 1 ≤ c.val →
      v c = ∑ j ∈ univ.filter (fun j => neg j ∧ col j = c.val), ((d j + 1) * 0.5) * 0.5) :
    ∑ c, Real.exp (v c)
      = Real.exp s0 + ∑ j ∈ univ.filter neg, Real.exp (d j * 0.25 + 0.25) + (4094 + (cnt : ℝ)) := by
  have hrest : ∑ c : Fin 8190, Real.exp (v c.succ)
      = ∑ c ∈ Ico 1 8191,
          Real.exp (∑ j ∈ univ.filter (fun j => neg j ∧ col j = c), ((d j + 1) * 0.5) * 0.5) := by
    rw [sum_Ico_eq_sum_range, ← Fin.sum_univ_eq_sum_range]
    refine sum_congr rfl fun c _ => ?_
    rw [hv c.succ (by simp), Fin.val_succ, Nat.add_comm]
  have hzeros : 8191 - 1 - (univ.filter neg).card = 4094 + cnt := by omega
  rw [Fin.sum_univ_succ, h0, hrest, scattered_row neg col 8191 _ hinj hcol rfl _ Real.exp, hzeros, Real.exp_zero,
    nsmul_one, add_assoc]
  congr 2
  · exact sum_congr rfl fun j _ => by rw [sim_eq]
  · push_cast; ring

def dotR (xr : Fin 4096 → Fin 1024 → ℝ) (i j : Fin 4096) : ℝ := ∑ k : Fin 1024, xr i k * xr j k

def slot0R (xr : Fin 4096 → Fin 1024 → ℝ) (y : Fin 4096 → BitVec 32) (i : Fin 4096) : ℝ :=
  if (posSet y i).Nonempty then (dotR xr i (firstPos y i) + 1) * 0.25 else 0

def negsumR (xr : Fin 4096 → Fin 1024 → ℝ) (y : Fin 4096 → BitVec 32) (i : Fin 4096) : ℝ :=
  ∑ j ∈ univ.filter (fun j : Fin 4096 => ¬ y i = y j), Real.exp (dotR xr i j * 0.25 + 0.25)

def rowR (xr : Fin 4096 → Fin 1024 → ℝ) (y : Fin 4096 → BitVec 32) (i : Fin 4096) : ℝ :=
  Real.log (Real.exp (slot0R xr y i) + negsumR xr y i + (4094 + (sameCount y i : ℝ))) - slot0R xr y i

section Finite
variable (xn : Fin 4096 → Fin 1024 → EReal) (xr : Fin 4096 → Fin 1024 → ℝ)
  (hx : ∀ i k, xn i k = ((xr i k : ℝ) : EReal)) (y : Fin 4096 → BitVec 32) (i : Fin 4096)

include hx in
theorem dotE_coe (j : Fin 4096) : dotE xn i j = ((dotR xr i j : ℝ) : EReal) := by
  unfold dotE dotR
  rw [← coe_sum]
  exact sum_congr rfl fun k _ => by rw [hx, hx, EReal.coe_mul]

include hx in
theorem slot0E_coe : slot0E xn y i = ((slot0R xr y i : ℝ) : EReal) := by
  unfold slot0E slot0R
  split_ifs
  · rw [dotE_coe xn xr hx, quarter_eq, ← EReal.coe_one, ← EReal.coe_add, ← EReal.coe_mul]
  · rw [EReal.coe_zero]

include hx in
theorem negsumE_coe : negsumE xn y i = ((negsumR xr y i : ℝ) : EReal) := by
  unfold negsumE negsumR
  rw [← coe_sum, sum_filter]
  refine sum_congr rfl fun j _ => ?_
  rw [ite_not, dotE_coe xn xr hx, quarter_eq, ← EReal.coe_mul, ← EReal.coe_add, Ideal.exp_coe]

include hx in
theorem rowE_coe : rowE xn y i = ((rowR xr y i : ℝ) : EReal) := by
  have hneg : 0 ≤ negsumR xr y i := sum_nonneg fun j _ => (Real.exp_pos _).le
  have hpos : 0 < Real.exp (slot0R xr y i) + negsumR xr y i + (4094 + (sameCount y i : ℝ)) := by
    linarith [Real.exp_pos (slot0R xr y i), (Nat.cast_nonneg _ : (0 : ℝ) ≤ (sameCount y i : ℝ))]
  unfold rowE rowR
  rw [slot0E_coe xn xr hx, negsumE_coe xn xr hx, Ideal.exp_coe, ← EReal.coe_add, ← EReal.coe_add, ← EReal.coe_add,
    Ideal.log_coe, if_neg (not_le.mpr hpos), ← EReal.coe_sub]

theorem card_neg_add_sameCount : (univ.filter fun j : Fin 4096 => ¬ y i = y j).card + sameCount y i = 4096 := by
  simp only [sameCount, eq_comm (a := y i)]
  rw [add_comm, card_filter_add_card_filter_not, card_univ, Fintype.card_fin]

-- Read the row in the reals, shift the log-sum-exp, and count the zero entries.
include hx in
theorem ref_row_eq_rowE (col : Fin 4096 → ℕ) (hinj : Set.InjOn col {j | ¬ y i = y j})
    (hcol : ∀ j, ¬ y i = y j → 1 ≤ col j ∧ col j < 8191) (LT : Fin 8191 → EReal) (M : ℝ)
    (h0 : LT 0 = slot0E xn y i)
    (hLT : ∀ c : Fin 8191, 1 ≤ c.val →
      LT c = ∑ j ∈ univ.filter (fun j : Fin 4096 => ¬ y i = y j ∧ col j = c.val),
        ((dotE xn i j + 1) * ((0.5 : ℝ) : EReal)) * ((0.5 : ℝ) : EReal)) :
    -((LT 0 - (M : EReal)) - Ideal.log (0 + ∑ c, Ideal.exp (LT c - (M : EReal)))) = rowE xn y i := by
  let v : Fin 8191 → ℝ := fun c =>
    if c = 0 then slot0R xr y i
    else ∑ j ∈ univ.filter (fun j : Fin 4096 => ¬ y i = y j ∧ col j = c.val), ((dotR xr i j + 1) * 0.5) * 0.5
  have hv0 : v 0 = slot0R xr y i := if_pos rfl
  have hvc : ∀ c : Fin 8191, 1 ≤ c.val →
      v c = ∑ j ∈ univ.filter (fun j : Fin 4096 => ¬ y i = y j ∧ col j = c.val), ((dotR xr i j + 1) * 0.5) * 0.5 :=
    fun c hc => if_neg fun h => by rw [h] at hc; exact absurd hc (by decide)
  have hLTv : ∀ c, LT c = ((v c : ℝ) : EReal) := by
    intro c
    by_cases hc : c = 0
    · rw [hc, h0, hv0, slot0E_coe xn xr hx]
    · have hc1 : 1 ≤ c.val := Nat.one_le_iff_ne_zero.mpr fun h => hc (Fin.ext h)
      rw [hLT c hc1, hvc c hc1, ← coe_sum]
      refine sum_congr rfl fun j _ => ?_
      rw [dotE_coe xn xr hx, ← EReal.coe_one, ← EReal.coe_add, ← EReal.coe_mul, ← EReal.coe_mul]
  simp only [hLTv]
  rw [lse_shift_ideal_coe v M 0, rowE_coe xn xr hx,
    row_sum_real (fun j => ¬ y i = y j) col hinj hcol (sameCount y i) (card_neg_add_sameCount y i)
      (fun j => dotR xr i j) (slot0R xr y i) v hv0 hvc]
  unfold rowR negsumR
  rw [hv0]

end Finite

end Cert.CLCE.Math

end
-- ==== Proof.KFinal.lean ====
import proofs.«401202_j76493367542062_3_alg».proof.Proof.KBody
import proofs.«401202_j76493367542062_3_alg».proof.Proof.KPayload
import proofs.«401202_j76493367542062_3_alg».proof.Proof.Spec
import proofs.«401202_j76493367542062_3_alg».proof.Proof.RealLaws
import Idealize.ShloMosaic.Lib.Pipeline.Value
import Idealize.ShloMosaic.Lib.ValueIdx

set_option maxRecDepth 16384

noncomputable section

open scoped BigOperators

namespace Cert.KernelIdeal.KFin

open Cert.KernelIdeal Cert.KernelIdeal.Gen Cert.CLCE Cert.KernelIdeal.KPay
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))
  (q : Fin cfg0.W → PosShare TreeShare) (c : Dev nD)
  (xn : Fin 4096 → Fin 1024 → EReal) (y : Fin 4096 → BitVec 32)

abbrev arrYc : Vec Ideal S4096x1 .i32 := V c main_v5

abbrev arrYr : Vec Ideal S1x4096 .i32 := V c main_v6

abbrev arrX : Vec Ideal S4096x1024 .bf16 := V c main_v4

abbrev arrCnt : Vec Ideal S4096x1 .f32 := V c main_v82

abbrev arrS0 : Vec Ideal S4096x1 .f32 := V c main_v81

structure Arrays : Prop where
  hy5 : ∀ i : Fin 4096, (arrYc V c (ix2 i (0 : Fin 1)) : BitVec 32) = y i
  hy6 : ∀ j : Fin 4096, (arrYr V c (ix2 (0 : Fin 1) j) : BitVec 32) = y j
  hx : ∀ (i : Fin 4096) (k : Fin 1024), (arrX V c (ix2 i k) : EReal) = xn i k
  hc : ∀ i : Fin 4096, (arrCnt V c (ix2 i (0 : Fin 1)) : EReal) = ((sameCount y i : ℝ) : EReal)
  hs : ∀ i : Fin 4096, (arrS0 V c (ix2 i (0 : Fin 1)) : EReal) = slot0E xn y i

def G : Vec Ideal S4096x1 .f32 := fun j => rowE xn y ⟨(j 0).val, (j 0).isLt⟩

def ri (t : Fin cfg0.N) : Fin 4 := ⟨t.val / 4, by have h : t.val < 16 := lt_of_lt_of_eq t.isLt Body.N_0; omega⟩

def ci (t : Fin cfg0.N) : Fin 4 := ⟨t.val % 4, by omega⟩

theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

abbrev bYc (t : Fin cfg0.N) : Vec Ideal S1024x1 .i32 := Body.iblk V c 0 t
abbrev bYr (t : Fin cfg0.N) : Vec Ideal S1x1024 .i32 := Body.iblk V c 1 t
abbrev bXr (t : Fin cfg0.N) : Vec Ideal S1024x1024 .bf16 := Body.iblk V c 2 t
abbrev bXc (t : Fin cfg0.N) : Vec Ideal S1024x1024 .bf16 := Body.iblk V c 3 t
abbrev bCnt (t : Fin cfg0.N) : Vec Ideal S1024x1 .f32 := Body.iblk V c 4 t
abbrev bS0 (t : Fin cfg0.N) : Vec Ideal S1024x1 .f32 := Body.iblk V c 5 t

variable {V c xn y}

theorem bYc_apply (H : Arrays V c xn y) (t : Fin cfg0.N) (r : Fin 1024) :
    (bYc V c t (ix2 r (0 : Fin 1)) : BitVec 32) = y (row (ri t) r) := by
  have e := idx_facts t
  rw [← H.hy5 (row (ri t) r)]
  show V c main_v5 (((cfg0.win 0).blk t).view.emb (ix2 r (0 : Fin 1))) = V c main_v5 (ix2 (row (ri t) r) (0 : Fin 1))
  refine congrArg (V c main_v5) (funext fun a => Fin.ext ?_)
  match a with
  | ⟨0, _⟩ => show win0_0.index t (0 : Fin 2) * 1024 + 1 * r.val = t.val / 4 * 1024 + r.val; omega
  | ⟨1, _⟩ => show win0_0.index t (1 : Fin 2) * 1 + 1 * 0 = 0; omega

theorem bYr_apply (H : Arrays V c xn y) (t : Fin cfg0.N) (p : Fin 1024) :
    (bYr V c t (ix2 (0 : Fin 1) p) : BitVec 32) = y (row (ci t) p) := by
  have e := idx_facts t
  rw [← H.hy6 (row (ci t) p)]
  show V c main_v6 (((cfg0.win 1).blk t).view.emb (ix2 (0 : Fin 1) p)) = V c main_v6 (ix2 (0 : Fin 1) (row (ci t) p))
  refine congrArg (V c main_v6) (funext fun a => Fin.ext ?_)
  match a with
  | ⟨0, _⟩ => show win0_1.index t (0 : Fin 2) * 1 + 1 * 0 = 0; omega
  | ⟨1, _⟩ => show win0_1.index t (1 : Fin 2) * 1024 + 1 * p.val = t.val % 4 * 1024 + p.val; omega

theorem bXr_apply (H : Arrays V c xn y) (t : Fin cfg0.N) (r k : Fin 1024) :
    (bXr V c t (ix2 r k) : EReal) = xn (row (ri t) r) k := by
  have e := idx_facts t
  rw [← H.hx (row (ri t) r) k]
  show V c main_v4 (((cfg0.win 2).blk t).view.emb (ix2 r k)) = V c main_v4 (ix2 (row (ri t) r) k)
  refine congrArg (V c main_v4) (funext fun a => Fin.ext ?_)
  match a with
  | ⟨0, _⟩ => show win0_2.index t (0 : Fin 2) * 1024 + 1 * r.val = t.val / 4 * 1024 + r.val; omega
  | ⟨1, _⟩ => show win0_2.index t (1 : Fin 2) * 1024 + 1 * k.val = k.val; omega

theorem bXc_apply (H : Arrays V c xn y) (t : Fin cfg0.N) (p k : Fin 1024) :
    (bXc V c t (ix2 p k) : EReal) = xn (row (ci t) p) k := by
  have e := idx_facts t
  rw [← H.hx (row (ci t) p) k]
  show V c main_v4 (((cfg0.win 3).blk t).view.emb (ix2 p k)) = V c main_v4 (ix2 (row (ci t) p) k)
  refine congrArg (V c main_v4) (funext fun a => Fin.ext ?_)
  match a with
  | ⟨0, _⟩ => show win0_3.index t (0 : Fin 2) * 1024 + 1 * p.val = t.val % 4 * 1024 + p.val; omega
  | ⟨1, _⟩ => show win0_3.index t (1 : Fin 2) * 1024 + 1 * k.val = k.val; omega

theorem bCnt_apply (H : Arrays V c xn y) (t : Fin cfg0.N) (r : Fin 1024) :
    (bCnt V c t (ix2 r (0 : Fin 1)) : EReal) = ((sameCount y (row (ri t) r) : ℝ) : EReal) := by
  have e := idx_facts t
  rw [← H.hc (row (ri t) r)]
  show V c main_v82 (((cfg0.win 4).blk t).view.emb (ix2 r (0 : Fin 1))) = V c main_v82 (ix2 (row (ri t) r) (0 : Fin 1))
  refine congrArg (V c main_v82) (funext fun a => Fin.ext ?_)
  match a with
  | ⟨0, _⟩ => show win0_4.index t (0 : Fin 2) * 1024 + 1 * r.val = t.val / 4 * 1024 + r.val; omega
  | ⟨1, _⟩ => show win0_4.index t (1 : Fin 2) * 1 + 1 * 0 = 0; omega

theorem bS0_apply (H : Arrays V c xn y) (t : Fin cfg0.N) (r : Fin 1024) :
    (bS0 V c t (ix2 r (0 : Fin 1)) : EReal) = slot0E xn y (row (ri t) r) := by
  have e := idx_facts t
  rw [← H.hs (row (ri t) r)]
  show V c main_v81 (((cfg0.win 5).blk t).view.emb (ix2 r (0 : Fin 1))) = V c main_v81 (ix2 (row (ri t) r) (0 : Fin 1))
  refine congrArg (V c main_v81) (funext fun a => Fin.ext ?_)
  match a with
  | ⟨0, _⟩ => show win0_5.index t (0 : Fin 2) * 1024 + 1 * r.val = t.val / 4 * 1024 + r.val; omega
  | ⟨1, _⟩ => show win0_5.index t (1 : Fin 2) * 1 + 1 * 0 = 0; omega

theorem scr_apply (H : Arrays V c xn y) : ∀ (n : ℕ) (hn : n < cfg0.N) (r : Fin 1024),
    (Body.scrAt V c n hn (ix2 r (0 : Fin 1)) : EReal) = negPart xn y (row (ri ⟨n, hn⟩) r) (n % 4 + 1) := by
  intro n
  induction n with
  | zero =>
    intro hn r
    refine (congrFun (Body.scrAt_A V c ⟨0, hn⟩ rfl) (ix2 r (0 : Fin 1))).trans ?_
    exact pay2_block xn y (ri ⟨0, hn⟩) (ci ⟨0, hn⟩) (bXr V c ⟨0, hn⟩) (bXc V c ⟨0, hn⟩) (bYc V c ⟨0, hn⟩) (bYr V c ⟨0, hn⟩)
      (k0_pay1 (F := Ideal)) (bXr_apply H ⟨0, hn⟩) (bXc_apply H ⟨0, hn⟩) (bYc_apply H ⟨0, hn⟩) (bYr_apply H ⟨0, hn⟩) r
      ((pay1_apply r).trans (negPart_zero xn y (row (ri ⟨0, hn⟩) r)).symm)
  | succ n ih =>
    intro hn r
    have hn' : n < cfg0.N := Nat.lt_of_succ_lt hn
    by_cases h0 : (n + 1) % 4 = 0
    ·
      refine (congrFun (Body.scrAt_A V c ⟨n + 1, hn⟩ h0) (ix2 r (0 : Fin 1))).trans ?_
      have hci : (ci ⟨n + 1, hn⟩).val = 0 := h0
      exact pay2_block xn y (ri ⟨n + 1, hn⟩) (ci ⟨n + 1, hn⟩) (bXr V c ⟨n + 1, hn⟩) (bXc V c ⟨n + 1, hn⟩) (bYc V c ⟨n + 1, hn⟩)
        (bYr V c ⟨n + 1, hn⟩) (k0_pay1 (F := Ideal)) (bXr_apply H ⟨n + 1, hn⟩) (bXc_apply H ⟨n + 1, hn⟩) (bYc_apply H ⟨n + 1, hn⟩)
        (bYr_apply H ⟨n + 1, hn⟩) r
        ((pay1_apply r).trans (by rw [hci]; exact (negPart_zero xn y (row (ri ⟨n + 1, hn⟩) r)).symm))
    ·
      refine (congrFun (Body.scrAt_BC V c ⟨n + 1, hn⟩ h0) (ix2 r (0 : Fin 1))).trans ?_
      have hri : ri ⟨n + 1, hn⟩ = ri ⟨n, hn'⟩ := Fin.ext (by show (n + 1) / 4 = n / 4; omega)
      have hci : (ci ⟨n + 1, hn⟩).val = n % 4 + 1 := by show (n + 1) % 4 = n % 4 + 1; omega
      exact pay2_block xn y (ri ⟨n + 1, hn⟩) (ci ⟨n + 1, hn⟩) (bXr V c ⟨n + 1, hn⟩) (bXc V c ⟨n + 1, hn⟩) (bYc V c ⟨n + 1, hn⟩)
        (bYr V c ⟨n + 1, hn⟩) (Body.scrAt V c n hn') (bXr_apply H ⟨n + 1, hn⟩) (bXc_apply H ⟨n + 1, hn⟩) (bYc_apply H ⟨n + 1, hn⟩)
        (bYr_apply H ⟨n + 1, hn⟩) r
        (by rw [hri, hci]; exact ih hn' r)

theorem out_apply (H : Arrays V c xn y) (t : Fin cfg0.N) (h3 : t.val % 4 = 3) (r : Fin 1024) :
    (Body.outAt V c t (ix2 r (0 : Fin 1)) : EReal) = rowE xn y (row (ri t) r) := by
  have hns : (Body.scrAt V c t.val t.isLt (ix2 r (0 : Fin 1)) : EReal) = negPart xn y (row (ri t) r) 4 := by
    have h := scr_apply H t.val t.isLt r
    rw [h3] at h
    exact h
  exact pay3_block xn y (ri t) (bS0 V c t) (Body.scrAt V c t.val t.isLt) (bCnt V c t) (bS0 V c t) r
    (bS0_apply H t r) (bS0_apply H t r) hns (bCnt_apply H t r)

theorem flushed_eq (H : Arrays V c xn y) (t : Fin cfg0.N) (hf : (cfg0.win 6).flush t = true) :
    (Body.dats V q c).flushed 6 t = ((cfg0.win 6).blk t).view.read (Elt Ideal) (G xn y) := by
  have h3 : t.val % 4 = 3 := (flush0_6 t).mp hf
  have e := idx_facts t
  show (cfg0.win 6).cut (grid0.coords t) ((Body.dats V q c).after 6 t) = _
  rw [Body.after6]
  funext j
  obtain ⟨r, z, rfl⟩ : ∃ (r : Fin 1024) (z : Fin 1), j = ix2 r z := ⟨j 0, j 1, eq_ix2 j⟩
  obtain rfl : z = 0 := Subsingleton.elim _ _
  show Body.outAt V c t (ix2 r (0 : Fin 1)) = G xn y (((cfg0.win 6).blk t).view.emb (ix2 r (0 : Fin 1)))
  rw [out_apply H t h3 r]
  show rowE xn y (row (ri t) r) = rowE xn y _
  refine congrArg (rowE xn y) (Fin.ext ?_)
  show t.val / 4 * 1024 + r.val = win0_6.index t (0 : Fin 2) * 1024 + 1 * r.val
  omega

theorem mem_blk (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v83).slice (win0_6.rect t)).set ↔ _
  rw [View.set_slice_whole, Rect.mem_set_unit]
  exact Iff.rfl

theorem cover (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have ht : 4 * ((i 0).val / 1024) + 3 < cfg0.N := by rw [Body.N_0]; omega
  obtain ⟨e00, e01, e10, e11, e20, e21, e30, e31, e40, e41, e50, e51, e60, e61⟩ := idx_facts ⟨4 * ((i 0).val / 1024) + 3, ht⟩
  refine ⟨⟨4 * ((i 0).val / 1024) + 3, ht⟩, (flush0_6 _).mpr (by show (4 * ((i 0).val / 1024) + 3) % 4 = 3; omega), ?_⟩
  rw [mem_blk]
  intro a
  match a with
  | ⟨0, _⟩ =>
    show win0_6.index ⟨4 * ((i 0).val / 1024) + 3, ht⟩ (0 : Fin 2) * 1024 ≤ (i 0).val
      ∧ (i 0).val < win0_6.index ⟨4 * ((i 0).val / 1024) + 3, ht⟩ (0 : Fin 2) * 1024 + 1024
    rw [e60]
    show (4 * ((i 0).val / 1024) + 3) / 4 * 1024 ≤ (i 0).val ∧ (i 0).val < (4 * ((i 0).val / 1024) + 3) / 4 * 1024 + 1024
    omega
  | ⟨1, _⟩ =>
    show win0_6.index ⟨4 * ((i 0).val / 1024) + 3, ht⟩ (1 : Fin 2) * 1 ≤ (i 1).val
      ∧ (i 1).val < win0_6.index ⟨4 * ((i 0).val / 1024) + 3, ht⟩ (1 : Fin 2) * 1 + 1
    rw [e61]
    omega

theorem final (H : Arrays V c xn y) : (Body.dats V q c).arrAt 6 cfg0.N = G xn y :=
  (Body.dats V q c).arrAt_eq_of_cover 6 (G xn y) (fun t hf => flushed_eq q H t hf) cover

theorem final_apply (H : Arrays V c xn y) (i : Fin 4096) :
    ((Body.dats V q c).arrAt 6 cfg0.N : Vec Ideal S4096x1 .f32) (ix2 i (0 : Fin 1)) = rowE xn y i := by
  rw [final q H]; rfl

end Cert.KernelIdeal.KFin

end
-- ==== Proof.KRunPieces.lean ====
import proofs.«401202_j76493367542062_3_alg».proof.Proof.KBody
import proofs.«401202_j76493367542062_3_alg».proof.Proof.KLaunchIdeal

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))
  (q : Fin cfg0.W → PosShare TreeShare)

theorem hin (c : Dev nD) : (iprop(emp ∗ Pipeline.scopedRest spec0 c) : sProp 𝕄) ⊢ (Body.dats V q c).Φ 0 := by
  rw [Body.Phi_zero, scopedRest0_eq]
  simp only [Body.scM, owns_whole]
  iintro ⟨-, H⟩
  iexact H

theorem hout (c : Dev nD) : (Body.dats V q c).Φ (Fin.last cfg0.N) ⊢ (iprop(emp ∗ Pipeline.scopedRest spec0 c) : sProp 𝕄) := by
  rw [Body.Phi_last, scopedRest0_eq]
  simp only [Body.scM, owns_whole]
  iintro H
  isplitr
  · iempintro
  iexists _; iexact H

end Cert.KernelIdeal.Run

end
-- ==== Proof.KSplit.lean ====
import proofs.«401202_j76493367542062_3_alg».proof.Proof.KBody
import Idealize.ShloMosaic.Lib.Pipeline.Kit

set_option maxRecDepth 16384

noncomputable section

namespace Cert.KernelIdeal.Run

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

def q : Fin cfg0.W → PosShare TreeShare :=
  fun w => if w = 2 then fullShare.left else if w = 3 then fullShare.right else fullShare

theorem arr_whole (w : Fin 7) : (spec0 w).arr.IsWhole := by fin_cases w <;> exact Memref.isWhole_whole _

theorem arrays_eq (c : Dev nD)
    (Fw : (w : Fin cfg0.W) → Buf (Elt F) ((cfg0.win w).arr.view.loc (c.tc : Thread nD τ))) :
    ((Body.dats V q c).arrays Fw : sProp 𝕄)
      = bigSep Finset.univ fun w : Fin 7 =>
          ((c.tc : Thread nD τ).loc (Pipeline.arrRef spec0 w) ↦{(Body.dats V q c).share w} Fw w : sProp 𝕄) := by
  unfold Pipeline.Dat.arrays
  exact bigSep_congr fun w _ => by rw [(arr_whole w).set_eq_univ]

theorem v4_halves (c : Dev nD) (f : Buf (Elt F) ((c.tc : Thread nD τ).loc main_v4)) :
    ((c.tc : Thread nD τ).loc main_v4 ↦{fullShare} f : sProp 𝕄)
      ⊣⊢ iprop(((c.tc : Thread nD τ).loc main_v4 ↦{fullShare.left} f) ∗ ((c.tc : Thread nD τ).loc main_v4 ↦{fullShare.right} f)) :=
  pointsTo_share (PosShare.mem_left_op_right fullShare)

theorem hsplit (c : Dev nD) :
    (Pipeline.arrBufs spec0 c (V c) : sProp 𝕄) ⊢ (Body.dats V q c).arrays ((Body.dats V q c).arrAt · 0) := by
  rw [arrays_eq]
  unfold Pipeline.arrBufs
  rw [bigSep_eq_bigSepL_of_eq [main_v5, main_v6, main_v4, main_v82, main_v81, main_v83] (by decide) (by decide),
    bigSep_univ_eq_bigSepL [(0 : Fin 7), 1, 2, 3, 4, 5, 6] (by decide) (by decide)]
  show iprop(_ ∗ _ ∗ _ ∗ _ ∗ _ ∗ ((c.tc : Thread nD τ).loc main_v83 ↦{fullShare} V c main_v83))
    ⊢ (iprop(((c.tc : Thread nD τ).loc main_v5 ↦{fullShare} V c main_v5) ∗ ((c.tc : Thread nD τ).loc main_v6 ↦{fullShare} V c main_v6)
      ∗ ((c.tc : Thread nD τ).loc main_v4 ↦{fullShare.left} V c main_v4) ∗ ((c.tc : Thread nD τ).loc main_v4 ↦{fullShare.right} V c main_v4)
      ∗ ((c.tc : Thread nD τ).loc main_v82 ↦{fullShare} V c main_v82) ∗ ((c.tc : Thread nD τ).loc main_v81 ↦{fullShare} V c main_v81)
      ∗ ((c.tc : Thread nD τ).loc main_v83 ↦{fullShare} V c main_v83)) : sProp 𝕄)
  have hs := (v4_halves c (V c main_v4)).1
  iintro ⟨H5, H6, H4, H82, H81, H83⟩
  ihave H4' := hs $$ H4
  icases H4' with ⟨H4l, H4r⟩
  iframe H5 H6 H4l H4r H82 H81 H83

end Cert.KernelIdeal.Run

end
-- ==== Proof.KRunKeeps.lean ====
import proofs.«401202_j76493367542062_3_alg».proof.Proof.KLaunchIdeal

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

def Keeps (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes

local macro "keeps_list" : tactic => `(tactic|
  (simp only [List.Forall, Keeps]
   (repeat' constructor) <;>
     (simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.mem_singleton]
      exact StableHlo.devRef_ne_of_ne (by decide))))

theorem keeps_hostOps0 : (hostOps0 : List (HloOp τ sig (Elt F))).Forall Keeps := by keeps_list
theorem keeps_hostOps0_1 : (hostOps0_1 : List (HloOp τ sig (Elt F))).Forall Keeps := by keeps_list
theorem keeps_hostOps0_2 : (hostOps0_2 : List (HloOp τ sig (Elt F))).Forall Keeps := by keeps_list
theorem keeps_hostOps0_3 : (hostOps0_3 : List (HloOp τ sig (Elt F))).Forall Keeps := by keeps_list
theorem keeps_hostOps0_4 : (hostOps0_4 : List (HloOp τ sig (Elt F))).Forall Keeps := by keeps_list
theorem keeps_hostOps0_5 : (hostOps0_5 : List (HloOp τ sig (Elt F))).Forall Keeps := by keeps_list
theorem keeps_hostOps0_6 : (hostOps0_6 : List (HloOp τ sig (Elt F))).Forall Keeps := by keeps_list
theorem keeps_hostOps0_7 : (hostOps0_7 : List (HloOp τ sig (Elt F))).Forall Keeps := by keeps_list
theorem keeps_hostOps0_8 : (hostOps0_8 : List (HloOp τ sig (Elt F))).Forall Keeps := by keeps_list
theorem keeps_hostOps0_9 : (hostOps0_9 : List (HloOp τ sig (Elt F))).Forall Keeps := by keeps_list
theorem keeps_hostOps0_10 : (hostOps0_10 : List (HloOp τ sig (Elt F))).Forall Keeps := by keeps_list
theorem keeps_hostOps0_11 : (hostOps0_11 : List (HloOp τ sig (Elt F))).Forall Keeps := by keeps_list
theorem keeps_hostOps0_12 : (hostOps0_12 : List (HloOp τ sig (Elt F))).Forall Keeps := by keeps_list
theorem keeps_hostOps0_13 : (hostOps0_13 : List (HloOp τ sig (Elt F))).Forall Keeps := by keeps_list

theorem flatten_keeps {Ls : List (List (HloOp τ sig (Elt F)))} (h : ∀ l ∈ Ls, l.Forall Keeps) :
    ∀ op ∈ List.flatten Ls, Keeps op := by
  intro op hop
  obtain ⟨l, hl, hopl⟩ := List.mem_flatten.mp hop
  exact List.forall_iff_forall_mem.mp (h l hl) op hopl

theorem pre_all : ∀ op ∈ List.flatten (pre (F := F)), Keeps op :=
  flatten_keeps fun l hl => by
    simp only [pre, List.mem_cons, List.mem_nil_iff, or_false] at hl
    rcases hl with rfl | rfl | rfl | rfl | rfl | rfl | rfl | rfl | rfl | rfl | rfl | rfl | rfl | rfl
    exacts [keeps_hostOps0, keeps_hostOps0_1, keeps_hostOps0_2, keeps_hostOps0_3, keeps_hostOps0_4, keeps_hostOps0_5, keeps_hostOps0_6, keeps_hostOps0_7, keeps_hostOps0_8, keeps_hostOps0_9, keeps_hostOps0_10, keeps_hostOps0_11, keeps_hostOps0_12, keeps_hostOps0_13]

theorem pre_keeps_arg0 (W : Valuation τ sig (Elt F)) :
    StableHlo.after (List.flatten pre) W (Proc.devRef .tc main_arg0) = W (Proc.devRef .tc main_arg0) :=
  StableHlo.after_of_forall_not_mem _ W fun op hop => (pre_all op hop).1

theorem pre_keeps_arg1 (W : Valuation τ sig (Elt F)) :
    StableHlo.after (List.flatten pre) W (Proc.devRef .tc main_arg1) = W (Proc.devRef .tc main_arg1) :=
  StableHlo.after_of_forall_not_mem _ W fun op hop => (pre_all op hop).2.1

theorem pre_keeps_arg2 (W : Valuation τ sig (Elt F)) :
    StableHlo.after (List.flatten pre) W (Proc.devRef .tc main_arg2) = W (Proc.devRef .tc main_arg2) :=
  StableHlo.after_of_forall_not_mem _ W fun op hop => (pre_all op hop).2.2

end Cert.KernelIdeal.Run

end
-- ==== Proof.KTail.lean ====
import proofs.«401202_j76493367542062_3_alg».proof.Proof.KLaunchIdeal
import Idealize.ShloMosaic.Lib.Pipeline.FrameSuffix

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

abbrev tailOpss : List (List (HloOp τ sig (Elt F))) := [hostOps1, hostOps1_1, hostOps1_2, hostOps1_3, hostOps1_4]

abbrev restR : Finset (Ref sig .tc) := Pipeline.restRefs sig spec0

def tailS : Finset (DevRef τ sig) :=
  (insert main_v83 restR).map ⟨Proc.devRef (sig := sig) .tc, Proc.devRef_injective _⟩

theorem v83_not_rest : main_v83 ∉ (restR : Finset (Ref sig .tc)) := by
  decide

section

variable (V0 : Valuation τ sig (Elt F)) (a6 : (Proc.devRef (τ := τ) .tc main_v83).ty.Contents (Elt F))

def exitVal :
    Valuation τ sig (Elt F) :=
  Function.update V0 (Proc.devRef .tc main_v83) a6

theorem exitVal_out :
    exitVal V0 a6 (Proc.devRef .tc main_v83) = a6 := by
  unfold exitVal; exact Function.update_self _ _ _

theorem exitVal_of_ne (b : Ref sig .tc) (h : b ≠ main_v83) : exitVal V0 a6 (Proc.devRef .tc b) = V0 (Proc.devRef .tc b) := by
  unfold exitVal; exact Function.update_of_ne (StableHlo.devRef_ne_of_ne h) _ _

theorem rest_exitVal (c : Dev nD) :
    (Pipeline.unscopedRest spec0 c (fun b => exitVal V0 a6 (Proc.devRef .tc b)) : sProp 𝕄)
      = Pipeline.unscopedRest spec0 c (fun b => V0 (Proc.devRef .tc b)) := by
  unfold Pipeline.unscopedRest
  exact bigSep_congr fun b hb => by
    dsimp only
    rw [exitVal_of_ne V0 a6 b fun e => v83_not_rest (e ▸ hb)]

end

variable (𝒱₀ : Variants) (V0 : Dev nD → Valuation τ sig (Elt F))
  (dat : (c : Dev nD) → Dat τ (Elt F) Unit ℕ (UR sig nD τ) ℕ cfg0 c) (c : Dev nD)

def tailAfter : Valuation τ sig (Elt F) :=
  StableHlo.after (tailOpss (F := F)).flatten (exitVal (V0 c) ((dat c).arrAt 6 cfg0.N))

def tailZ' : sProp 𝕄 :=
  Pipeline.unscopedRest spec0 c (fun b => tailAfter V0 dat c (Proc.devRef .tc b))

theorem share_out :
    (dat c).share 6 = fullShare := by
  unfold Dat.share
  exact if_pos rfl

def arraysBut (A : (w : Fin cfg0.W) → Buf (Elt F) ((cfg0.win w).arr.view.loc (c.tc : Thread nD τ))) : sProp 𝕄 :=
  bigSep (Finset.univ.erase (6 : Fin cfg0.W)) fun w : Fin cfg0.W =>
    ((cfg0.win w).arr.view.loc (c.tc : Thread nD τ) ↦[(cfg0.win w).arr.view.set]{(dat c).share w} A w)

theorem arrays_split_out (A : (w : Fin cfg0.W) → Buf (Elt F) ((cfg0.win w).arr.view.loc (c.tc : Thread nD τ))) :
    ((dat c).arrays A : sProp 𝕄)
      = iprop((((c.tc : Thread nD τ).loc main_v83) ↦{fullShare} A 6) ∗ arraysBut dat c A) := by
  have hset : (cfg0.win 6).arr.view.set = Finset.univ := (arr_whole0 6).set_eq_univ
  have h6 : (((cfg0.win 6).arr.view.loc (c.tc : Thread nD τ) ↦[(cfg0.win 6).arr.view.set]{(dat c).share 6} A 6) : sProp 𝕄)
      = (((c.tc : Thread nD τ).loc main_v83) ↦{fullShare} A 6) := by
    rw [hset, share_out dat c]
  unfold Dat.arrays arraysBut
  refine (bigSep_univ_split (6 : Fin cfg0.W)).trans ?_
  exact congrArg (fun P : sProp 𝕄 => BIBase.sep P _) h6

theorem held_tailS (W : Valuation τ sig (Elt F)) :
    (StableHlo.held (c.tc : Thread nD τ) tailS W : sProp 𝕄)
      = iprop((((c.tc : Thread nD τ).loc main_v83) ↦{fullShare} W (Proc.devRef .tc main_v83))
          ∗ Pipeline.unscopedRest spec0 c (fun b => W (Proc.devRef .tc b))) := by
  unfold StableHlo.held tailS Pipeline.unscopedRest
  rw [bigSep_map, bigSep_insert v83_not_rest]
  rfl

-- The lines after the kernel touch only the result array and the buffers outside the seven arrays.
theorem mem_tailS {r : Ref sig .tc} (h : r ∈ insert main_v83 (restR : Finset (Ref sig .tc))) : Proc.devRef (τ := τ) .tc r ∈ tailS :=
  Finset.mem_map_of_mem _ h

def TailOk (op : HloOp τ sig (Elt F)) : Prop :=
  op.bufs ⊆ tailS
    ∧ (∀ r ∈ ([main_v83, main_arg0, main_arg1, main_arg2] : List (Ref sig .tc)), Proc.devRef .tc r ∉ op.writes)
    ∧ op.fresh = ∅

local macro "tail_bufs" : tactic => `(tactic|
  (simp only [StableHlo.nullary_bufs, StableHlo.unary_bufs, StableHlo.binary_bufs, StableHlo.ternary_bufs,
     StableHlo.reshape_bufs, Finset.insert_subset_iff, Finset.singleton_subset_iff]
   and_intros <;> exact mem_tailS (by decide)))

local macro "tail_writes" : tactic => `(tactic|
  (simp only [StableHlo.nullary_writes, StableHlo.unary_writes, StableHlo.binary_writes, StableHlo.ternary_writes,
     StableHlo.reshape_writes, Finset.mem_singleton, (Proc.devRef_injective _).eq_iff]
   decide))

theorem tailOk_hostOps1 : (hostOps1 : List (HloOp τ sig (Elt F))).Forall TailOk := by
  simp only [List.Forall, TailOk]; and_intros <;> first | tail_bufs | tail_writes | rfl

theorem tailOk_hostOps1_1 : (hostOps1_1 : List (HloOp τ sig (Elt F))).Forall TailOk := by
  simp only [List.Forall, TailOk]; and_intros <;> first | tail_bufs | tail_writes | rfl

theorem tailOk_hostOps1_2 : (hostOps1_2 : List (HloOp τ sig (Elt F))).Forall TailOk := by
  simp only [List.Forall, TailOk]; and_intros <;> first | tail_bufs | tail_writes | rfl

theorem tailOk_hostOps1_3 : (hostOps1_3 : List (HloOp τ sig (Elt F))).Forall TailOk := by
  simp only [List.Forall, TailOk]; and_intros <;> first | tail_bufs | tail_writes | rfl

theorem tailOk_hostOps1_4 : (hostOps1_4 : List (HloOp τ sig (Elt F))).Forall TailOk := by
  simp only [List.Forall, TailOk]; and_intros <;> first | tail_bufs | tail_writes | rfl

theorem tail_all : ∀ ops ∈ (tailOpss (F := F)), ∀ op ∈ ops, TailOk op := by
  intro ops hops
  simp only [tailOpss, List.mem_cons, List.mem_nil_iff, or_false] at hops
  rcases hops with rfl | rfl | rfl | rfl | rfl
  exacts [List.forall_iff_forall_mem.mp tailOk_hostOps1, List.forall_iff_forall_mem.mp tailOk_hostOps1_1,
    List.forall_iff_forall_mem.mp tailOk_hostOps1_2, List.forall_iff_forall_mem.mp tailOk_hostOps1_3,
    List.forall_iff_forall_mem.mp tailOk_hostOps1_4]

-- No line after the kernel writes the result array or the three arguments, so they keep their exit contents.
theorem tailAfter_keep (r : Ref sig .tc)
    (hr : r ∈ ([main_v83, main_arg0, main_arg1, main_arg2] : List (Ref sig .tc))) :
    tailAfter V0 dat c (Proc.devRef .tc r) = exitVal (V0 c) ((dat c).arrAt 6 cfg0.N) (Proc.devRef .tc r) := by
  unfold tailAfter
  refine StableHlo.after_of_forall_not_mem _ _ fun op hop => ?_
  obtain ⟨ops, hops, hop⟩ := List.mem_flatten.mp hop
  exact (tail_all ops hops op hop).2.1 r hr

set_option backward.isDefEq.respectTransparency.types false in
theorem htail (Q' : PUnit → sProp 𝕄) :
    iprop((iprop((dat c).arrays ((dat c).arrAt · cfg0.N) ∗ tailZ' V0 dat c) -∗ Q' ⟨⟩)
        ∗ boundary (c : Thread nD τ) ∗ (dat c).arrays ((dat c).arrAt · cfg0.N)
        ∗ Pipeline.unscopedRest spec0 c (fun b => V0 c (Proc.devRef .tc b)))
      ⊢ wp frame (wpE (defs (F := F)) (Variants.lift 𝒱₀) (c : Thread nD τ) none) Set.univ
          (Pipeline.chain ((tailOpss (F := F)).map StableHlo.seq)) Q' := by
  classical
  have hS : ∀ ops ∈ (tailOpss (F := F)), ∀ op ∈ ops, op.bufs ⊆ tailS := fun ops ho op h => (tail_all ops ho op h).1
  have hF : ∀ ops ∈ (tailOpss (F := F)), ∀ op ∈ ops, op.fresh = ∅ := fun ops ho op h => (tail_all ops ho op h).2.2
  have hout : StableHlo.after (tailOpss (F := F)).flatten (exitVal (V0 c) ((dat c).arrAt 6 cfg0.N)) (Proc.devRef .tc main_v83)
      = (dat c).arrAt 6 cfg0.N :=
    (tailAfter_keep V0 dat c main_v83 (by simp)).trans (exitVal_out _ _)
  unfold defs
  rw [arrays_split_out dat c, ← List.append_nil ((tailOpss (F := F)).map StableHlo.seq)]
  iintro ⟨Hk, Hb, ⟨H6, HA⟩, HZ⟩
  iapply (Pipeline.wp_seqs_then pcfgs defs₀ 𝒱₀ c tailS [] tailOpss hS hF (exitVal (V0 c) ((dat c).arrAt 6 cfg0.N))) $$ [Hb H6 HZ]
  · rw [held_tailS, exitVal_out, rest_exitVal]
    iframe Hb H6 HZ
  iintro Hb
  rw [Pipeline.chain_nil, wp_pure, held_tailS, hout]
  imodintro
  icases Hb with ⟨-, H6, HR⟩
  iapply Hk
  unfold tailZ' tailAfter
  iframe H6 HA HR

def tailQY (s : MemSt nD τ sig (Elt F)) : Prop :=
  s.mem ((c : Thread nD τ).loc main_v94) = tailAfter V0 dat c (Proc.devRef .tc main_v94)
    ∧ s.mem ((c : Thread nD τ).loc main_arg0) = V0 c (Proc.devRef .tc main_arg0)
    ∧ s.mem ((c : Thread nD τ).loc main_arg1) = V0 c (Proc.devRef .tc main_arg1)
    ∧ s.mem ((c : Thread nD τ).loc main_arg2) = V0 c (Proc.devRef .tc main_arg2)

theorem hY_tail (s' : Phys nD τ sig (Elt F)) :
    iprop((emp : sProp 𝕄) ∗ tailZ' V0 dat c ∗ SI s') ⊢ |={Set.univ}=> iprop(⌜tailQY V0 dat c s'.mem⌝ ∗ SI s') := by
  classical
  have hk : ∀ r ∈ ([main_arg0, main_arg1, main_arg2] : List (Ref sig .tc)),
      tailAfter V0 dat c (Proc.devRef .tc r) = V0 c (Proc.devRef .tc r) := fun r hr => by
    have hr' : r ∈ ([main_v83, main_arg0, main_arg1, main_arg2] : List (Ref sig .tc)) := List.mem_cons_of_mem _ hr
    have hne : r ≠ main_v83 := by
      simp only [List.mem_cons, List.mem_nil_iff, or_false] at hr
      rcases hr with rfl | rfl | rfl <;> decide
    rw [tailAfter_keep V0 dat c r hr', exitVal_of_ne _ _ r hne]
  iintro ⟨-, HU, HSI⟩
  unfold tailZ' Pipeline.unscopedRest
  imodintro
  ihave H := (pointsTo_read_all (restR : Finset (Ref sig .tc)) (fun b => (c : Thread nD τ).loc b)
    (fun b => tailAfter V0 dat c (Proc.devRef .tc b)) s') $$ [HU HSI]
  · isplitl [HU] <;> iassumption
  icases H with ⟨%h, HSI⟩
  isplitr
  · ipureintro
    exact ⟨h main_v94 (by decide), (h main_arg0 (by decide)).trans (hk main_arg0 (by simp)),
      (h main_arg1 (by decide)).trans (hk main_arg1 (by simp)), (h main_arg2 (by decide)).trans (hk main_arg2 (by simp))⟩
  · iexact HSI

end Cert.KernelIdeal.Run

end
-- ==== Proof.KRunIdeal.lean ====
import proofs.«401202_j76493367542062_3_alg».proof.Proof.KLaunchIdeal
import proofs.«401202_j76493367542062_3_alg».proof.Proof.KBody
import proofs.«401202_j76493367542062_3_alg».proof.Proof.KRunPieces
import proofs.«401202_j76493367542062_3_alg».proof.Proof.KSplit
import proofs.«401202_j76493367542062_3_alg».proof.Proof.KRunKeeps
import proofs.«401202_j76493367542062_3_alg».proof.Proof.KTail
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev post : List (List (HloOp τ sig (Elt F))) :=
  [hostOps1, hostOps1_1, hostOps1_2, hostOps1_3, hostOps1_4]

abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
theorem post_sub : (post (F := F)).Forall fun ops => ops.Forall fun op => op.bufs ⊆ StableHlo.tcRefs τ sig :=
  ⟨hostOps1_sub, hostOps1_1_sub, hostOps1_2_sub, hostOps1_3_sub, hostOps1_4_sub⟩

theorem pre_fresh : (pre (F := F)).Forall fun ops => ops.Forall fun op => op.fresh = ∅ := by
  simp only [List.Forall]; repeat' constructor
theorem post_fresh : (post (F := F)).Forall fun ops => ops.Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain (post.map StableHlo.seq)) :=
  Pipeline.hmain_around cfgs 0 defs₀ 𝒱₀ m main pre post pre_sub pre_fresh main_chain

section Launch

variable (W₀ : Dev nD → Valuation τ sig (Elt F)) (q : Fin cfg0.W → PosShare TreeShare)
  (k : PUnit → Prog (TpuEff nD τ sig (Elt F) (Pipeline.Sig Λ₀ (Fin 1) fun p => (pcfgs (F := F) p).Adm) .tc) PUnit)

abbrev rd (c : Dev nD) (b : Ref sig .tc) : Buf (Elt F) ((c : Thread nD τ).loc b) := W₀ c (Proc.devRef .tc b)

set_option backward.isDefEq.respectTransparency.types false in

theorem run_main_of (Z' : Dev nD → sProp 𝕄) (QY : Dev nD → MemSt nD τ sig (Elt F) → Prop)
    (hmain : Pipeline.HMainK (Ix := Unit) (Name := ℕ) (U := UR sig nD τ) (Lvl := ℕ) cfgs 0 defs₀ Variants.none m (main (F := F)) (rd W₀) k)
    (hsplit : ∀ c, (Pipeline.arrBufs spec0 c (rd W₀ c) : sProp 𝕄) ⊢ (Body.dats (rd W₀) q c).arrays ((Body.dats (rd W₀) q c).arrAt · 0))
    (htail : ∀ (c : Dev nD) (Q' : PUnit → sProp 𝕄),
      iprop((iprop((Body.dats (rd W₀) q c).arrays ((Body.dats (rd W₀) q c).arrAt · cfg0.N) ∗ Z' c) -∗ Q' ⟨⟩)
          ∗ boundary (c : Thread nD τ) ∗ (Body.dats (rd W₀) q c).arrays ((Body.dats (rd W₀) q c).arrAt · cfg0.N)
          ∗ Pipeline.unscopedRest spec0 c (rd W₀ c))
        ⊢ wp frame (wpE (defs (F := F)) (Variants.lift Variants.none) (c : Thread nD τ) none) Set.univ (k ⟨⟩) Q')
    (hY : ∀ c (s' : Phys nD τ sig (Elt F)), iprop((emp : sProp 𝕄) ∗ Z' c ∗ SI s') ⊢ |={Set.univ}=> iprop(⌜QY c s'.mem⌝ ∗ SI s')) :
    θ_run defs (onTc (τ := τ) (main (F := F))) ⟨m, fun _ => 0, ρ⟩
      (fun r => ∀ c : Dev nD, (∀ w, r.2.mem ((spec0 w).arr.view.loc (c : Thread nD τ)) = (Body.dats (rd W₀) q c).arrAt w cfg0.N) ∧ QY c r.2) := by
  refine Pipeline.θ_run_region_noSem_pf_tail (Ix := Unit) (Name := ℕ) (U := UR sig nD τ) (Lvl := ℕ) (fun p => (cfgs p).toPCfg) (fun p => (cfgs p).toPCfg_adm)
    (fun (_ : Fin 1) c => Body.dats (rd W₀) q c) () cellOf_inj (0 : Fin 1) winFacts₀0 (Pipeline.PreFacts.none _) emb₁ defs₀ Variants.none
    m ρ main k
    ?hbody block_pos0 arr_whole0 stage_whole0 (fun _ _ => rfl)
    (initOf (Pipeline.cells cfgs cellOf_inj) (Pipeline.launchToks cfgs cellOf_inj)) .rfl
    (rd W₀) ?hmain ?hsplit (fun _ k => k.elim0)
    (fun _ => iprop(emp)) (fun _ => iprop(emp)) (fun c => Pipeline.unscopedRest spec0 c (rd W₀ c)) Z'
    ?hX ?hin ?hout ?htail QY ?hY ?hQ
  case hbody => exact fun c => Body.body_obligation (rd W₀) q c
  case hmain =>
    unfold Pipeline.HMainK Pipeline.HMainPK at hmain
    intro c Q
    have h1 := hmain c Q
    beta_reduce at h1
    exact h1
  case hsplit => exact hsplit
  case hX =>
    intro c
    rw [Pipeline.unscopedRestP_none]
    iintro H
    isplitr
    · iempintro
    iexact H
  case hin =>
    intro c
    refine (show _ ⊢ (iprop(emp ∗ Pipeline.scopedRest spec0 c) : sProp 𝕄) from ?_).trans (hin (rd W₀) q c)
    iintro ⟨HX, -, HR⟩
    isplitl [HX] <;> iassumption
  case hout => exact fun c => hout (rd W₀) q c
  case htail => exact htail
  case hY => exact hY
  case hQ => exact fun s h c => ⟨(h c).1, (h c).2.2⟩

end Launch

def OUT (c : Dev nD) : Buf (Elt F) ((c : Thread nD τ).loc main_v83) := (Body.dats (V m) q c).arrAt 6 cfg0.N

def Vout (c : Dev nD) : Valuation τ sig (Elt F) := exitVal (V0 m c) (OUT m c)

theorem Vout_v83 (c : Dev nD) : Vout m c (Proc.devRef .tc main_v83) = OUT m c := exitVal_out _ _
theorem Vout_of_ne (c : Dev nD) (b : Ref sig .tc) (h : b ≠ main_v83) : Vout m c (Proc.devRef .tc b) = V0 m c (Proc.devRef .tc b) :=
  exitVal_of_ne _ _ b h

theorem V0_arg0 (c : Dev nD) : V0 m c (Proc.devRef .tc main_arg0) = m (c, Proc.devRef .tc main_arg0) := pre_keeps_arg0 _
theorem V0_arg1 (c : Dev nD) : V0 m c (Proc.devRef .tc main_arg1) = m (c, Proc.devRef .tc main_arg1) := pre_keeps_arg1 _
theorem V0_arg2 (c : Dev nD) : V0 m c (Proc.devRef .tc main_arg2) = m (c, Proc.devRef .tc main_arg2) := pre_keeps_arg2 _

theorem run_main : θ_run defs (onTc (τ := τ) (main (F := F))) ⟨m, fun _ => 0, ρ⟩ (fun r => ∀ c : Dev nD,
      r.2.mem ((c : Thread nD τ).loc main_v94) = StableHlo.after (List.flatten post) (Vout m c) (Proc.devRef .tc main_v94)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
      obtain ⟨h94, h0, h1, h2⟩ := (h c).2
      exact ⟨h94, h0.trans (V0_arg0 m c), h1.trans (V0_arg1 m c), h2.trans (V0_arg2 m c)⟩)
    (run_main_of m ρ (V0 m) q (fun _ => Pipeline.chain (post.map StableHlo.seq))
      (tailZ' (V0 m) fun c => Body.dats (V m) q c) (tailQY (V0 m) fun c => Body.dats (V m) q c)
      (hmain m Variants.none) (fun c => hsplit (V m) c)
      (fun c Q' => htail Variants.none (V0 m) (fun c => Body.dats (V m) q c) c Q')
      (fun c s' => hY_tail (V0 m) (fun c => Body.dats (V m) q c) c s'))

/-- info: 'Cert.KernelIdeal.Run.run_main' depends on axioms: [propext, Classical.choice, Quot.sound] -/
#guard_msgs in #print axioms run_main

end Cert.KernelIdeal.Run

end
-- ==== Proof.KStages.lean ====
import proofs.«401202_j76493367542062_3_alg».proof.Proof.KLaunchIdeal
import proofs.«401202_j76493367542062_3_alg».proof.Proof.LibLine
import proofs.«401202_j76493367542062_3_alg».proof.Proof.KerInt
import proofs.«401202_j76493367542062_3_alg».proof.Proof.KHostVals
import proofs.«401202_j76493367542062_3_alg».proof.Proof.PreFacts
import Idealize.ShloMosaic.Lib.StableHlo.Run
import Idealize.ShloMosaic.Lib.ValueIdx

set_option maxRecDepth 1300

noncomputable section

namespace Cert.KernelIdeal.KStage

open Idealize.ShloMosaic Idealize.ShloMosaic.TcCoe Idealize.SL.Sem Idealize.ShloMosaic.StableHlo
open Cert.KernelIdeal Cert.KernelIdeal.Gen Cert.Lib.Line

variable {F : FTy → Type} [FloatOps F]

abbrev preOps : List (HloOp τ sig (Elt F)) :=
  List.flatten [hostOps0, hostOps0_1, hostOps0_2, hostOps0_3, hostOps0_4, hostOps0_5, hostOps0_6, hostOps0_7, hostOps0_8, hostOps0_9,
    hostOps0_10, hostOps0_11, hostOps0_12, hostOps0_13]

abbrev preWr : List (Ref sig .tc) :=
  [main_call0_v0, main_call0_cst, main_call0_v1, main_call0_v2, main_v0, main_cst, main_call1_v0, main_call1_v1, main_v1,
   main_v2, main_v3, main_v4, main_v5, main_v6, main_v7, main_c, main_v8, main_c_0, main_v9, main_v10, main_c_1, main_v11,
   main_v12, main_v13, main_v14, main_v15, main_c_2, main_v16, main_v17, main_c_3, main_v18, main_v19, main_v20, main_v21,
   main_v22, main_v23, main_c_4, main_call2_v0, main_call2_v1, main_v24, main_c_5, main_v25, main_c_6, main_v26, main_v27,
   main_c_7, main_v28, main_v29, main_v30, main_v31, main_v32, main_c_8, main_v33, main_c_9, main_v34, main_v35, main_c_10,
   main_v36, main_v37, main_v38, main_v39, main_c_11, main_v40, main_v41, main_c_12, main_v42, main_v43, main_c_13, main_v44,
   main_v45, main_v46, main_v47, main_v48, main_c_14, main_v49, main_v50, main_c_15, main_v51, main_v52, main_v53, main_v54,
   main_v55, main_v56, main_v57, main_c_16, main_v58, main_v59, main_c_17, main_call4_v0, main_call4_v1, main_v60, main_v61,
   main_c_18, main_v62, main_v63, main_c_19, main_call5_v0, main_call5_v1, main_v64, main_c_20, main_v65, main_v66, main_c_21,
   main_v67, main_v68, main_v69, main_v70, main_v71, main_v72, main_cst_22, main_v73, main_c_23, main_v74, main_v75,
   main_cst_24, main_v76, main_v77, main_cst_25, main_v78, main_v79, main_cst_26, main_call6_v0, main_call6_v1, main_v80,
   main_v81, main_v82]

abbrev V0 (W : Valuation τ sig (Elt F)) : Valuation τ sig (Elt F) := after preOps W

def xnK (x : FVec F S4096x1024 .f32) : FVec F S4096x1024 .f32 :=
  Host.divf x (broadcastInDim S4096x1024 ![0, 1] bcast_S4096x1_S4096x1024_0_1
    (maximumf (broadcastInDim S4096x1 ![] bcast_S_S4096x1 (id (constant S_ .f32 0x322BCC77#32)))
      (Host.sqrt (broadcastInDim S4096x1 ![0] bcast_S4096_S4096x1_0
        (Host.reduceAdd (mulf x x) (constant S_ .f32 0x00000000#32) reducesTo_S4096x1024_S4096_d1 h_S_)))))

theorem xnK_eq_xnOf (x : FVec Ideal S4096x1024 .f32) : xnK (F := Ideal) x = Cert.PreDecode.xnOf x := rfl

set_option maxRecDepth 100000

variable (W : Valuation τ sig (Elt F))

theorem preOps_writes : Writes (preOps : List (HloOp τ sig (Elt F))) preWr := by
  repeat (first | exact .nil | refine .cons rfl ?_)

theorem preWr_nodup : preWr.Nodup := by decide

macro "pre_read" p:num : tactic => `(tactic| first
  | rw [Writes.read_nullary preOps_writes preWr_nodup $p rfl]
  | rw [Writes.read_unary preOps_writes preWr_nodup $p rfl (by decide)]
  | rw [Writes.read_reshape preOps_writes preWr_nodup $p rfl (by decide)]
  | rw [Writes.read_binary preOps_writes preWr_nodup $p rfl (by decide) (by decide)]
  | rw [Writes.read_ternary preOps_writes preWr_nodup $p rfl (by decide) (by decide) (by decide)])

theorem A_arg0 : after preOps W main_arg0 = W main_arg0 :=
  Writes.after_of_not_mem preOps_writes (by decide) W
theorem A_arg1 : after preOps W main_arg1 = W main_arg1 :=
  Writes.after_of_not_mem preOps_writes (by decide) W

theorem A_v3 : after preOps W main_v3 = xnK (W main_arg0) := by
  pre_read 10; pre_read 9; pre_read 8; pre_read 7; pre_read 6; pre_read 5; pre_read 4; pre_read 3; pre_read 2; pre_read 1
  pre_read 0
  rw [A_arg0]
  rfl

theorem V0_v4 :
    (V0 W main_v4 : FVec F S4096x1024 .bf16)
      = truncf .bf16 (xnK (W main_arg0)) bitsLt_bf16_f32 := by
  unfold V0
  pre_read 11
  rw [A_v3]

theorem V0_v5 :
    (V0 W main_v5 : IVec S4096x1 32)
      = shapeCast S4096x1 (W main_arg1 : IVec S4096 32) shapeCasts_S4096_S4096x1 := by
  unfold V0
  pre_read 12
  rw [A_arg1]
  rfl

theorem V0_v6 :
    (V0 W main_v6 : IVec S1x4096 32)
      = shapeCast S1x4096 (W main_arg1 : IVec S4096 32) shapeCasts_S4096_S1x4096 := by
  unfold V0
  pre_read 13
  rw [A_arg1]
  rfl

macro "close_rfl" : tactic => `(tactic| ((try simp only [TRef.ofBuf, TRef.toBuf, cast_eq]); try rfl))

theorem A_v7 : after preOps W main_v7 = KInt.iotaK := by
  pre_read 14
  close_rfl

theorem A_v14 : after preOps W main_v14 = KInt.yColK (W main_arg1) := by
  pre_read 24
  pre_read 23; pre_read 22; pre_read 21; pre_read 20; pre_read 19; pre_read 18; pre_read 17
  rw [A_arg1]
  close_rfl

theorem A_v15 : after preOps W main_v15 = KInt.minIdxK (W main_arg1) := by
  pre_read 25; pre_read 16; pre_read 15
  rw [A_v14, A_v7]
  close_rfl

theorem A_v21 : after preOps W main_v21 = KInt.yColK (W main_arg1) := by
  pre_read 33
  pre_read 32; pre_read 31; pre_read 30; pre_read 29; pre_read 28; pre_read 27; pre_read 26
  rw [A_arg1]
  close_rfl

theorem A_v22 : after preOps W main_v22 = KInt.gmK (W main_arg1) := by
  pre_read 34
  rw [A_v15, A_v21]
  close_rfl

theorem A_v24 : after preOps W main_v24 = KInt.idx2K (W main_arg1) := by
  pre_read 39; pre_read 38; pre_read 37; pre_read 36; pre_read 35
  rw [A_v7, A_v22]
  close_rfl

theorem A_v31 : after preOps W main_v31 = KInt.yColK (W main_arg1) := by
  pre_read 49
  pre_read 48; pre_read 47; pre_read 46; pre_read 45; pre_read 44; pre_read 43; pre_read 42
  rw [A_arg1]
  close_rfl

theorem A_v32 : after preOps W main_v32 = KInt.secMinK (W main_arg1) := by
  pre_read 50; pre_read 41; pre_read 40
  rw [A_v31, A_v24]
  close_rfl

theorem A_v39 : after preOps W main_v39 = KInt.yColK (W main_arg1) := by
  pre_read 60
  pre_read 59; pre_read 58; pre_read 57; pre_read 56; pre_read 55; pre_read 54; pre_read 53
  rw [A_arg1]
  close_rfl

theorem A_v41 : after preOps W main_v41 = KInt.countsK (W main_arg1) := by
  pre_read 63; pre_read 62; pre_read 61; pre_read 52; pre_read 51
  rw [A_v39]
  close_rfl

theorem A_v47 : after preOps W main_v47 = KInt.yColK (W main_arg1) := by
  pre_read 71
  pre_read 70; pre_read 69; pre_read 68; pre_read 67; pre_read 66; pre_read 65; pre_read 64
  rw [A_arg1]
  close_rfl

theorem A_v48 : after preOps W main_v48 = KInt.sK (W main_arg1) := by
  pre_read 72
  rw [A_v32, A_v47]
  close_rfl

theorem A_v54 : after preOps W main_v54 = KInt.yColK (W main_arg1) := by
  pre_read 80
  pre_read 79; pre_read 78; pre_read 77; pre_read 76; pre_read 75; pre_read 74; pre_read 73
  rw [A_arg1]
  close_rfl

theorem A_v55 : after preOps W main_v55 = KInt.cntK (W main_arg1) := by
  pre_read 81
  rw [A_v41, A_v54]
  close_rfl

theorem A_v57 : after preOps W main_v57 = KInt.fp0K (W main_arg1) := by
  pre_read 83; pre_read 82
  rw [A_v7, A_v22, A_v48]
  close_rfl

theorem A_v60 : after preOps W main_v60 = KInt.fpK (W main_arg1) := by
  pre_read 90; pre_read 89; pre_read 88; pre_read 87; pre_read 86; pre_read 85; pre_read 84
  rw [A_v55, A_v57]
  close_rfl

theorem A_v69 : after preOps W main_v69 = KHost.fpNorm (KInt.fpK (W main_arg1)) := by
  pre_read 105; pre_read 104; pre_read 103; pre_read 102; pre_read 101; pre_read 100; pre_read 99
  pre_read 98; pre_read 97; pre_read 96; pre_read 95; pre_read 94; pre_read 93; pre_read 92
  rw [A_v60]
  close_rfl

theorem A_v71 (W : Valuation τ sig (Elt Ideal)) :
    after preOps W main_v71 = KHost.gatherK (xnK (W main_arg0)) (KInt.fpK (W main_arg1)) := by
  pre_read 107; pre_read 106
  rw [A_v3, A_v69]
  close_rfl

theorem A_v73 (W : Valuation τ sig (Elt Ideal)) :
    after preOps W main_v73 = KHost.dotK (xnK (W main_arg0)) (KInt.fpK (W main_arg1)) := by
  pre_read 110; pre_read 109; pre_read 108
  rw [A_v3, A_v71]
  close_rfl

theorem V0_v81 (W : Valuation τ sig (Elt Ideal)) :
    (V0 W main_v81 : FVec Ideal S4096x1 .f32)
      = KHost.slot0K (xnK (W main_arg0)) (KInt.fpK (W main_arg1)) := by
  unfold V0
  pre_read 124
  pre_read 123; pre_read 122; pre_read 121; pre_read 120; pre_read 119; pre_read 118; pre_read 117; pre_read 116; pre_read 115
  pre_read 114; pre_read 113; pre_read 112; pre_read 111
  rw [A_v60, A_v73]
  close_rfl

theorem V0_v82 (W : Valuation τ sig (Elt Ideal)) :
    (V0 W main_v82 : FVec Ideal S4096x1 .f32)
      = KHost.samecntK (KInt.cntK (W main_arg1)) := by
  unfold V0
  pre_read 125
  pre_read 91
  rw [A_v55]
  close_rfl

end Cert.KernelIdeal.KStage
end
-- ==== Proof.KStagesTail.lean ====
import proofs.«401202_j76493367542062_3_alg».proof.Proof.KLaunchIdeal
import proofs.«401202_j76493367542062_3_alg».proof.Proof.LibLine
import proofs.«401202_j76493367542062_3_alg».proof.Proof.Tails

set_option maxRecDepth 100000

noncomputable section

namespace Cert.KernelIdeal.KStage

open Cert.KernelIdeal Cert.KernelIdeal.Gen Idealize.ShloMosaic Idealize.ShloMosaic.TcCoe Idealize.SL.Sem
open Idealize.ShloMosaic.StableHlo Cert.Lib.Line Cert.CLCE.Tails

variable {F : FTy → Type} [FloatOps F]

def postOps : List (HloOp τ sig (Elt F)) := hostOps1 ++ (hostOps1_1 ++ (hostOps1_2 ++ (hostOps1_3 ++ hostOps1_4)))

abbrev postWr : List (Ref sig .tc) :=
  [main_cst_27, main_v84, main_cst_28, main_v85, main_call7_cst, main_call7_v0, main_call7_cst_0, main_call7_v1, main_call7_v2,
   main_call7_v3, main_call7_v4, main_call7_v5, main_call7_v6, main_call7_cst_1, main_call7_v7, main_call7_v8, main_call7_v9,
   main_call7_v10, main_v86, main_v87, main_call8_c, main_call8_v0, main_call8_v1, main_call8_c_0, main_call8_v2, main_call8_v3,
   main_call8_v4, main_call8_v5, main_call8_c_1, main_call8_c_2, main_call8_v6, main_call8_v7, main_call8_v8, main_call8_v9,
   main_call8_v10, main_call8_v11, main_call8_c_3, main_call8_v12, main_call8_v13, main_call8_cst, main_call8_v14, main_v88,
   main_cst_29, main_v89, main_cst_30, main_v90, main_v91, main_cst_31, main_v92, main_cst_32, main_v93, main_v94]

theorem postOps_writes : Writes (postOps : List (HloOp τ sig (Elt F))) postWr := by
  repeat (first | exact .nil | refine .cons rfl ?_)

theorem postWr_nodup : postWr.Nodup := by decide

abbrev rN (y : Ref sig .tc) := @Writes.read_nullary _ _ _ _ _ y (postOps_writes (F := F)) postWr_nodup
abbrev rU (x y : Ref sig .tc) := @Writes.read_unary _ _ _ _ _ x y (postOps_writes (F := F)) postWr_nodup
abbrev rR (x y : Ref sig .tc) := @Writes.read_reshape _ _ _ _ _ x y (postOps_writes (F := F)) postWr_nodup
abbrev rB (a b y : Ref sig .tc) := @Writes.read_binary _ _ _ _ _ a b y (postOps_writes (F := F)) postWr_nodup
abbrev rT (a b c y : Ref sig .tc) := @Writes.read_ternary _ _ _ _ _ a b c y (postOps_writes (F := F)) postWr_nodup
abbrev rK (r : Ref sig .tc) := @Writes.after_of_not_mem _ _ _ _ _ (postOps_writes (F := F)) r

variable (W' : Valuation τ sig (Elt F))

theorem rd_cst_27 : after postOps W' main_cst_27 = constant S_ .f32 0x00000000#32 :=
  rN _ 0 rfl W'
theorem rd_v84 : after postOps W' main_v84 = Host.reduceAdd (after postOps W' main_v83) (after postOps W' main_cst_27) reducesTo_S4096x1_S_d0_1 h_S_ :=
  rB _ _ _ 1 rfl (by decide) (by decide) W'
theorem rd_cst_28 : after postOps W' main_cst_28 = constant S_ .f32 0x45800000#32 :=
  rN _ 2 rfl W'
theorem rd_v85 : after postOps W' main_v85 = Host.divf (after postOps W' main_v84) (after postOps W' main_cst_28) :=
  rB _ _ _ 3 rfl (by decide) (by decide) W'
theorem rd_call7_cst : after postOps W' main_call7_cst = constant S_ .f32 0xFF800000#32 :=
  rN _ 4 rfl W'
attribute [local irreducible] Host.reduce in
theorem rd_call7_v0 : after postOps W' main_call7_v0 = Host.reduce (FloatOps.maximumf (F := F)) (after postOps W' main_arg2) (after postOps W' main_call7_cst) reducesTo_S4096x512_S4096_d1 h_S_ :=
  rB _ _ _ 5 rfl (by decide) (by decide) W'
theorem rd_call7_cst_0 : after postOps W' main_call7_cst_0 = constant S_ .f32 0xFF800000#32 :=
  rN _ 6 rfl W'
theorem rd_call7_v1 : after postOps W' main_call7_v1 = broadcastInDim S4096 ![] bcast_S_S4096 (after postOps W' main_call7_cst_0) :=
  rU _ _ 7 rfl (by decide) W'
theorem rd_call7_v2 : after postOps W' main_call7_v2 = maximumf (after postOps W' main_call7_v1) (after postOps W' main_call7_v0) :=
  rB _ _ _ 8 rfl (by decide) (by decide) W'
theorem rd_call7_v3 : after postOps W' main_call7_v3 = broadcastInDim S4096x1 ![0] bcast_S4096_S4096x1_0 (after postOps W' main_call7_v2) :=
  rU _ _ 9 rfl (by decide) W'
theorem rd_call7_v4 : after postOps W' main_call7_v4 = broadcastInDim S4096x512 ![0, 1] bcast_S4096x1_S4096x512_0_1 (after postOps W' main_call7_v3) :=
  rU _ _ 10 rfl (by decide) W'
theorem rd_call7_v5 : after postOps W' main_call7_v5 = subf (after postOps W' main_arg2) (after postOps W' main_call7_v4) :=
  rB _ _ _ 11 rfl (by decide) (by decide) W'
theorem rd_call7_v6 : after postOps W' main_call7_v6 = Host.exp (after postOps W' main_call7_v5) :=
  rU _ _ 12 rfl (by decide) W'
theorem rd_call7_cst_1 : after postOps W' main_call7_cst_1 = constant S_ .f32 0x00000000#32 :=
  rN _ 13 rfl W'
theorem rd_call7_v7 : after postOps W' main_call7_v7 = Host.reduceAdd (after postOps W' main_call7_v6) (after postOps W' main_call7_cst_1) reducesTo_S4096x512_S4096_d1 h_S_ :=
  rB _ _ _ 14 rfl (by decide) (by decide) W'
theorem rd_call7_v8 : after postOps W' main_call7_v8 = broadcastInDim S4096x1 ![0] bcast_S4096_S4096x1_0 (after postOps W' main_call7_v7) :=
  rU _ _ 15 rfl (by decide) W'
theorem rd_call7_v9 : after postOps W' main_call7_v9 = Host.log (after postOps W' main_call7_v8) :=
  rU _ _ 16 rfl (by decide) W'
theorem rd_call7_v10 : after postOps W' main_call7_v10 = broadcastInDim S4096x512 ![0, 1] bcast_S4096x1_S4096x512_0_1 (after postOps W' main_call7_v9) :=
  rU _ _ 17 rfl (by decide) W'
theorem rd_v86 : after postOps W' main_v86 = subf (after postOps W' main_call7_v5) (after postOps W' main_call7_v10) :=
  rB _ _ _ 18 rfl (by decide) (by decide) W'
theorem rd_v87 : after postOps W' main_v87 = broadcastInDim S4096x1 ![0] bcast_S4096_S4096x1_0 (after postOps W' main_arg1) :=
  rU _ _ 19 rfl (by decide) W'
theorem rd_call8_c : after postOps W' main_call8_c = constantI S_ 32 0#32 :=
  rN _ 20 rfl W'
theorem rd_call8_v0 : after postOps W' main_call8_v0 = broadcastInDim S4096x1 ![] bcast_S_S4096x1 (after postOps W' main_call8_c) :=
  rU _ _ 21 rfl (by decide) W'
theorem rd_call8_v1 : after postOps W' main_call8_v1 = cmpi .slt (after postOps W' main_v87) (after postOps W' main_call8_v0) :=
  rB main_v87 main_call8_v0 main_call8_v1 22 (f := cmpi .slt) rfl (by decide) (by decide) W'
theorem rd_call8_c_0 : after postOps W' main_call8_c_0 = constantI S_ 32 512#32 :=
  rN _ 23 rfl W'
theorem rd_call8_v2 : after postOps W' main_call8_v2 = broadcastInDim S4096x1 ![] bcast_S_S4096x1 (after postOps W' main_call8_c_0) :=
  rU _ _ 24 rfl (by decide) W'
theorem rd_call8_v3 : after postOps W' main_call8_v3 = addi (after postOps W' main_v87) (after postOps W' main_call8_v2) :=
  rB _ _ _ 25 rfl (by decide) (by decide) W'
theorem rd_call8_v4 : after postOps W' main_call8_v4 = select (after postOps W' main_call8_v1) (after postOps W' main_call8_v3) (after postOps W' main_v87) :=
  rT main_call8_v3 main_v87 main_call8_v1 main_call8_v4 26 (f := select) rfl (by decide) (by decide) (by decide) W'
theorem rd_call8_v5 : after postOps W' main_call8_v5 = shapeCast S4096x1x1 (after postOps W' main_call8_v4) shapeCasts_S4096x1_S4096x1x1 :=
  rR _ _ 27 rfl (by decide) W'
theorem rd_call8_c_1 : after postOps W' main_call8_c_1 = constantI S1 32 511#32 :=
  rN _ 28 rfl W'
theorem rd_call8_c_2 : after postOps W' main_call8_c_2 = constantI S_ 32 0#32 :=
  rN _ 29 rfl W'
theorem rd_call8_v6 : after postOps W' main_call8_v6 = broadcastInDim S4096x1x1 ![] bcast_S_S4096x1x1 (after postOps W' main_call8_c_2) :=
  rU _ _ 30 rfl (by decide) W'
theorem rd_call8_v7 : after postOps W' main_call8_v7 = cmpi .sge (after postOps W' main_call8_v5) (after postOps W' main_call8_v6) :=
  rB main_call8_v5 main_call8_v6 main_call8_v7 31 (f := cmpi .sge) rfl (by decide) (by decide) W'
theorem rd_call8_v8 : after postOps W' main_call8_v8 = broadcastInDim S1x1x1 ![2] bcast_S1_S1x1x1_2 (after postOps W' main_call8_c_1) :=
  rU _ _ 32 rfl (by decide) W'
theorem rd_call8_v9 : after postOps W' main_call8_v9 = broadcastInDim S4096x1x1 ![0, 1, 2] bcast_S1x1x1_S4096x1x1_0_1_2 (after postOps W' main_call8_v8) :=
  rU _ _ 33 rfl (by decide) W'
theorem rd_call8_v10 : after postOps W' main_call8_v10 = cmpi .sle (after postOps W' main_call8_v5) (after postOps W' main_call8_v9) :=
  rB main_call8_v5 main_call8_v9 main_call8_v10 34 (f := cmpi .sle) rfl (by decide) (by decide) W'
theorem rd_call8_v11 : after postOps W' main_call8_v11 = andi (after postOps W' main_call8_v7) (after postOps W' main_call8_v10) :=
  rB _ _ _ 35 rfl (by decide) (by decide) W'
theorem rd_call8_c_3 : after postOps W' main_call8_c_3 = constantI S_ 1 1#1 :=
  rN _ 36 rfl W'
attribute [local irreducible] Host.reduce in
theorem rd_call8_v12 : after postOps W' main_call8_v12 = Host.reduce IntOp.andi (after postOps W' main_call8_v11) (after postOps W' main_call8_c_3) reducesTo_S4096x1x1_S4096x1_d2 h_S_ :=
  rB _ _ _ 37 rfl (by decide) (by decide) W'
attribute [local irreducible] Host.gather in
theorem rd_call8_v13 : after postOps W' main_call8_v13 = Host.gather gather_S4096x512_S4096x1x1_S4096x1_n_1_0_0_1_2_11 (after postOps W' main_v86) (after postOps W' main_call8_v5) :=
  rB _ _ _ 38 rfl (by decide) (by decide) W'
theorem rd_call8_cst : after postOps W' main_call8_cst = constant S_ .f32 0x7FC00000#32 :=
  rN _ 39 rfl W'
theorem rd_call8_v14 : after postOps W' main_call8_v14 = broadcastInDim S4096x1 ![] bcast_S_S4096x1 (after postOps W' main_call8_cst) :=
  rU _ _ 40 rfl (by decide) W'
theorem rd_v88 : after postOps W' main_v88 = select (after postOps W' main_call8_v12) (after postOps W' main_call8_v13) (after postOps W' main_call8_v14) :=
  rT _ _ _ _ 41 rfl (by decide) (by decide) (by decide) W'
theorem rd_cst_29 : after postOps W' main_cst_29 = constant S_ .f32 0x00000000#32 :=
  rN _ 42 rfl W'
theorem rd_v89 : after postOps W' main_v89 = Host.reduceAdd (after postOps W' main_v88) (after postOps W' main_cst_29) reducesTo_S4096x1_S_d0_1 h_S_ :=
  rB _ _ _ 43 rfl (by decide) (by decide) W'
theorem rd_cst_30 : after postOps W' main_cst_30 = constant S_ .f32 0x45800000#32 :=
  rN _ 44 rfl W'
theorem rd_v90 : after postOps W' main_v90 = Host.divf (after postOps W' main_v89) (after postOps W' main_cst_30) :=
  rB _ _ _ 45 rfl (by decide) (by decide) W'
theorem rd_v91 : after postOps W' main_v91 = Host.negf (after postOps W' main_v90) :=
  rU _ _ 46 rfl (by decide) W'
theorem rd_cst_31 : after postOps W' main_cst_31 = constant S_ .f32 0x3F000000#32 :=
  rN _ 47 rfl W'
theorem rd_v92 : after postOps W' main_v92 = mulf (after postOps W' main_cst_31) (after postOps W' main_v85) :=
  rB _ _ _ 48 rfl (by decide) (by decide) W'
theorem rd_cst_32 : after postOps W' main_cst_32 = constant S_ .f32 0x3F000000#32 :=
  rN _ 49 rfl W'
theorem rd_v93 : after postOps W' main_v93 = mulf (after postOps W' main_cst_32) (after postOps W' main_v91) :=
  rB _ _ _ 50 rfl (by decide) (by decide) W'
theorem rd_v94 : after postOps W' main_v94 = addf (after postOps W' main_v92) (after postOps W' main_v93) :=
  rB _ _ _ 51 rfl (by decide) (by decide) W'

theorem post_v85 :
    after postOps W' main_v85 = kCl (W' main_v83) := by
  rw [rd_v85, rd_v84, rd_cst_27, rd_cst_28, rK main_v83 (by decide)]
  rfl

attribute [local irreducible] Host.reduce in

theorem post_v86 :
    after postOps W' main_v86 = kLogSoftmax (W' main_arg2) := by
  rw [rd_v86, rd_call7_v10, rd_call7_v9, rd_call7_v8, rd_call7_v7, rd_call7_cst_1, rd_call7_v6, rd_call7_v5, rd_call7_v4,
    rd_call7_v3, rd_call7_v2, rd_call7_v1, rd_call7_cst_0, rd_call7_v0, rd_call7_cst, rK main_arg2 (by decide)]
  rfl

theorem post_v87 :
    after postOps W' main_v87
      = broadcastInDim S4096x1 ![0] bcast_S4096_S4096x1_0 (W' main_arg1) := by
  rw [rd_v87, rK main_arg1 (by decide)]

attribute [local irreducible] Host.reduce Host.gather in

theorem post_v88 :
    after postOps W' main_v88
      = kTakeAlong (after postOps W' main_v86) (after postOps W' main_v87) := by
  rw [rd_v88, rd_call8_v14, rd_call8_cst, rd_call8_v13, rd_call8_v12, rd_call8_c_3, rd_call8_v11, rd_call8_v10, rd_call8_v9,
    rd_call8_v8, rd_call8_v7, rd_call8_v6, rd_call8_c_2, rd_call8_c_1, rd_call8_v5, rd_call8_v4, rd_call8_v3, rd_call8_v2,
    rd_call8_c_0, rd_call8_v1, rd_call8_v0, rd_call8_c]
  rfl

attribute [local irreducible] Host.reduce Host.gather in

theorem post_v91 :
    after postOps W' main_v91
      = kCe (W' main_arg2) (W' main_arg1) := by
  rw [rd_v91, rd_v90, rd_cst_30, rd_v89, rd_cst_29, post_v88, post_v86, post_v87]
  rfl

attribute [local irreducible] Host.reduce Host.gather in

theorem post_v94 :
    after postOps W' main_v94
      = kernelTail (W' main_v83) (W' main_arg2) (W' main_arg1) := by
  rw [rd_v94, rd_v93, rd_cst_32, rd_v92, rd_cst_31, post_v91, post_v85]
  rfl

theorem tail_v94 (W' : Valuation τ sig (Elt F)) :
    after (List.flatten [(hostOps1 : List (HloOp τ sig (Elt F))), hostOps1_1, hostOps1_2, hostOps1_3, hostOps1_4]) W'
      (main_v94 : DevRef τ sig)
      = kernelTail (W' (main_v83 : DevRef τ sig)) (W' (main_arg2 : DevRef τ sig)) (W' (main_arg1 : DevRef τ sig)) := by
  rw [show List.flatten [(hostOps1 : List (HloOp τ sig (Elt F))), hostOps1_1, hostOps1_2, hostOps1_3, hostOps1_4] = postOps from
    by simp only [postOps, List.flatten_cons, List.flatten_nil, List.append_nil]]
  exact post_v94 W'

end Cert.KernelIdeal.KStage

end
-- ==== Proof.KValue.lean ====
import proofs.«401202_j76493367542062_3_alg».proof.Defs
import proofs.«401202_j76493367542062_3_alg».proof.Proof.Spec
import proofs.«401202_j76493367542062_3_alg».proof.Proof.PreFacts
import proofs.«401202_j76493367542062_3_alg».proof.Proof.Tails
import proofs.«401202_j76493367542062_3_alg».proof.Proof.KerInt
import proofs.«401202_j76493367542062_3_alg».proof.Proof.KHostVals
import proofs.«401202_j76493367542062_3_alg».proof.Proof.KFinal
import proofs.«401202_j76493367542062_3_alg».proof.Proof.KRunIdeal
import proofs.«401202_j76493367542062_3_alg».proof.Proof.KStages
import proofs.«401202_j76493367542062_3_alg».proof.Proof.KStagesTail

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.RA Idealize.SL.Sem

variable (m : (ℓ : Loc nD τ sig) → Buf (Elt Ideal) ℓ) (ρ : Dev nD → PrngReg)

abbrev argX (c : Dev nD) : FVec Ideal S4096x1024 .f32 := m ((c.tc : Thread nD τ).loc main_arg0)

abbrev argY (c : Dev nD) : IVec S4096 32 := m ((c.tc : Thread nD τ).loc main_arg1)

abbrev rowsK (c : Dev nD) : Fin 4096 → Fin 1024 → EReal := fun i k => Cert.PreDecode.xnOf (argX m c) (ix2 i k)

abbrev labelsK (c : Dev nD) : Fin 4096 → BitVec 32 := fun i => argY m c (ix1 i)

theorem arrays (c : Dev nD) (hlt : ∀ i : Fin 4096, (argY m c (ix1 i)).toNat < 512) :
    KFin.Arrays (Run.V m) c (rowsK m c) (labelsK m c) := by
  refine ⟨fun i => ?_, fun j => ?_, fun i k => ?_, fun i => ?_, fun i => ?_⟩
  ·
    exact (congrFun (KStage.V0_v5 (fun b => m (c, b))) (ix2 i (0 : Fin 1))).trans
      (KHost.reshape_col_apply (argY m c) i (0 : Fin 1))
  ·
    exact (congrFun (KStage.V0_v6 (fun b => m (c, b))) (ix2 (0 : Fin 1) j)).trans
      (KHost.reshape_row_apply (argY m c) (0 : Fin 1) j)
  ·
    refine (congrFun (KStage.V0_v4 (fun b => m (c, b))) (ix2 i k)).trans ?_
    refine (KHost.cast_bf16_apply (KStage.xnK (argX m c)) (ix2 i k)).trans ?_
    rw [KStage.xnK_eq_xnOf]
  ·
    refine (congrFun (KStage.V0_v82 (fun b => m (c, b))) (ix2 i (0 : Fin 1))).trans ?_
    exact KHost.samecntK_apply (labelsK m c) (KInt.cntK (argY m c))
      (fun i => KInt.cntK_eq_sameCount (argY m c) hlt i) i
  ·
    refine (congrFun (KStage.V0_v81 (fun b => m (c, b))) (ix2 i (0 : Fin 1))).trans ?_
    show KHost.slot0K (KStage.xnK (argX m c)) (KInt.fpK (argY m c)) (ix2 i (0 : Fin 1)) = _
    rw [KStage.xnK_eq_xnOf]
    exact KHost.slot0K_apply (rowsK m c) (labelsK m c) (Cert.PreDecode.xnOf (argX m c)) (KInt.fpK (argY m c))
      (fun _ _ => rfl) (fun i hne => KInt.fpK_of_nonempty (argY m c) hlt i hne)
      (fun i hne => (KInt.fpK_of_empty (argY m c) hlt i hne).trans (by decide)) i

theorem out_row [Cert.Pre_finite_inputs.Facts] (hpre : Cert.Pre_KernelIdeal m) (c : Dev nD) (i : Fin 4096) :
    (Run.OUT m c : FVec Ideal S4096x1 .f32) (ix2 i (0 : Fin 1)) = Cert.CLCE.rowE (rowsK m c) (labelsK m c) i := by
  have hlt : ∀ i : Fin 4096, (argY m c (ix1 i)).toNat < 512 := fun i =>
    Cert.PreDecode.y_toNat_lt (argX m c) (argY m c) (m ((c.tc : Thread nD τ).loc main_arg2)) (hpre c) (ix1 i)
  unfold Run.OUT
  exact KFin.final_apply Run.q (arrays m c hlt) i

theorem kernel_value [Cert.KernelIdeal.Facts] [Cert.Pre_finite_inputs.Facts]
    (m : (ℓ : Loc nD τ sig) → Buf (Elt Ideal) ℓ) (ρ : Dev nD → PrngReg) (hpre : Cert.Pre_KernelIdeal m) :
    ∃ OUT : Dev nD → FVec Ideal S4096x1 .f32,
      (∀ (c : Dev nD) (i : Fin 4096), OUT c (ix2 i 0)
          = Cert.CLCE.rowE (fun i k => Cert.PreDecode.xnOf (m ((c.tc : Thread nD τ).loc main_arg0)) (ix2 i k))
              (fun i => m ((c.tc : Thread nD τ).loc main_arg1) (ix1 i)) i)
      ∧ θ_run (defs (F := Ideal)) (onTc (τ := τ) (main (F := Ideal))) ⟨m, fun _ => 0, ρ⟩ (fun r => ∀ c : Dev nD,
          r.2.mem ((c.tc : Thread nD τ).loc main_v94)
            = Cert.CLCE.Tails.kernelTail (F := Ideal) (OUT c) (m ((c.tc : Thread nD τ).loc main_arg2))
                (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) := by
  refine ⟨fun c => Run.OUT m c, fun c i => out_row m hpre c i, ?_⟩

  refine (θ_run (defs (F := Ideal)) _ _).mono (fun r h c => ⟨(h c).1.trans ?_, (h c).2⟩) (Run.run_main (F := Ideal) m ρ)
  refine (KStage.tail_v94 (Run.Vout m c)).trans ?_
  rw [Run.Vout_v83 m c, Run.Vout_of_ne m c main_arg2 (by decide), Run.Vout_of_ne m c main_arg1 (by decide),
    Run.V0_arg2 m c, Run.V0_arg1 m c]

end Cert.KernelIdeal.KVal

end
-- ==== Proof.KBodyBits.lean ====
import proofs.«401202_j76493367542062_3_alg».proof.Proof.Gen.Kernel
import proofs.«401202_j76493367542062_3_alg».proof.Proof.Gen.Kernel.Skeleton
import proofs.«401202_j76493367542062_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (q : Fin cfg0.W → PosShare TreeShare)

theorem N_0 : cfg0.N = 16 := by decide

abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

theorem off0 : (![0, 0] : Fin 2 → ℕ) = fun _ => 0 := by funext a; fin_cases a <;> rfl

theorem readAt_unread0 {S : Shape} {e : EltTy} (m : Memref sig .tc .vmem S e) (h : m.IsWhole)
    {off : Fin S.rank → ℕ} (ho : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero ho]

theorem read_writes_cons0 {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

theorem bigSep_W {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem liveAt : ∀ (w : Fin cfg0.W) (t : Fin cfg0.N), w ≠ 6 → cfg0.idle w (grid0.coords t) = false := by decide +kernel
theorem idleAt6 : ∀ t : Fin cfg0.N, ¬cond2 (grid0.coords t) → cfg0.idle 6 (grid0.coords t) = true := by decide +kernel
theorem noFlush6 : ∀ t : Fin cfg0.N, ¬cond2 (grid0.coords t) → (cfg0.win 6).flush t = false := by decide +kernel
theorem liveAt6 : ∀ t : Fin cfg0.N, cond2 (grid0.coords t) → cfg0.idle 6 (grid0.coords t) = false := by decide +kernel

abbrev ms0 (t : Fin cfg0.N) : Memref sig .tc .vmem S1024x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .i32 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x1 .f32 := win0_4.stage (cfg0.slots t 4)
abbrev ms5 (t : Fin cfg0.N) : Memref sig .tc .vmem S1024x1 .f32 := win0_5.stage (cfg0.slots t 5)
abbrev ms6 (t : Fin cfg0.N) : Memref sig .tc .vmem S1024x1 .f32 := win0_6.stage (cfg0.slots t 6)
abbrev scM : Memref sig .tc .vmem S1024x1 .f32 := Memref.whole cc0_scratch0

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def scrAt (c : Dev nD) : (n : ℕ) → n < cfg0.N → Vec F S1024x1 .f32
  | 0, hn => k0_pay2 (iblk V c 2 ⟨0, hn⟩) (iblk V c 3 ⟨0, hn⟩) (iblk V c 0 ⟨0, hn⟩) (iblk V c 1 ⟨0, hn⟩) (k0_pay1 (F := F))
  | n + 1, hn =>
    if (n + 1) % 4 = 0 then
      k0_pay2 (iblk V c 2 ⟨n + 1, hn⟩) (iblk V c 3 ⟨n + 1, hn⟩) (iblk V c 0 ⟨n + 1, hn⟩) (iblk V c 1 ⟨n + 1, hn⟩) (k0_pay1 (F := F))
    else
      k0_pay2 (iblk V c 2 ⟨n + 1, hn⟩) (iblk V c 3 ⟨n + 1, hn⟩) (iblk V c 0 ⟨n + 1, hn⟩) (iblk V c 1 ⟨n + 1, hn⟩) (scrAt c n (Nat.lt_of_succ_lt hn))

def outAt (c : Dev nD) (t : Fin cfg0.N) : Vec F S1024x1 .f32 :=
  k0_pay3 (iblk V c 5 t) (scrAt V c t.val t.isLt) (iblk V c 4 t) (iblk V c 5 t)

theorem scrAt_A (c : Dev nD) (t : Fin cfg0.N) (h0 : t.val % 4 = 0) :
    scrAt V c t.val t.isLt = k0_pay2 (iblk V c 2 t) (iblk V c 3 t) (iblk V c 0 t) (iblk V c 1 t) (k0_pay1 (F := F)) := by
  obtain ⟨n, hn⟩ := t
  cases n with
  | zero => rfl
  | succ n => exact (if_pos h0).trans rfl

theorem scrAt_BC (c : Dev nD) (t : Fin cfg0.N) (h0 : ¬t.val % 4 = 0) :
    scrAt V c t.val t.isLt = k0_pay2 (iblk V c 2 t) (iblk V c 3 t) (iblk V c 0 t) (iblk V c 1 t)
      (scrAt V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS (c : Dev nD) : (n : ℕ) → n ≤ cfg0.N → sProp 𝕄
  | 0, _ => iprop(∃ d, owns (c : Thread nD τ) scM fullShare d)
  | n + 1, hn => owns (c : Thread nD τ) scM fullShare (scrAt V c n hn)

-- Past the first point the scratch column holds the running sums of the point before; at the first point it holds anything.
theorem PhiS_elim (c : Dev nD) (n : ℕ) (h : n ≤ cfg0.N) :
    PhiS V c n h ⊢ iprop(∃ xs, ⌜∀ hz : n ≠ 0, xs = scrAt V c (n - 1) (by omega)⌝ ∗ owns (c : Thread nD τ) scM fullShare xs) := by
  cases n with
  | zero =>
    show iprop(∃ d, owns (c : Thread nD τ) scM fullShare d) ⊢ _
    iintro ⟨%d, H⟩; iexists d; isplitr; · ipureintro; exact fun hz => absurd rfl hz
    iexact H
  | succ n =>
    show owns (c : Thread nD τ) scM fullShare (scrAt V c n h) ⊢ _
    iintro H; iexists (scrAt V c n h); isplitr; · ipureintro; exact fun _ => rfl
    iexact H

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := q
  owed _ := 0

theorem Phi_zero (c : Dev nD) : (dats V q c).Φ 0 = iprop(∃ d, owns (c : Thread nD τ) scM fullShare d) := rfl
theorem Phi_succ (c : Dev nD) (t : Fin cfg0.N) :
    (dats V q c).Φ t.succ = owns (c : Thread nD τ) scM fullShare (scrAt V c t.val t.isLt) := rfl

theorem Phi_castSucc (c : Dev nD) (t : Fin cfg0.N) :
    (dats V q c).Φ t.castSucc = PhiS V c t.val (Nat.le_of_lt t.isLt) := by
  dsimp only [dats]; simp only [Fin.coe_castSucc]
theorem Phi_last (c : Dev nD) :
    (dats V q c).Φ (Fin.last cfg0.N) = owns (c : Thread nD τ) scM fullShare (scrAt V c 15 (by rw [N_0]; decide)) :=
  Phi_succ V q c ⟨15, by rw [N_0]; decide⟩

theorem after6 (c : Dev nD) (t : Fin cfg0.N) : (dats V q c).after 6 t = outAt V c t := by dsimp only [dats]

theorem before0 (c : Dev nD) (t : Fin cfg0.N) (d) : (dats V q c).before 0 t d = iblk V c 0 t :=
  ((dats V q c).before_in_eq_fetched 0 rfl (fun _ => rfl) (fun _ _ _ => rfl) (fun _ => rfl) t d).trans rfl
theorem before1 (c : Dev nD) (t : Fin cfg0.N) (d) : (dats V q c).before 1 t d = iblk V c 1 t :=
  ((dats V q c).before_in_eq_fetched 1 rfl (fun _ => rfl) (fun _ _ _ => rfl) (fun _ => rfl) t d).trans rfl
theorem before2 (c : Dev nD) (t : Fin cfg0.N) (d) : (dats V q c).before 2 t d = iblk V c 2 t :=
  ((dats V q c).before_in_eq_fetched 2 rfl (fun _ => rfl) (fun _ _ _ => rfl) (fun _ => rfl) t d).trans rfl
theorem before3 (c : Dev nD) (t : Fin cfg0.N) (d) : (dats V q c).before 3 t d = iblk V c 3 t :=
  ((dats V q c).before_in_eq_fetched 3 rfl (fun _ => rfl) (fun _ _ _ => rfl) (fun _ => rfl) t d).trans rfl
theorem before4 (c : Dev nD) (t : Fin cfg0.N) (d) : (dats V q c).before 4 t d = iblk V c 4 t :=
  ((dats V q c).before_in_eq_fetched 4 rfl (fun _ => rfl) (fun _ _ _ => rfl) (fun _ => rfl) t d).trans rfl
theorem before5 (c : Dev nD) (t : Fin cfg0.N) (d) : (dats V q c).before 5 t d = iblk V c 5 t :=
  ((dats V q c).before_in_eq_fetched 5 rfl (fun _ => rfl) (fun _ _ _ => rfl) (fun _ => rfl) t d).trans rfl

theorem leaves_in (c : Dev nD) (w : Fin cfg0.W) (hw : w ≠ 6) (t : Fin cfg0.N) :
    (dats V q c).leavesExact w t = owns (c : Thread nD τ) ((cfg0.win w).stage (cfg0.slots t w)) fullShare ((dats V q c).after w t) := by
  unfold Dat.leavesExact; rw [liveAt w t hw]

-- One step: the scratch restarts from zero when ci = 0, gains this point's masked row sums, and the result block is written only when ci = 3.
set_option maxHeartbeats 3000000 in
theorem run (c : Dev nD) (i : grid0.Coords) (a2 : Memref sig .tc .vmem S1024x1 .i32) (h2 : a2.IsWhole) (a3 : Memref sig .tc .vmem S1x1024 .i32) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole) (h12 : cond1 i → ¬cond2 i)
    (x0 : Vec F S1024x1 .i32) (x1 : Vec F S1x1024 .i32) (x2 x3 : Vec F S1024x1024 .bf16) (x4 x5 xo xs : Vec F S1024x1 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare (if cond2 i then k0_pay3 x5 (k0_pay2 x2 x3 x0 x1 (if cond1 i then k0_pay1 else xs)) x4 x5 else xo) ∗ owns (c : Thread nD τ) a9 fullShare (k0_pay2 x2 x3 x0 x1 (if cond1 i then k0_pay1 else xs))) -∗ K ⟨⟩))
      ⊢ wp frame (wpE (defs₀ (F := F)) Variants.none c none) E (cc0__clce_kernel i a2 h2 a3 h3 a4 h4 a5 h5 a6 h6 a7 h7 a8 h8 a9 h9) K := by
  by_cases hc1 : cond1 i <;> by_cases hc2 : cond2 i
  · exact absurd hc2 (h12 hc1)
  all_goals
  first | rw [if_pos hc1] | rw [if_neg hc1]
  first | rw [if_pos hc2] | rw [if_neg hc2]
  simp only [cc0__clce_kernel_eq_skeleton]; unfold cc0__clce_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hf9
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr
    swap; · iexact H6
    ipureintro
    first
    | exact h8.read_unread _
    | sl_unfold_run_names
      rw [read_writes_cons0 _ _ off0, View.readCov_unit_zero _ off0, readAt_unread0 _ h7 off0, readAt_unread0 _ h6 off0,
        readAt_unread0 _ h4 off0, readAt_unread0 _ h5 off0, readAt_unread0 _ h2 off0, readAt_unread0 _ h3 off0, readAt_unread0 _ h9 off0]
  iexists _; isplitr
  swap; · iexact H9
  ipureintro
  try sl_unfold_run_names
  rw [read_writes_cons0 _ _ off0, readAt_unread0 _ h4 off0, readAt_unread0 _ h5 off0, readAt_unread0 _ h2 off0, readAt_unread0 _ h3 off0]
  first | rw [View.readCov_unit_zero _ off0] | rw [readAt_unread0 _ h9 off0]

def bodyPre (c : Dev nD) (t : Fin cfg0.N) : sProp 𝕄 :=
  iprop((dats V q c).Φ t.castSucc ∗ (dats V q c).owesAt () t.castSucc
    ∗ (∃ d, owns (c : Thread nD τ) (ms0 t) fullShare ((dats V q c).before 0 t d))
    ∗ (∃ d, owns (c : Thread nD τ) (ms1 t) fullShare ((dats V q c).before 1 t d))
    ∗ (∃ d, owns (c : Thread nD τ) (ms2 t) fullShare ((dats V q c).before 2 t d))
    ∗ (∃ d, owns (c : Thread nD τ) (ms3 t) fullShare ((dats V q c).before 3 t d))
    ∗ (∃ d, owns (c : Thread nD τ) (ms4 t) fullShare ((dats V q c).before 4 t d))
    ∗ (∃ d, owns (c : Thread nD τ) (ms5 t) fullShare ((dats V q c).before 5 t d))
    ∗ (∃ d, owns (c : Thread nD τ) (ms6 t) fullShare ((dats V q c).before 6 t d)))

def bodyPost (c : Dev nD) (t : Fin cfg0.N) : sProp 𝕄 :=
  iprop((dats V q c).Φ t.succ ∗ (dats V q c).owesAt () t.succ
    ∗ (dats V q c).leavesExact 0 t ∗ (dats V q c).leavesExact 1 t ∗ (dats V q c).leavesExact 2 t
    ∗ (dats V q c).leavesExact 3 t ∗ (dats V q c).leavesExact 4 t ∗ (dats V q c).leavesExact 5 t
    ∗ (dats V q c).leavesExact 6 t)

-- The result block is the closed form when ci = 3 and is left as found otherwise.
theorem leaves_out (c : Dev nD) (t : Fin cfg0.N) (d) :
    owns (c : Thread nD τ) (ms6 t) fullShare (if cond2 (grid0.coords t) then outAt V c t else (dats V q c).before 6 t d)
      ⊢ (dats V q c).leavesExact 6 t := by
  by_cases hc2 : cond2 (grid0.coords t)
  · rw [if_pos hc2]; unfold Dat.leavesExact; rw [liveAt6 t hc2, after6]
  · rw [if_neg hc2, Dat.leavesExact_idle (dats V q c) 6 t (idleAt6 t hc2) (noFlush6 t hc2)]
    iintro H; iexists _; iexact H

-- Both conditions are functions of t mod 4, so the one step above serves every grid point.
set_option maxHeartbeats 1600000 in
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0, before1, before2, before3, before4, before5]
  rw [show (dats V q c).owesAt () t.succ = (dats V q c).owesAt () t.castSucc from rfl, Phi_succ, Phi_castSucc,
    show _ = owns (c : Thread nD τ) (ms0 t) fullShare (iblk V c 0 t) from leaves_in V q c 0 (by decide) t,
    show _ = owns (c : Thread nD τ) (ms1 t) fullShare (iblk V c 1 t) from leaves_in V q c 1 (by decide) t,
    show _ = owns (c : Thread nD τ) (ms2 t) fullShare (iblk V c 2 t) from leaves_in V q c 2 (by decide) t,
    show _ = owns (c : Thread nD τ) (ms3 t) fullShare (iblk V c 3 t) from leaves_in V q c 3 (by decide) t,
    show _ = owns (c : Thread nD τ) (ms4 t) fullShare (iblk V c 4 t) from leaves_in V q c 4 (by decide) t,
    show _ = owns (c : Thread nD τ) (ms5 t) fullShare (iblk V c 5 t) from leaves_in V q c 5 (by decide) t]
  iintro ⟨HS, Ho, ⟨%d0, H0⟩, ⟨%d1, H1⟩, ⟨%d2, H2⟩, ⟨%d3, H3⟩, ⟨%d4, H4⟩, ⟨%d5, H5⟩, ⟨%d6, H6⟩⟩
  ihave HS := (PhiS_elim V c _ _) $$ HS
  icases HS with ⟨%xs, %hxs, HS⟩
  have e : k0_pay2 (iblk V c 2 t) (iblk V c 3 t) (iblk V c 0 t) (iblk V c 1 t) (if cond1 (grid0.coords t) then k0_pay1 else xs)
      = scrAt V c t.val t.isLt := by
    by_cases h0 : t.val % 4 = 0
    · rw [if_pos ((hcond1 t).mpr h0), scrAt_A V c t h0]
    · rw [if_neg fun h => h0 ((hcond1 t).mp h), scrAt_BC V c t h0, hxs fun h => h0 (by rw [h])]
  iapply (run c (grid0.coords t) _ _ _ _ _ _ _ _ _ _ _ _ _ _ _ _
    (fun h1 h2 => by have := (hcond1 t).mp h1; have := (hcond2 t).mp h2; omega)
    (iblk V c 0 t) (iblk V c 1 t) (iblk V c 2 t) (iblk V c 3 t) (iblk V c 4 t) (iblk V c 5 t) ((dats V q c).before 6 t d6) xs Set.univ _)
  rw [e, show k0_pay3 (iblk V c 5 t) (scrAt V c t.val t.isLt) (iblk V c 4 t) (iblk V c 5 t) = outAt V c t from rfl]
  iframe H0 H1 H2 H3 H4 H5 H6 HS
  iintro ⟨H0, H1, H2, H3, H4, H5, H6, HS⟩
  iframe HS Ho H0 H1 H2 H3 H4 H5
  iapply (leaves_out V q c t d6); iexact H6

theorem body_obligation_exact (c : Dev nD) :
    BodyObligation (dats V q c) (defs₀ (F := F)) Variants.none () Set.univ := fun t => by
  rw [bigSep_W, bigSep_W]
  exact sound_body V q c t

theorem body_obligation : ∀ c : Dev nD,
    BodyObligationLoose (dats V q c) (defs₀ (F := F)) Variants.none () Set.univ :=
  fun c => (body_obligation_exact V q c).loose

end Cert.Kernel.Body

end
-- ==== Proof.KRunPiecesBits.lean ====
import proofs.«401202_j76493367542062_3_alg».proof.Proof.KBodyBits
import proofs.«401202_j76493367542062_3_alg».proof.Proof.KLaunchBits

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))
  (q : Fin cfg0.W → PosShare TreeShare)

theorem hin (c : Dev nD) : (iprop(emp ∗ Pipeline.scopedRest spec0 c) : sProp 𝕄) ⊢ (Body.dats V q c).Φ 0 := by
  rw [Body.Phi_zero, scopedRest0_eq]
  simp only [Body.scM, owns_whole]
  iintro ⟨-, H⟩
  iexact H

theorem hout (c : Dev nD) : (Body.dats V q c).Φ (Fin.last cfg0.N) ⊢ (iprop(emp ∗ Pipeline.scopedRest spec0 c) : sProp 𝕄) := by
  rw [Body.Phi_last, scopedRest0_eq]
  simp only [Body.scM, owns_whole]
  iintro H
  isplitr
  · iempintro
  iexists _; iexact H

end Cert.Kernel.Run

end
-- ==== Proof.KSplitBits.lean ====
import proofs.«401202_j76493367542062_3_alg».proof.Proof.KBodyBits
import Idealize.ShloMosaic.Lib.Pipeline.Kit

set_option maxRecDepth 16384

noncomputable section

namespace Cert.Kernel.Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

def q : Fin cfg0.W → PosShare TreeShare :=
  fun w => if w = 2 then fullShare.left else if w = 3 then fullShare.right else fullShare

theorem arr_whole (w : Fin 7) : (spec0 w).arr.IsWhole := by fin_cases w <;> exact Memref.isWhole_whole _

theorem arrays_eq (c : Dev nD)
    (Fw : (w : Fin cfg0.W) → Buf (Elt F) ((cfg0.win w).arr.view.loc (c.tc : Thread nD τ))) :
    ((Body.dats V q c).arrays Fw : sProp 𝕄)
      = bigSep Finset.univ fun w : Fin 7 =>
          ((c.tc : Thread nD τ).loc (Pipeline.arrRef spec0 w) ↦{(Body.dats V q c).share w} Fw w : sProp 𝕄) := by
  unfold Pipeline.Dat.arrays
  exact bigSep_congr fun w _ => by rw [(arr_whole w).set_eq_univ]

theorem v4_halves (c : Dev nD) (f : Buf (Elt F) ((c.tc : Thread nD τ).loc main_v4)) :
    ((c.tc : Thread nD τ).loc main_v4 ↦{fullShare} f : sProp 𝕄)
      ⊣⊢ iprop(((c.tc : Thread nD τ).loc main_v4 ↦{fullShare.left} f) ∗ ((c.tc : Thread nD τ).loc main_v4 ↦{fullShare.right} f)) :=
  pointsTo_share (PosShare.mem_left_op_right fullShare)

theorem hsplit (c : Dev nD) :
    (Pipeline.arrBufs spec0 c (V c) : sProp 𝕄) ⊢ (Body.dats V q c).arrays ((Body.dats V q c).arrAt · 0) := by
  rw [arrays_eq]
  unfold Pipeline.arrBufs
  rw [bigSep_eq_bigSepL_of_eq [main_v5, main_v6, main_v4, main_v82, main_v81, main_v83] (by decide) (by decide),
    bigSep_univ_eq_bigSepL [(0 : Fin 7), 1, 2, 3, 4, 5, 6] (by decide) (by decide)]
  show iprop(_ ∗ _ ∗ _ ∗ _ ∗ _ ∗ ((c.tc : Thread nD τ).loc main_v83 ↦{fullShare} V c main_v83))
    ⊢ (iprop(((c.tc : Thread nD τ).loc main_v5 ↦{fullShare} V c main_v5) ∗ ((c.tc : Thread nD τ).loc main_v6 ↦{fullShare} V c main_v6)
      ∗ ((c.tc : Thread nD τ).loc main_v4 ↦{fullShare.left} V c main_v4) ∗ ((c.tc : Thread nD τ).loc main_v4 ↦{fullShare.right} V c main_v4)
      ∗ ((c.tc : Thread nD τ).loc main_v82 ↦{fullShare} V c main_v82) ∗ ((c.tc : Thread nD τ).loc main_v81 ↦{fullShare} V c main_v81)
      ∗ ((c.tc : Thread nD τ).loc main_v83 ↦{fullShare} V c main_v83)) : sProp 𝕄)
  have hs := (v4_halves c (V c main_v4)).1
  iintro ⟨H5, H6, H4, H82, H81, H83⟩
  ihave H4' := hs $$ H4
  icases H4' with ⟨H4l, H4r⟩
  iframe H5 H6 H4l H4r H82 H81 H83

end Cert.Kernel.Run

end
-- ==== Proof.KRunKeepsBits.lean ====
import proofs.«401202_j76493367542062_3_alg».proof.Proof.KLaunchBits

noncomputable section

namespace Cert.Kernel.Run

open Cert.Kernel Cert.Kernel.Gen
open Idealize.ShloMosaic Idealize.ShloMosaic.TcCoe
open Idealize.SL Idealize.SL.Sem

variable {F : FTy → Type} [FloatOps F]

abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

def Keeps (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes

local macro "keeps_list" : tactic => `(tactic|
  (simp only [List.Forall, Keeps]
   (repeat' constructor) <;>
     (simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.mem_singleton]
      exact StableHlo.devRef_ne_of_ne (by decide))))

theorem keeps_hostOps0 : (hostOps0 : List (HloOp τ sig (Elt F))).Forall Keeps := by keeps_list
theorem keeps_hostOps0_1 : (hostOps0_1 : List (HloOp τ sig (Elt F))).Forall Keeps := by keeps_list
theorem keeps_hostOps0_2 : (hostOps0_2 : List (HloOp τ sig (Elt F))).Forall Keeps := by keeps_list
theorem keeps_hostOps0_3 : (hostOps0_3 : List (HloOp τ sig (Elt F))).Forall Keeps := by keeps_list
theorem keeps_hostOps0_4 : (hostOps0_4 : List (HloOp τ sig (Elt F))).Forall Keeps := by keeps_list
theorem keeps_hostOps0_5 : (hostOps0_5 : List (HloOp τ sig (Elt F))).Forall Keeps := by keeps_list
theorem keeps_hostOps0_6 : (hostOps0_6 : List (HloOp τ sig (Elt F))).Forall Keeps := by keeps_list
theorem keeps_hostOps0_7 : (hostOps0_7 : List (HloOp τ sig (Elt F))).Forall Keeps := by keeps_list
theorem keeps_hostOps0_8 : (hostOps0_8 : List (HloOp τ sig (Elt F))).Forall Keeps := by keeps_list
theorem keeps_hostOps0_9 : (hostOps0_9 : List (HloOp τ sig (Elt F))).Forall Keeps := by keeps_list
theorem keeps_hostOps0_10 : (hostOps0_10 : List (HloOp τ sig (Elt F))).Forall Keeps := by keeps_list
theorem keeps_hostOps0_11 : (hostOps0_11 : List (HloOp τ sig (Elt F))).Forall Keeps := by keeps_list
theorem keeps_hostOps0_12 : (hostOps0_12 : List (HloOp τ sig (Elt F))).Forall Keeps := by keeps_list
theorem keeps_hostOps0_13 : (hostOps0_13 : List (HloOp τ sig (Elt F))).Forall Keeps := by keeps_list

theorem flatten_keeps {Ls : List (List (HloOp τ sig (Elt F)))} (h : ∀ l ∈ Ls, l.Forall Keeps) :
    ∀ op ∈ List.flatten Ls, Keeps op := by
  intro op hop
  obtain ⟨l, hl, hopl⟩ := List.mem_flatten.mp hop
  exact List.forall_iff_forall_mem.mp (h l hl) op hopl

theorem pre_all : ∀ op ∈ List.flatten (pre (F := F)), Keeps op :=
  flatten_keeps fun l hl => by
    simp only [pre, List.mem_cons, List.mem_nil_iff, or_false] at hl
    rcases hl with rfl | rfl | rfl | rfl | rfl | rfl | rfl | rfl | rfl | rfl | rfl | rfl | rfl | rfl
    exacts [keeps_hostOps0, keeps_hostOps0_1, keeps_hostOps0_2, keeps_hostOps0_3, keeps_hostOps0_4, keeps_hostOps0_5, keeps_hostOps0_6, keeps_hostOps0_7, keeps_hostOps0_8, keeps_hostOps0_9, keeps_hostOps0_10, keeps_hostOps0_11, keeps_hostOps0_12, keeps_hostOps0_13]

theorem pre_keeps_arg0 (W : Valuation τ sig (Elt F)) :
    StableHlo.after (List.flatten pre) W (Proc.devRef .tc main_arg0) = W (Proc.devRef .tc main_arg0) :=
  StableHlo.after_of_forall_not_mem _ W fun op hop => (pre_all op hop).1

theorem pre_keeps_arg1 (W : Valuation τ sig (Elt F)) :
    StableHlo.after (List.flatten pre) W (Proc.devRef .tc main_arg1) = W (Proc.devRef .tc main_arg1) :=
  StableHlo.after_of_forall_not_mem _ W fun op hop => (pre_all op hop).2.1

theorem pre_keeps_arg2 (W : Valuation τ sig (Elt F)) :
    StableHlo.after (List.flatten pre) W (Proc.devRef .tc main_arg2) = W (Proc.devRef .tc main_arg2) :=
  StableHlo.after_of_forall_not_mem _ W fun op hop => (pre_all op hop).2.2

end Cert.Kernel.Run

end
-- ==== Proof.KTailBits.lean ====
import proofs.«401202_j76493367542062_3_alg».proof.Proof.KLaunchBits
import Idealize.ShloMosaic.Lib.Pipeline.FrameSuffix

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

abbrev tailOpss : List (List (HloOp τ sig (Elt F))) := [hostOps1, hostOps1_1, hostOps1_2, hostOps1_3, hostOps1_4]

abbrev restR : Finset (Ref sig .tc) := Pipeline.restRefs sig spec0

def tailS : Finset (DevRef τ sig) :=
  (insert main_v83 restR).map ⟨Proc.devRef (sig := sig) .tc, Proc.devRef_injective _⟩

theorem v83_not_rest : main_v83 ∉ (restR : Finset (Ref sig .tc)) := by
  decide

section

variable (V0 : Valuation τ sig (Elt F)) (a6 : (Proc.devRef (τ := τ) .tc main_v83).ty.Contents (Elt F))

def exitVal :
    Valuation τ sig (Elt F) :=
  Function.update V0 (Proc.devRef .tc main_v83) a6

theorem exitVal_out :
    exitVal V0 a6 (Proc.devRef .tc main_v83) = a6 := by
  unfold exitVal; exact Function.update_self _ _ _

theorem exitVal_of_ne (b : Ref sig .tc) (h : b ≠ main_v83) : exitVal V0 a6 (Proc.devRef .tc b) = V0 (Proc.devRef .tc b) := by
  unfold exitVal; exact Function.update_of_ne (StableHlo.devRef_ne_of_ne h) _ _

theorem rest_exitVal (c : Dev nD) :
    (Pipeline.unscopedRest spec0 c (fun b => exitVal V0 a6 (Proc.devRef .tc b)) : sProp 𝕄)
      = Pipeline.unscopedRest spec0 c (fun b => V0 (Proc.devRef .tc b)) := by
  unfold Pipeline.unscopedRest
  exact bigSep_congr fun b hb => by
    dsimp only
    rw [exitVal_of_ne V0 a6 b fun e => v83_not_rest (e ▸ hb)]

end

variable (𝒱₀ : Variants) (V0 : Dev nD → Valuation τ sig (Elt F))
  (dat : (c : Dev nD) → Dat τ (Elt F) Unit ℕ (UR sig nD τ) ℕ cfg0 c) (c : Dev nD)

def tailAfter : Valuation τ sig (Elt F) :=
  StableHlo.after (tailOpss (F := F)).flatten (exitVal (V0 c) ((dat c).arrAt 6 cfg0.N))

def tailZ' : sProp 𝕄 :=
  Pipeline.unscopedRest spec0 c (fun b => tailAfter V0 dat c (Proc.devRef .tc b))

theorem share_out :
    (dat c).share 6 = fullShare := by
  unfold Dat.share
  exact if_pos rfl

def arraysBut (A : (w : Fin cfg0.W) → Buf (Elt F) ((cfg0.win w).arr.view.loc (c.tc : Thread nD τ))) : sProp 𝕄 :=
  bigSep (Finset.univ.erase (6 : Fin cfg0.W)) fun w : Fin cfg0.W =>
    ((cfg0.win w).arr.view.loc (c.tc : Thread nD τ) ↦[(cfg0.win w).arr.view.set]{(dat c).share w} A w)

theorem arrays_split_out (A : (w : Fin cfg0.W) → Buf (Elt F) ((cfg0.win w).arr.view.loc (c.tc : Thread nD τ))) :
    ((dat c).arrays A : sProp 𝕄)
      = iprop((((c.tc : Thread nD τ).loc main_v83) ↦{fullShare} A 6) ∗ arraysBut dat c A) := by
  have hset : (cfg0.win 6).arr.view.set = Finset.univ := (arr_whole0 6).set_eq_univ
  have h6 : (((cfg0.win 6).arr.view.loc (c.tc : Thread nD τ) ↦[(cfg0.win 6).arr.view.set]{(dat c).share 6} A 6) : sProp 𝕄)
      = (((c.tc : Thread nD τ).loc main_v83) ↦{fullShare} A 6) := by
    rw [hset, share_out dat c]
  unfold Dat.arrays arraysBut
  refine (bigSep_univ_split (6 : Fin cfg0.W)).trans ?_
  exact congrArg (fun P : sProp 𝕄 => BIBase.sep P _) h6

theorem held_tailS (W : Valuation τ sig (Elt F)) :
    (StableHlo.held (c.tc : Thread nD τ) tailS W : sProp 𝕄)
      = iprop((((c.tc : Thread nD τ).loc main_v83) ↦{fullShare} W (Proc.devRef .tc main_v83))
          ∗ Pipeline.unscopedRest spec0 c (fun b => W (Proc.devRef .tc b))) := by
  unfold StableHlo.held tailS Pipeline.unscopedRest
  rw [bigSep_map, bigSep_insert v83_not_rest]
  rfl

-- The lines after the kernel touch only the result array and the buffers outside the seven arrays.
theorem mem_tailS {r : Ref sig .tc} (h : r ∈ insert main_v83 (restR : Finset (Ref sig .tc))) : Proc.devRef (τ := τ) .tc r ∈ tailS :=
  Finset.mem_map_of_mem _ h

def TailOk (op : HloOp τ sig (Elt F)) : Prop :=
  op.bufs ⊆ tailS
    ∧ (∀ r ∈ ([main_v83, main_arg0, main_arg1, main_arg2] : List (Ref sig .tc)), Proc.devRef .tc r ∉ op.writes)
    ∧ op.fresh = ∅

local macro "tail_bufs" : tactic => `(tactic|
  (simp only [StableHlo.nullary_bufs, StableHlo.unary_bufs, StableHlo.binary_bufs, StableHlo.ternary_bufs,
     StableHlo.reshape_bufs, Finset.insert_subset_iff, Finset.singleton_subset_iff]
   and_intros <;> exact mem_tailS (by decide)))

local macro "tail_writes" : tactic => `(tactic|
  (simp only [StableHlo.nullary_writes, StableHlo.unary_writes, StableHlo.binary_writes, StableHlo.ternary_writes,
     StableHlo.reshape_writes, Finset.mem_singleton, (Proc.devRef_injective _).eq_iff]
   decide))

theorem tailOk_hostOps1 : (hostOps1 : List (HloOp τ sig (Elt F))).Forall TailOk := by
  simp only [List.Forall, TailOk]; and_intros <;> first | tail_bufs | tail_writes | rfl

theorem tailOk_hostOps1_1 : (hostOps1_1 : List (HloOp τ sig (Elt F))).Forall TailOk := by
  simp only [List.Forall, TailOk]; and_intros <;> first | tail_bufs | tail_writes | rfl

theorem tailOk_hostOps1_2 : (hostOps1_2 : List (HloOp τ sig (Elt F))).Forall TailOk := by
  simp only [List.Forall, TailOk]; and_intros <;> first | tail_bufs | tail_writes | rfl

theorem tailOk_hostOps1_3 : (hostOps1_3 : List (HloOp τ sig (Elt F))).Forall TailOk := by
  simp only [List.Forall, TailOk]; and_intros <;> first | tail_bufs | tail_writes | rfl

theorem tailOk_hostOps1_4 : (hostOps1_4 : List (HloOp τ sig (Elt F))).Forall TailOk := by
  simp only [List.Forall, TailOk]; and_intros <;> first | tail_bufs | tail_writes | rfl

theorem tail_all : ∀ ops ∈ (tailOpss (F := F)), ∀ op ∈ ops, TailOk op := by
  intro ops hops
  simp only [tailOpss, List.mem_cons, List.mem_nil_iff, or_false] at hops
  rcases hops with rfl | rfl | rfl | rfl | rfl
  exacts [List.forall_iff_forall_mem.mp tailOk_hostOps1, List.forall_iff_forall_mem.mp tailOk_hostOps1_1,
    List.forall_iff_forall_mem.mp tailOk_hostOps1_2, List.forall_iff_forall_mem.mp tailOk_hostOps1_3,
    List.forall_iff_forall_mem.mp tailOk_hostOps1_4]

-- No line after the kernel writes the result array or the three arguments, so they keep their exit contents.
theorem tailAfter_keep (r : Ref sig .tc)
    (hr : r ∈ ([main_v83, main_arg0, main_arg1, main_arg2] : List (Ref sig .tc))) :
    tailAfter V0 dat c (Proc.devRef .tc r) = exitVal (V0 c) ((dat c).arrAt 6 cfg0.N) (Proc.devRef .tc r) := by
  unfold tailAfter
  refine StableHlo.after_of_forall_not_mem _ _ fun op hop => ?_
  obtain ⟨ops, hops, hop⟩ := List.mem_flatten.mp hop
  exact (tail_all ops hops op hop).2.1 r hr

set_option backward.isDefEq.respectTransparency.types false in
theorem htail (Q' : PUnit → sProp 𝕄) :
    iprop((iprop((dat c).arrays ((dat c).arrAt · cfg0.N) ∗ tailZ' V0 dat c) -∗ Q' ⟨⟩)
        ∗ boundary (c : Thread nD τ) ∗ (dat c).arrays ((dat c).arrAt · cfg0.N)
        ∗ Pipeline.unscopedRest spec0 c (fun b => V0 c (Proc.devRef .tc b)))
      ⊢ wp frame (wpE (defs (F := F)) (Variants.lift 𝒱₀) (c : Thread nD τ) none) Set.univ
          (Pipeline.chain ((tailOpss (F := F)).map StableHlo.seq)) Q' := by
  classical
  have hS : ∀ ops ∈ (tailOpss (F := F)), ∀ op ∈ ops, op.bufs ⊆ tailS := fun ops ho op h => (tail_all ops ho op h).1
  have hF : ∀ ops ∈ (tailOpss (F := F)), ∀ op ∈ ops, op.fresh = ∅ := fun ops ho op h => (tail_all ops ho op h).2.2
  have hout : StableHlo.after (tailOpss (F := F)).flatten (exitVal (V0 c) ((dat c).arrAt 6 cfg0.N)) (Proc.devRef .tc main_v83)
      = (dat c).arrAt 6 cfg0.N :=
    (tailAfter_keep V0 dat c main_v83 (by simp)).trans (exitVal_out _ _)
  unfold defs
  rw [arrays_split_out dat c, ← List.append_nil ((tailOpss (F := F)).map StableHlo.seq)]
  iintro ⟨Hk, Hb, ⟨H6, HA⟩, HZ⟩
  iapply (Pipeline.wp_seqs_then pcfgs defs₀ 𝒱₀ c tailS [] tailOpss hS hF (exitVal (V0 c) ((dat c).arrAt 6 cfg0.N))) $$ [Hb H6 HZ]
  · rw [held_tailS, exitVal_out, rest_exitVal]
    iframe Hb H6 HZ
  iintro Hb
  rw [Pipeline.chain_nil, wp_pure, held_tailS, hout]
  imodintro
  icases Hb with ⟨-, H6, HR⟩
  iapply Hk
  unfold tailZ' tailAfter
  iframe H6 HA HR

def tailQY (s : MemSt nD τ sig (Elt F)) : Prop :=
  s.mem ((c : Thread nD τ).loc main_v94) = tailAfter V0 dat c (Proc.devRef .tc main_v94)
    ∧ s.mem ((c : Thread nD τ).loc main_arg0) = V0 c (Proc.devRef .tc main_arg0)
    ∧ s.mem ((c : Thread nD τ).loc main_arg1) = V0 c (Proc.devRef .tc main_arg1)
    ∧ s.mem ((c : Thread nD τ).loc main_arg2) = V0 c (Proc.devRef .tc main_arg2)

theorem hY_tail (s' : Phys nD τ sig (Elt F)) :
    iprop((emp : sProp 𝕄) ∗ tailZ' V0 dat c ∗ SI s') ⊢ |={Set.univ}=> iprop(⌜tailQY V0 dat c s'.mem⌝ ∗ SI s') := by
  classical
  have hk : ∀ r ∈ ([main_arg0, main_arg1, main_arg2] : List (Ref sig .tc)),
      tailAfter V0 dat c (Proc.devRef .tc r) = V0 c (Proc.devRef .tc r) := fun r hr => by
    have hr' : r ∈ ([main_v83, main_arg0, main_arg1, main_arg2] : List (Ref sig .tc)) := List.mem_cons_of_mem _ hr
    have hne : r ≠ main_v83 := by
      simp only [List.mem_cons, List.mem_nil_iff, or_false] at hr
      rcases hr with rfl | rfl | rfl <;> decide
    rw [tailAfter_keep V0 dat c r hr', exitVal_of_ne _ _ r hne]
  iintro ⟨-, HU, HSI⟩
  unfold tailZ' Pipeline.unscopedRest
  imodintro
  ihave H := (pointsTo_read_all (restR : Finset (Ref sig .tc)) (fun b => (c : Thread nD τ).loc b)
    (fun b => tailAfter V0 dat c (Proc.devRef .tc b)) s') $$ [HU HSI]
  · isplitl [HU] <;> iassumption
  icases H with ⟨%h, HSI⟩
  isplitr
  · ipureintro
    exact ⟨h main_v94 (by decide), (h main_arg0 (by decide)).trans (hk main_arg0 (by simp)),
      (h main_arg1 (by decide)).trans (hk main_arg1 (by simp)), (h main_arg2 (by decide)).trans (hk main_arg2 (by simp))⟩
  · iexact HSI

end Cert.Kernel.Run

end
-- ==== Proof.KRunBits.lean ====
import proofs.«401202_j76493367542062_3_alg».proof.Proof.KLaunchBits
import proofs.«401202_j76493367542062_3_alg».proof.Proof.KBodyBits
import proofs.«401202_j76493367542062_3_alg».proof.Proof.KRunPiecesBits
import proofs.«401202_j76493367542062_3_alg».proof.Proof.KSplitBits
import proofs.«401202_j76493367542062_3_alg».proof.Proof.KRunKeepsBits
import proofs.«401202_j76493367542062_3_alg».proof.Proof.KTailBits
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev post : List (List (HloOp τ sig (Elt F))) :=
  [hostOps1, hostOps1_1, hostOps1_2, hostOps1_3, hostOps1_4]

abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
theorem post_sub : (post (F := F)).Forall fun ops => ops.Forall fun op => op.bufs ⊆ StableHlo.tcRefs τ sig :=
  ⟨hostOps1_sub, hostOps1_1_sub, hostOps1_2_sub, hostOps1_3_sub, hostOps1_4_sub⟩

theorem pre_fresh : (pre (F := F)).Forall fun ops => ops.Forall fun op => op.fresh = ∅ := by
  simp only [List.Forall]; repeat' constructor
theorem post_fresh : (post (F := F)).Forall fun ops => ops.Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain (post.map StableHlo.seq)) :=
  Pipeline.hmain_around cfgs 0 defs₀ 𝒱₀ m main pre post pre_sub pre_fresh main_chain

section Launch

variable (W₀ : Dev nD → Valuation τ sig (Elt F)) (q : Fin cfg0.W → PosShare TreeShare)
  (k : PUnit → Prog (TpuEff nD τ sig (Elt F) (Pipeline.Sig Λ₀ (Fin 1) fun p => (pcfgs (F := F) p).Adm) .tc) PUnit)

abbrev rd (c : Dev nD) (b : Ref sig .tc) : Buf (Elt F) ((c : Thread nD τ).loc b) := W₀ c (Proc.devRef .tc b)

set_option backward.isDefEq.respectTransparency.types false in

theorem run_main_of (Z' : Dev nD → sProp 𝕄) (QY : Dev nD → MemSt nD τ sig (Elt F) → Prop)
    (hmain : Pipeline.HMainK (Ix := Unit) (Name := ℕ) (U := UR sig nD τ) (Lvl := ℕ) cfgs 0 defs₀ Variants.none m (main (F := F)) (rd W₀) k)
    (hsplit : ∀ c, (Pipeline.arrBufs spec0 c (rd W₀ c) : sProp 𝕄) ⊢ (Body.dats (rd W₀) q c).arrays ((Body.dats (rd W₀) q c).arrAt · 0))
    (htail : ∀ (c : Dev nD) (Q' : PUnit → sProp 𝕄),
      iprop((iprop((Body.dats (rd W₀) q c).arrays ((Body.dats (rd W₀) q c).arrAt · cfg0.N) ∗ Z' c) -∗ Q' ⟨⟩)
          ∗ boundary (c : Thread nD τ) ∗ (Body.dats (rd W₀) q c).arrays ((Body.dats (rd W₀) q c).arrAt · cfg0.N)
          ∗ Pipeline.unscopedRest spec0 c (rd W₀ c))
        ⊢ wp frame (wpE (defs (F := F)) (Variants.lift Variants.none) (c : Thread nD τ) none) Set.univ (k ⟨⟩) Q')
    (hY : ∀ c (s' : Phys nD τ sig (Elt F)), iprop((emp : sProp 𝕄) ∗ Z' c ∗ SI s') ⊢ |={Set.univ}=> iprop(⌜QY c s'.mem⌝ ∗ SI s')) :
    θ_run defs (onTc (τ := τ) (main (F := F))) ⟨m, fun _ => 0, ρ⟩
      (fun r => ∀ c : Dev nD, (∀ w, r.2.mem ((spec0 w).arr.view.loc (c : Thread nD τ)) = (Body.dats (rd W₀) q c).arrAt w cfg0.N) ∧ QY c r.2) := by
  refine Pipeline.θ_run_region_noSem_pf_tail (Ix := Unit) (Name := ℕ) (U := UR sig nD τ) (Lvl := ℕ) (fun p => (cfgs p).toPCfg) (fun p => (cfgs p).toPCfg_adm)
    (fun (_ : Fin 1) c => Body.dats (rd W₀) q c) () cellOf_inj (0 : Fin 1) winFacts₀0 (Pipeline.PreFacts.none _) emb₁ defs₀ Variants.none
    m ρ main k
    ?hbody block_pos0 arr_whole0 stage_whole0 (fun _ _ => rfl)
    (initOf (Pipeline.cells cfgs cellOf_inj) (Pipeline.launchToks cfgs cellOf_inj)) .rfl
    (rd W₀) ?hmain ?hsplit (fun _ k => k.elim0)
    (fun _ => iprop(emp)) (fun _ => iprop(emp)) (fun c => Pipeline.unscopedRest spec0 c (rd W₀ c)) Z'
    ?hX ?hin ?hout ?htail QY ?hY ?hQ
  case hbody => exact fun c => Body.body_obligation (rd W₀) q c
  case hmain =>
    unfold Pipeline.HMainK Pipeline.HMainPK at hmain
    intro c Q
    have h1 := hmain c Q
    beta_reduce at h1
    exact h1
  case hsplit => exact hsplit
  case hX =>
    intro c
    rw [Pipeline.unscopedRestP_none]
    iintro H
    isplitr
    · iempintro
    iexact H
  case hin =>
    intro c
    refine (show _ ⊢ (iprop(emp ∗ Pipeline.scopedRest spec0 c) : sProp 𝕄) from ?_).trans (hin (rd W₀) q c)
    iintro ⟨HX, -, HR⟩
    isplitl [HX] <;> iassumption
  case hout => exact fun c => hout (rd W₀) q c
  case htail => exact htail
  case hY => exact hY
  case hQ => exact fun s h c => ⟨(h c).1, (h c).2.2⟩

end Launch

def OUT (c : Dev nD) : Buf (Elt F) ((c : Thread nD τ).loc main_v83) := (Body.dats (V m) q c).arrAt 6 cfg0.N

def Vout (c : Dev nD) : Valuation τ sig (Elt F) := exitVal (V0 m c) (OUT m c)

theorem Vout_v83 (c : Dev nD) : Vout m c (Proc.devRef .tc main_v83) = OUT m c := exitVal_out _ _
theorem Vout_of_ne (c : Dev nD) (b : Ref sig .tc) (h : b ≠ main_v83) : Vout m c (Proc.devRef .tc b) = V0 m c (Proc.devRef .tc b) :=
  exitVal_of_ne _ _ b h

theorem V0_arg0 (c : Dev nD) : V0 m c (Proc.devRef .tc main_arg0) = m (c, Proc.devRef .tc main_arg0) := pre_keeps_arg0 _
theorem V0_arg1 (c : Dev nD) : V0 m c (Proc.devRef .tc main_arg1) = m (c, Proc.devRef .tc main_arg1) := pre_keeps_arg1 _
theorem V0_arg2 (c : Dev nD) : V0 m c (Proc.devRef .tc main_arg2) = m (c, Proc.devRef .tc main_arg2) := pre_keeps_arg2 _

theorem run_main : θ_run defs (onTc (τ := τ) (main (F := F))) ⟨m, fun _ => 0, ρ⟩ (fun r => ∀ c : Dev nD,
      r.2.mem ((c : Thread nD τ).loc main_v94) = StableHlo.after (List.flatten post) (Vout m c) (Proc.devRef .tc main_v94)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
      obtain ⟨h94, h0, h1, h2⟩ := (h c).2
      exact ⟨h94, h0.trans (V0_arg0 m c), h1.trans (V0_arg1 m c), h2.trans (V0_arg2 m c)⟩)
    (run_main_of m ρ (V0 m) q (fun _ => Pipeline.chain (post.map StableHlo.seq))
      (tailZ' (V0 m) fun c => Body.dats (V m) q c) (tailQY (V0 m) fun c => Body.dats (V m) q c)
      (hmain m Variants.none) (fun c => hsplit (V m) c)
      (fun c Q' => htail Variants.none (V0 m) (fun c => Body.dats (V m) q c) c Q')
      (fun c s' => hY_tail (V0 m) (fun c => Body.dats (V m) q c) c s'))

/-- info: 'Cert.Kernel.Run.run_main' depends on axioms: [propext, Classical.choice, Quot.sound] -/
#guard_msgs in #print axioms run_main

end Cert.Kernel.Run

end
-- ==== Proof.RefReads.lean ====
import proofs.«401202_j76493367542062_3_alg».proof.Proof.RefRun

set_option maxRecDepth 100000

noncomputable section

namespace Cert.ReferenceIdeal.HRun

open Cert.ReferenceIdeal Cert.ReferenceIdeal.Gen Idealize.ShloMosaic Idealize.ShloMosaic.TcCoe Idealize.SL.Sem Idealize.ShloMosaic.StableHlo Cert.Lib.Line

variable {F : FTy → Type} [FloatOps F] (V : Valuation τ sig (Elt F))

attribute [local irreducible] Host.reduce Host.reduce2 Host.reduceAdd Host.reduceWindow Host.gather Host.scatter Host.scatterAdd
  extractStridedSlice transpose broadcastInDim concatenate iotaInDim shapeCast

theorem rd_call0_v0 : after ops V main_call0_v0 = mulf (after ops V main_arg0) (after ops V main_arg0) :=
  Writes.read_binary ops_writes wr_nodup 0 rfl (by decide) (by decide) V
theorem rd_call0_cst : after ops V main_call0_cst = constant S_ .f32 0x00000000#32 :=
  Writes.read_nullary ops_writes wr_nodup 1 rfl V
theorem rd_call0_v1 : after ops V main_call0_v1 = Host.reduceAdd (after ops V main_call0_v0) (after ops V main_call0_cst) reducesTo_S4096x1024_S4096_d1 h_S_ :=
  Writes.read_binary ops_writes wr_nodup 2 rfl (by decide) (by decide) V
theorem rd_call0_v2 : after ops V main_call0_v2 = broadcastInDim S4096x1 ![0] bcast_S4096_S4096x1_0 (after ops V main_call0_v1) :=
  Writes.read_unary ops_writes wr_nodup 3 rfl (by decide) V
theorem rd_v0 : after ops V main_v0 = Host.sqrt (after ops V main_call0_v2) :=
  Writes.read_unary ops_writes wr_nodup 4 rfl (by decide) V
theorem rd_cst : after ops V main_cst = constant S_ .f32 0x322BCC77#32 :=
  Writes.read_nullary ops_writes wr_nodup 5 rfl V
theorem rd_call1_v0 : after ops V main_call1_v0 = id (after ops V main_cst) :=
  Writes.read_unary ops_writes wr_nodup 6 rfl (by decide) V
theorem rd_call1_v1 : after ops V main_call1_v1 = broadcastInDim S4096x1 ![] bcast_S_S4096x1 (after ops V main_call1_v0) :=
  Writes.read_unary ops_writes wr_nodup 7 rfl (by decide) V
theorem rd_v1 : after ops V main_v1 = maximumf (after ops V main_call1_v1) (after ops V main_v0) :=
  Writes.read_binary ops_writes wr_nodup 8 rfl (by decide) (by decide) V
theorem rd_v2 : after ops V main_v2 = broadcastInDim S4096x1024 ![0, 1] bcast_S4096x1_S4096x1024_0_1 (after ops V main_v1) :=
  Writes.read_unary ops_writes wr_nodup 9 rfl (by decide) V
theorem rd_v3 : after ops V main_v3 = Host.divf (after ops V main_arg0) (after ops V main_v2) :=
  Writes.read_binary ops_writes wr_nodup 10 rfl (by decide) (by decide) V
theorem rd_v4 : after ops V main_v4 = transpose S1024x4096 [1, 0] (after ops V main_v3) transposes_S4096x1024_S1024x4096_1_0 :=
  Writes.read_unary ops_writes wr_nodup 11 rfl (by decide) V
theorem rd_v5 : after ops V main_v5 = Host.dotGeneral dot_S4096x1024_S1024x4096_S4096x4096_1_0_0_1_n_n none (after ops V main_v3) (after ops V main_v4) :=
  Writes.read_binary ops_writes wr_nodup 12 rfl (by decide) (by decide) V
theorem rd_cst_0 : after ops V main_cst_0 = constant S_ .f32 0x3F800000#32 :=
  Writes.read_nullary ops_writes wr_nodup 13 rfl V
theorem rd_v6 : after ops V main_v6 = broadcastInDim S4096x4096 ![] bcast_S_S4096x4096 (after ops V main_cst_0) :=
  Writes.read_unary ops_writes wr_nodup 14 rfl (by decide) V
theorem rd_v7 : after ops V main_v7 = addf (after ops V main_v5) (after ops V main_v6) :=
  Writes.read_binary ops_writes wr_nodup 15 rfl (by decide) (by decide) V
theorem rd_cst_1 : after ops V main_cst_1 = constant S_ .f32 0x3F000000#32 :=
  Writes.read_nullary ops_writes wr_nodup 16 rfl V
theorem rd_v8 : after ops V main_v8 = broadcastInDim S4096x4096 ![] bcast_S_S4096x4096 (after ops V main_cst_1) :=
  Writes.read_unary ops_writes wr_nodup 17 rfl (by decide) V
theorem rd_v9 : after ops V main_v9 = mulf (after ops V main_v7) (after ops V main_v8) :=
  Writes.read_binary ops_writes wr_nodup 18 rfl (by decide) (by decide) V
theorem rd_cst_2 : after ops V main_cst_2 = constant S_ .f32 0x3F000000#32 :=
  Writes.read_nullary ops_writes wr_nodup 19 rfl V
theorem rd_v10 : after ops V main_v10 = broadcastInDim S4096x4096 ![] bcast_S_S4096x4096 (after ops V main_cst_2) :=
  Writes.read_unary ops_writes wr_nodup 20 rfl (by decide) V
theorem rd_v11 : after ops V main_v11 = mulf (after ops V main_v9) (after ops V main_v10) :=
  Writes.read_binary ops_writes wr_nodup 21 rfl (by decide) (by decide) V
theorem rd_v12 : after ops V main_v12 = broadcastInDim S4096x1 ![0] bcast_S4096_S4096x1_0 (after ops V main_arg1) :=
  Writes.read_unary ops_writes wr_nodup 22 rfl (by decide) V
theorem rd_v13 : after ops V main_v13 = broadcastInDim S1x4096 ![1] bcast_S4096_S1x4096_1 (after ops V main_arg1) :=
  Writes.read_unary ops_writes wr_nodup 23 rfl (by decide) V
theorem rd_v14 : after ops V main_v14 = broadcastInDim S4096x4096 ![0, 1] bcast_S4096x1_S4096x4096_0_1 (after ops V main_v12) :=
  Writes.read_unary ops_writes wr_nodup 24 rfl (by decide) V
theorem rd_v15 : after ops V main_v15 = broadcastInDim S4096x4096 ![0, 1] bcast_S1x4096_S4096x4096_0_1 (after ops V main_v13) :=
  Writes.read_unary ops_writes wr_nodup 25 rfl (by decide) V
theorem rd_v16 : after ops V main_v16 = cmpi .eq (after ops V main_v14) (after ops V main_v15) :=
  Writes.read_binary ops_writes wr_nodup 26 rfl (by decide) (by decide) V
theorem rd_v17 : after ops V main_v17 = iotaInDim S4096x4096 32 0 :=
  Writes.read_nullary ops_writes wr_nodup 27 rfl V
theorem rd_v18 : after ops V main_v18 = iotaInDim S4096x4096 32 1 :=
  Writes.read_nullary ops_writes wr_nodup 28 rfl V
theorem rd_c : after ops V main_c = constantI S_ 32 0#32 :=
  Writes.read_nullary ops_writes wr_nodup 29 rfl V
theorem rd_v19 : after ops V main_v19 = broadcastInDim S4096x4096 ![] bcast_S_S4096x4096 (after ops V main_c) :=
  Writes.read_unary ops_writes wr_nodup 30 rfl (by decide) V
theorem rd_v20 : after ops V main_v20 = addi (after ops V main_v17) (after ops V main_v19) :=
  Writes.read_binary ops_writes wr_nodup 31 rfl (by decide) (by decide) V
theorem rd_v21 : after ops V main_v21 = cmpi .eq (after ops V main_v20) (after ops V main_v18) :=
  Writes.read_binary ops_writes wr_nodup 32 rfl (by decide) (by decide) V
theorem rd_v22 : after ops V main_v22 = noti (after ops V main_v21) :=
  Writes.read_unary ops_writes wr_nodup 33 rfl (by decide) V
theorem rd_v23 : after ops V main_v23 = andi (after ops V main_v16) (after ops V main_v22) :=
  Writes.read_binary ops_writes wr_nodup 34 rfl (by decide) (by decide) V
theorem rd_v24 : after ops V main_v24 = noti (after ops V main_v16) :=
  Writes.read_unary ops_writes wr_nodup 35 rfl (by decide) V
theorem rd_call2_v0 : after ops V main_call2_v0 = iotaInDim S4096x4096 32 1 :=
  Writes.read_nullary ops_writes wr_nodup 36 rfl V
theorem rd_call2_c : after ops V main_call2_c = constantI S_ 1 0#1 :=
  Writes.read_nullary ops_writes wr_nodup 37 rfl V
theorem rd_call2_c_0 : after ops V main_call2_c_0 = constantI S_ 32 0#32 :=
  Writes.read_nullary ops_writes wr_nodup 38 rfl V
theorem rd_call2_v1_0 : after ops V main_call2_v1_0 = fun j => (Host.reduce2 reducer_argmax_i1_i32 (after ops V main_v23) (after ops V main_call2_v0) (after ops V main_call2_c) (after ops V main_call2_c_0) reducesTo_S4096x4096_S4096_d1 h_S_ j).1 :=
  Writes.read_quaternary ops_writes wr_nodup 39 rfl (by decide) (by decide) (by decide) (by decide) V
theorem rd_v25 : after ops V main_v25 = fun j => (Host.reduce2 reducer_argmax_i1_i32 (after ops V main_v23) (after ops V main_call2_v0) (after ops V main_call2_c) (after ops V main_call2_c_0) reducesTo_S4096x4096_S4096_d1 h_S_ j).2 :=
  Writes.read_quaternary ops_writes wr_nodup 40 rfl (by decide) (by decide) (by decide) (by decide) V
theorem rd_c_3 : after ops V main_c_3 = constantI S_ 1 0#1 :=
  Writes.read_nullary ops_writes wr_nodup 41 rfl V
theorem rd_v26 : after ops V main_v26 = Host.reduce IntOp.ori (after ops V main_v23) (after ops V main_c_3) reducesTo_S4096x4096_S4096_d1 h_S_ :=
  Writes.read_binary ops_writes wr_nodup 42 rfl (by decide) (by decide) V
theorem rd_v27 : after ops V main_v27 = broadcastInDim S4096x1 ![0] bcast_S4096_S4096x1_0 (after ops V main_v25) :=
  Writes.read_unary ops_writes wr_nodup 43 rfl (by decide) V
theorem rd_call3_c : after ops V main_call3_c = constantI S_ 32 0#32 :=
  Writes.read_nullary ops_writes wr_nodup 44 rfl V
theorem rd_call3_v0 : after ops V main_call3_v0 = broadcastInDim S4096x1 ![] bcast_S_S4096x1 (after ops V main_call3_c) :=
  Writes.read_unary ops_writes wr_nodup 45 rfl (by decide) V
theorem rd_call3_v1 : after ops V (main_call3_v1 : DevRef τ sig) = cmpi .slt (after ops V (main_v27 : DevRef τ sig)) (after ops V (main_call3_v0 : DevRef τ sig)) := by
  have hop : (ops : List (HloOp τ sig (Elt F)))[46]? = some (binary main_v27 main_call3_v0 main_call3_v1 (cmpi .slt)) := rfl
  exact Writes.read_binary ops_writes wr_nodup 46 hop (by decide) (by decide) V
theorem rd_call3_c_0 : after ops V main_call3_c_0 = constantI S_ 32 4096#32 :=
  Writes.read_nullary ops_writes wr_nodup 47 rfl V
theorem rd_call3_v2 : after ops V main_call3_v2 = broadcastInDim S4096x1 ![] bcast_S_S4096x1 (after ops V main_call3_c_0) :=
  Writes.read_unary ops_writes wr_nodup 48 rfl (by decide) V
theorem rd_call3_v3 : after ops V main_call3_v3 = addi (after ops V main_v27) (after ops V main_call3_v2) :=
  Writes.read_binary ops_writes wr_nodup 49 rfl (by decide) (by decide) V
theorem rd_call3_v4 : after ops V main_call3_v4 = select (after ops V main_call3_v1) (after ops V main_call3_v3) (after ops V main_v27) :=
  Writes.read_ternary ops_writes wr_nodup 50 rfl (by decide) (by decide) (by decide) V
theorem rd_call3_v5 : after ops V main_call3_v5 = shapeCast S4096x1x1 (after ops V main_call3_v4) shapeCasts_S4096x1_S4096x1x1 :=
  Writes.read_reshape ops_writes wr_nodup 51 rfl (by decide) V
theorem rd_call3_c_1 : after ops V main_call3_c_1 = constantI S1 32 4095#32 :=
  Writes.read_nullary ops_writes wr_nodup 52 rfl V
theorem rd_call3_c_2 : after ops V main_call3_c_2 = constantI S_ 32 0#32 :=
  Writes.read_nullary ops_writes wr_nodup 53 rfl V
theorem rd_call3_v6 : after ops V main_call3_v6 = broadcastInDim S4096x1x1 ![] bcast_S_S4096x1x1 (after ops V main_call3_c_2) :=
  Writes.read_unary ops_writes wr_nodup 54 rfl (by decide) V
theorem rd_call3_v7 : after ops V (main_call3_v7 : DevRef τ sig) = cmpi .sge (after ops V (main_call3_v5 : DevRef τ sig)) (after ops V (main_call3_v6 : DevRef τ sig)) := by
  have hop : (ops : List (HloOp τ sig (Elt F)))[55]? = some (binary main_call3_v5 main_call3_v6 main_call3_v7 (cmpi .sge)) := rfl
  exact Writes.read_binary ops_writes wr_nodup 55 hop (by decide) (by decide) V
theorem rd_call3_v8 : after ops V main_call3_v8 = broadcastInDim S1x1x1 ![2] bcast_S1_S1x1x1_2 (after ops V main_call3_c_1) :=
  Writes.read_unary ops_writes wr_nodup 56 rfl (by decide) V
theorem rd_call3_v9 : after ops V main_call3_v9 = broadcastInDim S4096x1x1 ![0, 1, 2] bcast_S1x1x1_S4096x1x1_0_1_2 (after ops V main_call3_v8) :=
  Writes.read_unary ops_writes wr_nodup 57 rfl (by decide) V
theorem rd_call3_v10 : after ops V (main_call3_v10 : DevRef τ sig) = cmpi .sle (after ops V (main_call3_v5 : DevRef τ sig)) (after ops V (main_call3_v9 : DevRef τ sig)) := by
  have hop : (ops : List (HloOp τ sig (Elt F)))[58]? = some (binary main_call3_v5 main_call3_v9 main_call3_v10 (cmpi .sle)) := rfl
  exact Writes.read_binary ops_writes wr_nodup 58 hop (by decide) (by decide) V
theorem rd_call3_v11 : after ops V main_call3_v11 = andi (after ops V main_call3_v7) (after ops V main_call3_v10) :=
  Writes.read_binary ops_writes wr_nodup 59 rfl (by decide) (by decide) V
theorem rd_call3_c_3 : after ops V main_call3_c_3 = constantI S_ 1 1#1 :=
  Writes.read_nullary ops_writes wr_nodup 60 rfl V
theorem rd_call3_v12 : after ops V main_call3_v12 = Host.reduce IntOp.andi (after ops V main_call3_v11) (after ops V main_call3_c_3) reducesTo_S4096x1x1_S4096x1_d2 h_S_ :=
  Writes.read_binary ops_writes wr_nodup 61 rfl (by decide) (by decide) V
theorem rd_call3_v13 : after ops V main_call3_v13 = Host.gather gather_S4096x4096_S4096x1x1_S4096x1_n_1_0_0_1_2_11 (after ops V main_v11) (after ops V main_call3_v5) :=
  Writes.read_binary ops_writes wr_nodup 62 rfl (by decide) (by decide) V
theorem rd_call3_cst : after ops V main_call3_cst = constant S_ .f32 0x7FC00000#32 :=
  Writes.read_nullary ops_writes wr_nodup 63 rfl V
theorem rd_call3_v14 : after ops V main_call3_v14 = broadcastInDim S4096x1 ![] bcast_S_S4096x1 (after ops V main_call3_cst) :=
  Writes.read_unary ops_writes wr_nodup 64 rfl (by decide) V
theorem rd_v28 : after ops V main_v28 = select (after ops V main_call3_v12) (after ops V main_call3_v13) (after ops V main_call3_v14) :=
  Writes.read_ternary ops_writes wr_nodup 65 rfl (by decide) (by decide) (by decide) V
theorem rd_v29 : after ops V main_v29 = shapeCast S4096 (after ops V main_v28) shapeCasts_S4096x1_S4096 :=
  Writes.read_reshape ops_writes wr_nodup 66 rfl (by decide) V
theorem rd_cst_4 : after ops V main_cst_4 = constant S_ .f32 0x00000000#32 :=
  Writes.read_nullary ops_writes wr_nodup 67 rfl V
theorem rd_call4_v0 : after ops V main_call4_v0 = id (after ops V main_cst_4) :=
  Writes.read_unary ops_writes wr_nodup 68 rfl (by decide) V
theorem rd_call4_v1 : after ops V main_call4_v1 = broadcastInDim S4096 ![] bcast_S_S4096 (after ops V main_call4_v0) :=
  Writes.read_unary ops_writes wr_nodup 69 rfl (by decide) V
theorem rd_v30 : after ops V main_v30 = select (after ops V main_v26) (after ops V main_v29) (after ops V main_call4_v1) :=
  Writes.read_ternary ops_writes wr_nodup 70 rfl (by decide) (by decide) (by decide) V
theorem rd_call5_v0 : after ops V main_call5_v0 = extui 32 (after ops V main_v24) natLt_1_32 :=
  Writes.read_unary ops_writes wr_nodup 71 rfl (by decide) V
theorem rd_call5_call0_c : after ops V main_call5_call0_c = constantI S_ 32 0#32 :=
  Writes.read_nullary ops_writes wr_nodup 72 rfl V
theorem rd_call5_call0_v0 : after ops V main_call5_call0_v0 = broadcastInDim S_ ![] bcast_S_S_ (after ops V main_call5_call0_c) :=
  Writes.read_unary ops_writes wr_nodup 73 rfl (by decide) V
theorem rd_v31 : after ops V main_v31 = Host.reduceWindow IntOp.addi ![1, 4096] ![1, 1] ![0, 4095] ![0, 0] (after ops V main_call5_v0) (after ops V main_call5_call0_v0) reduceWindows_S4096x4096_S4096x4096_w1s1p0_0_w4096s1p4095_0 h_S_ :=
  Writes.read_binary ops_writes wr_nodup 74 rfl (by decide) (by decide) V
theorem rd_c_5 : after ops V main_c_5 = constantI S_ 32 8191#32 :=
  Writes.read_nullary ops_writes wr_nodup 75 rfl V
theorem rd_call6_v0 : after ops V main_call6_v0 = id (after ops V main_c_5) :=
  Writes.read_unary ops_writes wr_nodup 76 rfl (by decide) V
theorem rd_call6_v1 : after ops V main_call6_v1 = broadcastInDim S4096x4096 ![] bcast_S_S4096x4096 (after ops V main_call6_v0) :=
  Writes.read_unary ops_writes wr_nodup 77 rfl (by decide) V
theorem rd_v32 : after ops V main_v32 = select (after ops V main_v24) (after ops V main_v31) (after ops V main_call6_v1) :=
  Writes.read_ternary ops_writes wr_nodup 78 rfl (by decide) (by decide) (by decide) V
theorem rd_v33 : after ops V main_v33 = iotaInDim S4096 32 0 :=
  Writes.read_nullary ops_writes wr_nodup 79 rfl V
theorem rd_v34 : after ops V main_v34 = broadcastInDim S4096x1 ![0] bcast_S4096_S4096x1_0 (after ops V main_v33) :=
  Writes.read_unary ops_writes wr_nodup 80 rfl (by decide) V
theorem rd_cst_6 : after ops V main_cst_6 = constant S_ .f32 0x00000000#32 :=
  Writes.read_nullary ops_writes wr_nodup 81 rfl V
theorem rd_v35 : after ops V main_v35 = broadcastInDim S4096x8192 ![] bcast_S_S4096x8192 (after ops V main_cst_6) :=
  Writes.read_unary ops_writes wr_nodup 82 rfl (by decide) V
theorem rd_cst_7 : after ops V main_cst_7 = constant S_ .f32 0x00000000#32 :=
  Writes.read_nullary ops_writes wr_nodup 83 rfl V
theorem rd_call7_v0 : after ops V main_call7_v0 = id (after ops V main_cst_7) :=
  Writes.read_unary ops_writes wr_nodup 84 rfl (by decide) V
theorem rd_call7_v1 : after ops V main_call7_v1 = broadcastInDim S4096x4096 ![] bcast_S_S4096x4096 (after ops V main_call7_v0) :=
  Writes.read_unary ops_writes wr_nodup 85 rfl (by decide) V
theorem rd_v36 : after ops V main_v36 = select (after ops V main_v24) (after ops V main_v11) (after ops V main_call7_v1) :=
  Writes.read_ternary ops_writes wr_nodup 86 rfl (by decide) (by decide) (by decide) V
theorem rd_c_8 : after ops V main_c_8 = constantI S_ 32 0#32 :=
  Writes.read_nullary ops_writes wr_nodup 87 rfl V
theorem rd_v37 : after ops V main_v37 = broadcastInDim S4096x1 ![] bcast_S_S4096x1 (after ops V main_c_8) :=
  Writes.read_unary ops_writes wr_nodup 88 rfl (by decide) V
theorem rd_v38 : after ops V main_v38 = cmpi .slt (after ops V main_v34) (after ops V main_v37) :=
  Writes.read_binary ops_writes wr_nodup 89 rfl (by decide) (by decide) V
theorem rd_c_9 : after ops V main_c_9 = constantI S_ 32 4096#32 :=
  Writes.read_nullary ops_writes wr_nodup 90 rfl V
theorem rd_v39 : after ops V main_v39 = broadcastInDim S4096x1 ![] bcast_S_S4096x1 (after ops V main_c_9) :=
  Writes.read_unary ops_writes wr_nodup 91 rfl (by decide) V
theorem rd_v40 : after ops V main_v40 = addi (after ops V main_v34) (after ops V main_v39) :=
  Writes.read_binary ops_writes wr_nodup 92 rfl (by decide) (by decide) V
theorem rd_v41 : after ops V main_v41 = select (after ops V main_v38) (after ops V main_v40) (after ops V main_v34) :=
  Writes.read_ternary ops_writes wr_nodup 93 rfl (by decide) (by decide) (by decide) V
theorem rd_c_10 : after ops V main_c_10 = constantI S_ 32 0#32 :=
  Writes.read_nullary ops_writes wr_nodup 94 rfl V
theorem rd_v42 : after ops V main_v42 = broadcastInDim S4096x4096 ![] bcast_S_S4096x4096 (after ops V main_c_10) :=
  Writes.read_unary ops_writes wr_nodup 95 rfl (by decide) V
theorem rd_v43 : after ops V main_v43 = cmpi .slt (after ops V main_v32) (after ops V main_v42) :=
  Writes.read_binary ops_writes wr_nodup 96 rfl (by decide) (by decide) V
theorem rd_c_11 : after ops V main_c_11 = constantI S_ 32 8192#32 :=
  Writes.read_nullary ops_writes wr_nodup 97 rfl V
theorem rd_v44 : after ops V main_v44 = broadcastInDim S4096x4096 ![] bcast_S_S4096x4096 (after ops V main_c_11) :=
  Writes.read_unary ops_writes wr_nodup 98 rfl (by decide) V
theorem rd_v45 : after ops V main_v45 = addi (after ops V main_v32) (after ops V main_v44) :=
  Writes.read_binary ops_writes wr_nodup 99 rfl (by decide) (by decide) V
theorem rd_v46 : after ops V main_v46 = select (after ops V main_v43) (after ops V main_v45) (after ops V main_v32) :=
  Writes.read_ternary ops_writes wr_nodup 100 rfl (by decide) (by decide) (by decide) V
theorem rd_v47 : after ops V main_v47 = broadcastInDim S4096x4096 ![0, 1] bcast_S4096x1_S4096x4096_0_1 (after ops V main_v41) :=
  Writes.read_unary ops_writes wr_nodup 101 rfl (by decide) V
theorem rd_v48 : after ops V main_v48 = broadcastInDim S4096x4096x1 ![0, 1] bcast_S4096x4096_S4096x4096x1_0_1 (after ops V main_v47) :=
  Writes.read_unary ops_writes wr_nodup 102 rfl (by decide) V
theorem rd_v49 : after ops V main_v49 = broadcastInDim S4096x4096x1 ![0, 1] bcast_S4096x4096_S4096x4096x1_0_1 (after ops V main_v46) :=
  Writes.read_unary ops_writes wr_nodup 103 rfl (by decide) V
theorem rd_v50 : after ops V main_v50 = concatenate S4096x4096x2 2 [⟨S4096x4096x1, (after ops V main_v48)⟩, ⟨S4096x4096x1, (after ops V main_v49)⟩] concatenates_S4096x4096x1_S4096x4096x1_S4096x4096x2_d2 :=
  Writes.read_binary ops_writes wr_nodup 104 rfl (by decide) (by decide) V
theorem rd_v51 : after ops V main_v51 = Host.scatterAdd scatter_S4096x8192_S4096x4096x2_S4096x4096_n_01_01_2 (after ops V main_v35) (after ops V main_v50) (after ops V main_v36) :=
  Writes.read_ternary ops_writes wr_nodup 105 rfl (by decide) (by decide) (by decide) V
theorem rd_c_12 : after ops V main_c_12 = constantI S_ 32 0#32 :=
  Writes.read_nullary ops_writes wr_nodup 106 rfl V
theorem rd_v52 : after ops V main_v52 = broadcastInDim S1 ![] bcast_S_S1 (after ops V main_c_12) :=
  Writes.read_unary ops_writes wr_nodup 107 rfl (by decide) V
theorem rd_v53 : after ops V main_v53 = Host.scatter scatter_S4096x8192_S1_S4096_0_1_1_0 (fun _ b => b) (after ops V main_v51) (after ops V main_v52) (after ops V main_v30) :=
  Writes.read_ternary ops_writes wr_nodup 108 rfl (by decide) (by decide) (by decide) V
theorem rd_v54 : after ops V main_v54 = extractStridedSlice S4096x8191 ![0, 0] (after ops V main_v53) slices_S4096x8192_S4096x8191_0_0 :=
  Writes.read_unary ops_writes wr_nodup 109 rfl (by decide) V
theorem rd_call8_cst : after ops V main_call8_cst = constant S_ .f32 0xFF800000#32 :=
  Writes.read_nullary ops_writes wr_nodup 110 rfl V
theorem rd_call8_v0 : after ops V main_call8_v0 = Host.reduce FloatOps.maximumf (after ops V main_v54) (after ops V main_call8_cst) reducesTo_S4096x8191_S4096_d1 h_S_ :=
  Writes.read_binary ops_writes wr_nodup 111 rfl (by decide) (by decide) V
theorem rd_call8_cst_0 : after ops V main_call8_cst_0 = constant S_ .f32 0xFF800000#32 :=
  Writes.read_nullary ops_writes wr_nodup 112 rfl V
theorem rd_call8_v1 : after ops V main_call8_v1 = broadcastInDim S4096 ![] bcast_S_S4096 (after ops V main_call8_cst_0) :=
  Writes.read_unary ops_writes wr_nodup 113 rfl (by decide) V
theorem rd_call8_v2 : after ops V main_call8_v2 = maximumf (after ops V main_call8_v1) (after ops V main_call8_v0) :=
  Writes.read_binary ops_writes wr_nodup 114 rfl (by decide) (by decide) V
theorem rd_call8_v3 : after ops V main_call8_v3 = broadcastInDim S4096x1 ![0] bcast_S4096_S4096x1_0 (after ops V main_call8_v2) :=
  Writes.read_unary ops_writes wr_nodup 115 rfl (by decide) V
theorem rd_call8_v4 : after ops V main_call8_v4 = broadcastInDim S4096x8191 ![0, 1] bcast_S4096x1_S4096x8191_0_1 (after ops V main_call8_v3) :=
  Writes.read_unary ops_writes wr_nodup 116 rfl (by decide) V
theorem rd_call8_v5 : after ops V main_call8_v5 = subf (after ops V main_v54) (after ops V main_call8_v4) :=
  Writes.read_binary ops_writes wr_nodup 117 rfl (by decide) (by decide) V
theorem rd_call8_v6 : after ops V main_call8_v6 = Host.exp (after ops V main_call8_v5) :=
  Writes.read_unary ops_writes wr_nodup 118 rfl (by decide) V
theorem rd_call8_cst_1 : after ops V main_call8_cst_1 = constant S_ .f32 0x00000000#32 :=
  Writes.read_nullary ops_writes wr_nodup 119 rfl V
theorem rd_call8_v7 : after ops V main_call8_v7 = Host.reduceAdd (after ops V main_call8_v6) (after ops V main_call8_cst_1) reducesTo_S4096x8191_S4096_d1 h_S_ :=
  Writes.read_binary ops_writes wr_nodup 120 rfl (by decide) (by decide) V
theorem rd_call8_v8 : after ops V main_call8_v8 = broadcastInDim S4096x1 ![0] bcast_S4096_S4096x1_0 (after ops V main_call8_v7) :=
  Writes.read_unary ops_writes wr_nodup 121 rfl (by decide) V
theorem rd_call8_v9 : after ops V main_call8_v9 = Host.log (after ops V main_call8_v8) :=
  Writes.read_unary ops_writes wr_nodup 122 rfl (by decide) V
theorem rd_call8_v10 : after ops V main_call8_v10 = broadcastInDim S4096x8191 ![0, 1] bcast_S4096x1_S4096x8191_0_1 (after ops V main_call8_v9) :=
  Writes.read_unary ops_writes wr_nodup 123 rfl (by decide) V
theorem rd_v55 : after ops V main_v55 = subf (after ops V main_call8_v5) (after ops V main_call8_v10) :=
  Writes.read_binary ops_writes wr_nodup 124 rfl (by decide) (by decide) V
theorem rd_v56 : after ops V main_v56 = extractStridedSlice S4096x1 ![0, 0] (after ops V main_v55) slices_S4096x8191_S4096x1_0_0 :=
  Writes.read_unary ops_writes wr_nodup 125 rfl (by decide) V
theorem rd_v57 : after ops V main_v57 = shapeCast S4096 (after ops V main_v56) shapeCasts_S4096x1_S4096 :=
  Writes.read_reshape ops_writes wr_nodup 126 rfl (by decide) V
theorem rd_v58 : after ops V main_v58 = Host.negf (after ops V main_v57) :=
  Writes.read_unary ops_writes wr_nodup 127 rfl (by decide) V
theorem rd_cst_13 : after ops V main_cst_13 = constant S_ .f32 0x00000000#32 :=
  Writes.read_nullary ops_writes wr_nodup 128 rfl V
theorem rd_v59 : after ops V main_v59 = Host.reduceAdd (after ops V main_v58) (after ops V main_cst_13) reducesTo_S4096_S_d0 h_S_ :=
  Writes.read_binary ops_writes wr_nodup 129 rfl (by decide) (by decide) V
theorem rd_cst_14 : after ops V main_cst_14 = constant S_ .f32 0x45800000#32 :=
  Writes.read_nullary ops_writes wr_nodup 130 rfl V
theorem rd_v60 : after ops V main_v60 = Host.divf (after ops V main_v59) (after ops V main_cst_14) :=
  Writes.read_binary ops_writes wr_nodup 131 rfl (by decide) (by decide) V
theorem rd_call9_cst : after ops V main_call9_cst = constant S_ .f32 0xFF800000#32 :=
  Writes.read_nullary ops_writes wr_nodup 132 rfl V
theorem rd_call9_v0 : after ops V main_call9_v0 = Host.reduce FloatOps.maximumf (after ops V main_arg2) (after ops V main_call9_cst) reducesTo_S4096x512_S4096_d1 h_S_ :=
  Writes.read_binary ops_writes wr_nodup 133 rfl (by decide) (by decide) V
theorem rd_call9_cst_0 : after ops V main_call9_cst_0 = constant S_ .f32 0xFF800000#32 :=
  Writes.read_nullary ops_writes wr_nodup 134 rfl V
theorem rd_call9_v1 : after ops V main_call9_v1 = broadcastInDim S4096 ![] bcast_S_S4096 (after ops V main_call9_cst_0) :=
  Writes.read_unary ops_writes wr_nodup 135 rfl (by decide) V
theorem rd_call9_v2 : after ops V main_call9_v2 = maximumf (after ops V main_call9_v1) (after ops V main_call9_v0) :=
  Writes.read_binary ops_writes wr_nodup 136 rfl (by decide) (by decide) V
theorem rd_call9_v3 : after ops V main_call9_v3 = broadcastInDim S4096x1 ![0] bcast_S4096_S4096x1_0 (after ops V main_call9_v2) :=
  Writes.read_unary ops_writes wr_nodup 137 rfl (by decide) V
theorem rd_call9_v4 : after ops V main_call9_v4 = broadcastInDim S4096x512 ![0, 1] bcast_S4096x1_S4096x512_0_1 (after ops V main_call9_v3) :=
  Writes.read_unary ops_writes wr_nodup 138 rfl (by decide) V
theorem rd_call9_v5 : after ops V main_call9_v5 = subf (after ops V main_arg2) (after ops V main_call9_v4) :=
  Writes.read_binary ops_writes wr_nodup 139 rfl (by decide) (by decide) V
theorem rd_call9_v6 : after ops V main_call9_v6 = Host.exp (after ops V main_call9_v5) :=
  Writes.read_unary ops_writes wr_nodup 140 rfl (by decide) V
theorem rd_call9_cst_1 : after ops V main_call9_cst_1 = constant S_ .f32 0x00000000#32 :=
  Writes.read_nullary ops_writes wr_nodup 141 rfl V
theorem rd_call9_v7 : after ops V main_call9_v7 = Host.reduceAdd (after ops V main_call9_v6) (after ops V main_call9_cst_1) reducesTo_S4096x512_S4096_d1 h_S_ :=
  Writes.read_binary ops_writes wr_nodup 142 rfl (by decide) (by decide) V
theorem rd_call9_v8 : after ops V main_call9_v8 = broadcastInDim S4096x1 ![0] bcast_S4096_S4096x1_0 (after ops V main_call9_v7) :=
  Writes.read_unary ops_writes wr_nodup 143 rfl (by decide) V
theorem rd_call9_v9 : after ops V main_call9_v9 = Host.log (after ops V main_call9_v8) :=
  Writes.read_unary ops_writes wr_nodup 144 rfl (by decide) V
theorem rd_call9_v10 : after ops V main_call9_v10 = broadcastInDim S4096x512 ![0, 1] bcast_S4096x1_S4096x512_0_1 (after ops V main_call9_v9) :=
  Writes.read_unary ops_writes wr_nodup 145 rfl (by decide) V
theorem rd_v61 : after ops V main_v61 = subf (after ops V main_call9_v5) (after ops V main_call9_v10) :=
  Writes.read_binary ops_writes wr_nodup 146 rfl (by decide) (by decide) V
theorem rd_v62 : after ops V main_v62 = broadcastInDim S4096x1 ![0] bcast_S4096_S4096x1_0 (after ops V main_arg1) :=
  Writes.read_unary ops_writes wr_nodup 147 rfl (by decide) V
theorem rd_call10_c : after ops V main_call10_c = constantI S_ 32 0#32 :=
  Writes.read_nullary ops_writes wr_nodup 148 rfl V
theorem rd_call10_v0 : after ops V main_call10_v0 = broadcastInDim S4096x1 ![] bcast_S_S4096x1 (after ops V main_call10_c) :=
  Writes.read_unary ops_writes wr_nodup 149 rfl (by decide) V
theorem rd_call10_v1 : after ops V (main_call10_v1 : DevRef τ sig) = cmpi .slt (after ops V (main_v62 : DevRef τ sig)) (after ops V (main_call10_v0 : DevRef τ sig)) := by
  have hop : (ops : List (HloOp τ sig (Elt F)))[150]? = some (binary main_v62 main_call10_v0 main_call10_v1 (cmpi .slt)) := rfl
  exact Writes.read_binary ops_writes wr_nodup 150 hop (by decide) (by decide) V
theorem rd_call10_c_0 : after ops V main_call10_c_0 = constantI S_ 32 512#32 :=
  Writes.read_nullary ops_writes wr_nodup 151 rfl V
theorem rd_call10_v2 : after ops V main_call10_v2 = broadcastInDim S4096x1 ![] bcast_S_S4096x1 (after ops V main_call10_c_0) :=
  Writes.read_unary ops_writes wr_nodup 152 rfl (by decide) V
theorem rd_call10_v3 : after ops V main_call10_v3 = addi (after ops V main_v62) (after ops V main_call10_v2) :=
  Writes.read_binary ops_writes wr_nodup 153 rfl (by decide) (by decide) V
theorem rd_call10_v4 : after ops V main_call10_v4 = select (after ops V main_call10_v1) (after ops V main_call10_v3) (after ops V main_v62) :=
  Writes.read_ternary ops_writes wr_nodup 154 rfl (by decide) (by decide) (by decide) V
theorem rd_call10_v5 : after ops V main_call10_v5 = shapeCast S4096x1x1 (after ops V main_call10_v4) shapeCasts_S4096x1_S4096x1x1 :=
  Writes.read_reshape ops_writes wr_nodup 155 rfl (by decide) V
theorem rd_call10_c_1 : after ops V main_call10_c_1 = constantI S1 32 511#32 :=
  Writes.read_nullary ops_writes wr_nodup 156 rfl V
theorem rd_call10_c_2 : after ops V main_call10_c_2 = constantI S_ 32 0#32 :=
  Writes.read_nullary ops_writes wr_nodup 157 rfl V
theorem rd_call10_v6 : after ops V main_call10_v6 = broadcastInDim S4096x1x1 ![] bcast_S_S4096x1x1 (after ops V main_call10_c_2) :=
  Writes.read_unary ops_writes wr_nodup 158 rfl (by decide) V
theorem rd_call10_v7 : after ops V main_call10_v7 = cmpi .sge (after ops V main_call10_v5) (after ops V main_call10_v6) :=
  Writes.read_binary ops_writes wr_nodup 159 rfl (by decide) (by decide) V
theorem rd_call10_v8 : after ops V main_call10_v8 = broadcastInDim S1x1x1 ![2] bcast_S1_S1x1x1_2 (after ops V main_call10_c_1) :=
  Writes.read_unary ops_writes wr_nodup 160 rfl (by decide) V
theorem rd_call10_v9 : after ops V main_call10_v9 = broadcastInDim S4096x1x1 ![0, 1, 2] bcast_S1x1x1_S4096x1x1_0_1_2 (after ops V main_call10_v8) :=
  Writes.read_unary ops_writes wr_nodup 161 rfl (by decide) V
theorem rd_call10_v10 : after ops V main_call10_v10 = cmpi .sle (after ops V main_call10_v5) (after ops V main_call10_v9) :=
  Writes.read_binary ops_writes wr_nodup 162 rfl (by decide) (by decide) V
theorem rd_call10_v11 : after ops V main_call10_v11 = andi (after ops V main_call10_v7) (after ops V main_call10_v10) :=
  Writes.read_binary ops_writes wr_nodup 163 rfl (by decide) (by decide) V
theorem rd_call10_c_3 : after ops V main_call10_c_3 = constantI S_ 1 1#1 :=
  Writes.read_nullary ops_writes wr_nodup 164 rfl V
theorem rd_call10_v12 : after ops V main_call10_v12 = Host.reduce IntOp.andi (after ops V main_call10_v11) (after ops V main_call10_c_3) reducesTo_S4096x1x1_S4096x1_d2 h_S_ :=
  Writes.read_binary ops_writes wr_nodup 165 rfl (by decide) (by decide) V
theorem rd_call10_v13 : after ops V main_call10_v13 = Host.gather gather_S4096x512_S4096x1x1_S4096x1_n_1_0_0_1_2_11 (after ops V main_v61) (after ops V main_call10_v5) :=
  Writes.read_binary ops_writes wr_nodup 166 rfl (by decide) (by decide) V
theorem rd_call10_cst : after ops V main_call10_cst = constant S_ .f32 0x7FC00000#32 :=
  Writes.read_nullary ops_writes wr_nodup 167 rfl V
theorem rd_call10_v14 : after ops V main_call10_v14 = broadcastInDim S4096x1 ![] bcast_S_S4096x1 (after ops V main_call10_cst) :=
  Writes.read_unary ops_writes wr_nodup 168 rfl (by decide) V
theorem rd_v63 : after ops V main_v63 = select (after ops V main_call10_v12) (after ops V main_call10_v13) (after ops V main_call10_v14) :=
  Writes.read_ternary ops_writes wr_nodup 169 rfl (by decide) (by decide) (by decide) V
theorem rd_cst_15 : after ops V main_cst_15 = constant S_ .f32 0x00000000#32 :=
  Writes.read_nullary ops_writes wr_nodup 170 rfl V
theorem rd_v64 : after ops V main_v64 = Host.reduceAdd (after ops V main_v63) (after ops V main_cst_15) reducesTo_S4096x1_S_d0_1 h_S_ :=
  Writes.read_binary ops_writes wr_nodup 171 rfl (by decide) (by decide) V
theorem rd_cst_16 : after ops V main_cst_16 = constant S_ .f32 0x45800000#32 :=
  Writes.read_nullary ops_writes wr_nodup 172 rfl V
theorem rd_v65 : after ops V main_v65 = Host.divf (after ops V main_v64) (after ops V main_cst_16) :=
  Writes.read_binary ops_writes wr_nodup 173 rfl (by decide) (by decide) V
theorem rd_v66 : after ops V main_v66 = Host.negf (after ops V main_v65) :=
  Writes.read_unary ops_writes wr_nodup 174 rfl (by decide) V
theorem rd_cst_17 : after ops V main_cst_17 = constant S_ .f32 0x3F000000#32 :=
  Writes.read_nullary ops_writes wr_nodup 175 rfl V
theorem rd_v67 : after ops V main_v67 = mulf (after ops V main_cst_17) (after ops V main_v60) :=
  Writes.read_binary ops_writes wr_nodup 176 rfl (by decide) (by decide) V
theorem rd_cst_18 : after ops V main_cst_18 = constant S_ .f32 0x3F000000#32 :=
  Writes.read_nullary ops_writes wr_nodup 177 rfl V
theorem rd_v68 : after ops V main_v68 = mulf (after ops V main_cst_18) (after ops V main_v66) :=
  Writes.read_binary ops_writes wr_nodup 178 rfl (by decide) (by decide) V
theorem rd_v69 : after ops V main_v69 = addf (after ops V main_v67) (after ops V main_v68) :=
  Writes.read_binary ops_writes wr_nodup 179 rfl (by decide) (by decide) V

end Cert.ReferenceIdeal.HRun

end
-- ==== Proof.RefVals.lean ====
import proofs.«401202_j76493367542062_3_alg».proof.ReferenceIdeal
import proofs.«401202_j76493367542062_3_alg».proof.Proof.Spec
import Idealize.ShloMosaic.Lib.ValueIdx
import Idealize.ShloMosaic.Lib.IdealHost
import Idealize.ShloMosaic.PureOps.Ideal.Laws
import Idealize.ShloMosaic.Lib.Pipeline.Value

noncomputable section

open scoped BigOperators

namespace Cert.ReferenceIdeal.RVal

open Idealize.ShloMosaic Idealize.ShloMosaic.ValueIdx Cert.ReferenceIdeal
open Cert.ReferenceIdeal.Facts₀

variable [Facts]

section Stages

variable (xn : FVec Ideal S4096x1024 .f32) (y : IVec S4096 32)

def v4 : FVec Ideal S1024x4096 .f32 := transpose S1024x4096 [1, 0] xn transposes_S4096x1024_S1024x4096_1_0

def v5 : FVec Ideal S4096x4096 .f32 := Host.dotGeneral dot_S4096x1024_S1024x4096_S4096x4096_1_0_0_1_n_n none xn (v4 xn)
def cst_0 : FVec Ideal S_ .f32 := constant S_ .f32 0x3F800000#32
def v6 : FVec Ideal S4096x4096 .f32 := broadcastInDim S4096x4096 ![] bcast_S_S4096x4096 cst_0
def v7 : FVec Ideal S4096x4096 .f32 := addf (v5 xn) v6
def cst_1 : FVec Ideal S_ .f32 := constant S_ .f32 0x3F000000#32
def v8 : FVec Ideal S4096x4096 .f32 := broadcastInDim S4096x4096 ![] bcast_S_S4096x4096 cst_1
def v9 : FVec Ideal S4096x4096 .f32 := mulf (v7 xn) v8
def cst_2 : FVec Ideal S_ .f32 := constant S_ .f32 0x3F000000#32
def v10 : FVec Ideal S4096x4096 .f32 := broadcastInDim S4096x4096 ![] bcast_S_S4096x4096 cst_2

def v11 : FVec Ideal S4096x4096 .f32 := mulf (v9 xn) v10

def v12 : IVec S4096x1 32 := broadcastInDim S4096x1 ![0] bcast_S4096_S4096x1_0 y
def v13 : IVec S1x4096 32 := broadcastInDim S1x4096 ![1] bcast_S4096_S1x4096_1 y
def v14 : IVec S4096x4096 32 := broadcastInDim S4096x4096 ![0, 1] bcast_S4096x1_S4096x4096_0_1 (v12 y)
def v15 : IVec S4096x4096 32 := broadcastInDim S4096x4096 ![0, 1] bcast_S1x4096_S4096x4096_0_1 (v13 y)

def v16 : IVec S4096x4096 1 := cmpi .eq (v14 y) (v15 y)
def v17 : IVec S4096x4096 32 := iotaInDim S4096x4096 32 0
def v18 : IVec S4096x4096 32 := iotaInDim S4096x4096 32 1
def c : IVec S_ 32 := constantI S_ 32 0#32
def v19 : IVec S4096x4096 32 := broadcastInDim S4096x4096 ![] bcast_S_S4096x4096 c
def v20 : IVec S4096x4096 32 := addi v17 v19

def v21 : IVec S4096x4096 1 := cmpi .eq v20 v18
def v22 : IVec S4096x4096 1 := noti v21

def v23 : IVec S4096x4096 1 := andi (v16 y) v22

def v24 : IVec S4096x4096 1 := noti (v16 y)

def call2_v0 : IVec S4096x4096 32 := iotaInDim S4096x4096 32 1
def call2_c : IVec S_ 1 := constantI S_ 1 0#1
def call2_c_0 : IVec S_ 32 := constantI S_ 32 0#32
def v25 : IVec S4096 32 :=
  fun j => (Host.reduce2 reducer_argmax_i1_i32 (v23 y) call2_v0 call2_c call2_c_0 reducesTo_S4096x4096_S4096_d1 h_S_ j).2
def c_3 : IVec S_ 1 := constantI S_ 1 0#1
def v26 : IVec S4096 1 := Host.reduce IntOp.ori (v23 y) c_3 reducesTo_S4096x4096_S4096_d1 h_S_
def v27 : IVec S4096x1 32 := broadcastInDim S4096x1 ![0] bcast_S4096_S4096x1_0 (v25 y)

def call3_c : IVec S_ 32 := constantI S_ 32 0#32
def call3_v0 : IVec S4096x1 32 := broadcastInDim S4096x1 ![] bcast_S_S4096x1 call3_c
def call3_v1 : IVec S4096x1 1 := cmpi .slt (v27 y) call3_v0
def call3_c_0 : IVec S_ 32 := constantI S_ 32 4096#32
def call3_v2 : IVec S4096x1 32 := broadcastInDim S4096x1 ![] bcast_S_S4096x1 call3_c_0
def call3_v3 : IVec S4096x1 32 := addi (v27 y) call3_v2
def call3_v4 : IVec S4096x1 32 := select (call3_v1 y) (call3_v3 y) (v27 y)
def call3_v5 : IVec S4096x1x1 32 := shapeCast S4096x1x1 (call3_v4 y) shapeCasts_S4096x1_S4096x1x1
def call3_c_1 : IVec S1 32 := constantI S1 32 4095#32
def call3_c_2 : IVec S_ 32 := constantI S_ 32 0#32
def call3_v6 : IVec S4096x1x1 32 := broadcastInDim S4096x1x1 ![] bcast_S_S4096x1x1 call3_c_2
def call3_v7 : IVec S4096x1x1 1 := cmpi .sge (call3_v5 y) call3_v6
def call3_v8 : IVec S1x1x1 32 := broadcastInDim S1x1x1 ![2] bcast_S1_S1x1x1_2 call3_c_1
def call3_v9 : IVec S4096x1x1 32 := broadcastInDim S4096x1x1 ![0, 1, 2] bcast_S1x1x1_S4096x1x1_0_1_2 call3_v8
def call3_v10 : IVec S4096x1x1 1 := cmpi .sle (call3_v5 y) call3_v9
def call3_v11 : IVec S4096x1x1 1 := andi (call3_v7 y) (call3_v10 y)
def call3_c_3 : IVec S_ 1 := constantI S_ 1 1#1
def call3_v12 : IVec S4096x1 1 := Host.reduce IntOp.andi (call3_v11 y) call3_c_3 reducesTo_S4096x1x1_S4096x1_d2 h_S_
def call3_v13 : FVec Ideal S4096x1 .f32 := Host.gather gather_S4096x4096_S4096x1x1_S4096x1_n_1_0_0_1_2_11 (v11 xn) (call3_v5 y)
def call3_cst : FVec Ideal S_ .f32 := constant S_ .f32 0x7FC00000#32
def call3_v14 : FVec Ideal S4096x1 .f32 := broadcastInDim S4096x1 ![] bcast_S_S4096x1 call3_cst
def v28 : FVec Ideal S4096x1 .f32 := select (call3_v12 y) (call3_v13 xn y) call3_v14
def v29 : FVec Ideal S4096 .f32 := shapeCast S4096 (v28 xn y) shapeCasts_S4096x1_S4096
def cst_4 : FVec Ideal S_ .f32 := constant S_ .f32 0x00000000#32
def call4_v0 : FVec Ideal S_ .f32 := id cst_4
def call4_v1 : FVec Ideal S4096 .f32 := broadcastInDim S4096 ![] bcast_S_S4096 call4_v0

def v30 : FVec Ideal S4096 .f32 := select (v26 y) (v29 xn y) call4_v1

def call5_v0 : IVec S4096x4096 32 := extui 32 (v24 y) natLt_1_32
def call5_call0_c : IVec S_ 32 := constantI S_ 32 0#32
def call5_call0_v0 : IVec S_ 32 := broadcastInDim S_ ![] bcast_S_S_ call5_call0_c
def v31 : IVec S4096x4096 32 :=
  Host.reduceWindow IntOp.addi ![1, 4096] ![1, 1] ![0, 4095] ![0, 0] (call5_v0 y) call5_call0_v0
    reduceWindows_S4096x4096_S4096x4096_w1s1p0_0_w4096s1p4095_0 h_S_
def c_5 : IVec S_ 32 := constantI S_ 32 8191#32
def call6_v0 : IVec S_ 32 := id c_5
def call6_v1 : IVec S4096x4096 32 := broadcastInDim S4096x4096 ![] bcast_S_S4096x4096 call6_v0
def v32 : IVec S4096x4096 32 := select (v24 y) (v31 y) call6_v1
def v33 : IVec S4096 32 := iotaInDim S4096 32 0
def v34 : IVec S4096x1 32 := broadcastInDim S4096x1 ![0] bcast_S4096_S4096x1_0 v33
def cst_6 : FVec Ideal S_ .f32 := constant S_ .f32 0x00000000#32
def v35 : FVec Ideal S4096x8192 .f32 := broadcastInDim S4096x8192 ![] bcast_S_S4096x8192 cst_6
def cst_7 : FVec Ideal S_ .f32 := constant S_ .f32 0x00000000#32
def call7_v0 : FVec Ideal S_ .f32 := id cst_7
def call7_v1 : FVec Ideal S4096x4096 .f32 := broadcastInDim S4096x4096 ![] bcast_S_S4096x4096 call7_v0

def v36 : FVec Ideal S4096x4096 .f32 := select (v24 y) (v11 xn) call7_v1
def c_8 : IVec S_ 32 := constantI S_ 32 0#32
def v37 : IVec S4096x1 32 := broadcastInDim S4096x1 ![] bcast_S_S4096x1 c_8
def v38 : IVec S4096x1 1 := cmpi .slt v34 v37
def c_9 : IVec S_ 32 := constantI S_ 32 4096#32
def v39 : IVec S4096x1 32 := broadcastInDim S4096x1 ![] bcast_S_S4096x1 c_9
def v40 : IVec S4096x1 32 := addi v34 v39
def v41 : IVec S4096x1 32 := select v38 v40 v34
def c_10 : IVec S_ 32 := constantI S_ 32 0#32
def v42 : IVec S4096x4096 32 := broadcastInDim S4096x4096 ![] bcast_S_S4096x4096 c_10
def v43 : IVec S4096x4096 1 := cmpi .slt (v32 y) v42
def c_11 : IVec S_ 32 := constantI S_ 32 8192#32
def v44 : IVec S4096x4096 32 := broadcastInDim S4096x4096 ![] bcast_S_S4096x4096 c_11
def v45 : IVec S4096x4096 32 := addi (v32 y) v44
def v46 : IVec S4096x4096 32 := select (v43 y) (v45 y) (v32 y)
def v47 : IVec S4096x4096 32 := broadcastInDim S4096x4096 ![0, 1] bcast_S4096x1_S4096x4096_0_1 v41
def v48 : IVec S4096x4096x1 32 := broadcastInDim S4096x4096x1 ![0, 1] bcast_S4096x4096_S4096x4096x1_0_1 v47
def v49 : IVec S4096x4096x1 32 := broadcastInDim S4096x4096x1 ![0, 1] bcast_S4096x4096_S4096x4096x1_0_1 (v46 y)
def v50 : IVec S4096x4096x2 32 :=
  concatenate S4096x4096x2 2 [⟨S4096x4096x1, v48⟩, ⟨S4096x4096x1, v49 y⟩] concatenates_S4096x4096x1_S4096x4096x1_S4096x4096x2_d2

def v51 : FVec Ideal S4096x8192 .f32 := Host.scatterAdd scatter_S4096x8192_S4096x4096x2_S4096x4096_n_01_01_2 v35 (v50 y) (v36 xn y)
def c_12 : IVec S_ 32 := constantI S_ 32 0#32
def v52 : IVec S1 32 := broadcastInDim S1 ![] bcast_S_S1 c_12
def v53 : FVec Ideal S4096x8192 .f32 := Host.scatter scatter_S4096x8192_S1_S4096_0_1_1_0 (fun _ b => b) (v51 xn y) v52 (v30 xn y)

def v54 : FVec Ideal S4096x8191 .f32 := extractStridedSlice S4096x8191 ![0, 0] (v53 xn y) slices_S4096x8192_S4096x8191_0_0

end Stages

theorem v4_apply (xn : FVec Ideal S4096x1024 .f32) (k : Fin 1024) (j : Fin 4096) : v4 xn (ix2 k j) = xn (ix2 j k) := by
  unfold v4
  exact transpose_apply [1, 0] xn transposes_S4096x1024_S1024x4096_1_0 (ix2 k j) (ix2 j k)
    (fun b => match b with | ⟨0, _⟩ => rfl | ⟨1, _⟩ => rfl)

private abbrev dD : DotDims S4096x1024 S1024x4096 S4096x4096 := dot_S4096x1024_S1024x4096_S4096x4096_1_0_0_1_n_n

theorem lhs_dot_0 (j : S4096x4096.Idx) (k : dD.contr.Idx) : (dD.lhsIdx j k 0).val = (j 0).val := by
  unfold DotDims.lhsIdx
  rw [dif_neg (show ¬(0 : Fin S4096x1024.rank) ∈ dD.lhsBatch from List.not_mem_nil),
    dif_pos (show (0 : Fin S4096x1024.rank) ∈ dD.lhsNonContracting from List.mem_singleton.mpr rfl)]
  rfl

theorem rhs_dot_1 (j : S4096x4096.Idx) (k : dD.contr.Idx) : (dD.rhsIdx j k 1).val = (j 1).val := by
  unfold DotDims.rhsIdx
  rw [dif_neg (show ¬(1 : Fin S1024x4096.rank) ∈ dD.rhsBatch from List.not_mem_nil),
    dif_pos (show (1 : Fin S1024x4096.rank) ∈ dD.rhsNonContracting from List.mem_singleton.mpr rfl)]
  rfl

-- The product with the transpose is the inner product of two rows.
theorem v5_apply (xn : FVec Ideal S4096x1024 .f32) (i j : Fin 4096) :
    v5 xn (ix2 i j) = ∑ k : Fin 1024, xn (ix2 i k) * xn (ix2 j k) := by
  unfold v5
  simp only [Host.dotGeneral]
  rw [Ideal.dotGeneral_apply, ← Equiv.sum_comp (contrEquiv1 dD 1024 rfl rfl).symm]
  refine Finset.sum_congr rfl fun k _ => ?_
  have hk := contrEquiv1_symm_val dD 1024 rfl rfl k
  have hl : dD.lhsIdx (ix2 i j) ((contrEquiv1 dD 1024 rfl rfl).symm k) = ix2 i k := by
    funext a
    match a with
    | ⟨0, _⟩ => exact Fin.ext (lhs_dot_0 _ _)
    | ⟨1, _⟩ => exact Fin.ext ((DotDims.lhsIdx_val_of_single _ rfl _ _).trans hk)
  have hr : dD.rhsIdx (ix2 i j) ((contrEquiv1 dD 1024 rfl rfl).symm k) = ix2 k j := by
    funext a
    match a with
    | ⟨0, _⟩ => exact Fin.ext ((DotDims.rhsIdx_val_of_single _ rfl _ _).trans hk)
    | ⟨1, _⟩ => exact Fin.ext (rhs_dot_1 _ _)
  rw [hl, hr, v4_apply]

theorem ofBits_half_f32 : Ideal.ofBits .f32 0x3F000000#32 = (((1 / 2 : ℝ) : ℝ) : EReal) := by
  simp [Ideal.ofBits, Ideal.ieee, -EReal.coe_mul]; norm_num

theorem v11_apply (xn : FVec Ideal S4096x1024 .f32) (xnf : Fin 4096 → Fin 1024 → EReal) (hx : ∀ i k, xn (ix2 i k) = xnf i k)
    (i j : Fin 4096) :
    v11 xn (ix2 i j) = ((Cert.CLCE.dotE xnf i j + 1) * (((1 / 2 : ℝ) : ℝ) : EReal)) * (((1 / 2 : ℝ) : ℝ) : EReal) := by
  unfold v11 v10 v9 v8 v7 v6 cst_0 cst_1 cst_2 Cert.CLCE.dotE
  rw [mulf_apply, mulf_apply, addf_apply, broadcastInDim_scalar_apply, broadcastInDim_scalar_apply, constant_apply, constant_apply,
    v5_apply, Ideal.ofBits_one_f32, ofBits_half_f32]
  simp only [hx]

-- A finite sum of products of reals is real.
theorem dotE_real (xnf : Fin 4096 → Fin 1024 → EReal) (hr : ∀ i k, ∃ r : ℝ, xnf i k = (r : EReal)) (i j : Fin 4096) :
    ∃ d : ℝ, Cert.CLCE.dotE xnf i j = (d : EReal) := by
  unfold Cert.CLCE.dotE
  refine Finset.sum_induction _ (fun x => ∃ r : ℝ, x = (r : EReal))
    (fun _ _ ⟨a, ha⟩ ⟨b, hb⟩ => ⟨a + b, by rw [ha, hb, EReal.coe_add]⟩) ⟨0, EReal.coe_zero.symm⟩ fun k _ => ?_
  obtain ⟨a, ha⟩ := hr i k
  obtain ⟨b, hb⟩ := hr j k
  exact ⟨a * b, by rw [ha, hb, EReal.coe_mul]⟩

theorem cmpi_eq_ite {w : Nat} (a b : BitVec w) : IntOp.cmpi .eq a b = if a = b then 1#1 else 0#1 := by
  unfold IntOp.cmpi
  by_cases h : a = b
  · subst h; simp
  · rw [if_neg h, show (a == b) = false from beq_eq_false_iff_ne.mpr h]; rfl

theorem bcast_col_apply {α : Type} (v : S4096x1.Idx → α) (i j : Fin 4096) :
    broadcastInDim S4096x4096 ![0, 1] bcast_S4096x1_S4096x4096_0_1 v (ix2 i j) = v (ix2 i (0 : Fin 1)) :=
  broadcastInDim_apply _ _ v (ix2 i j) (ix2 i (0 : Fin 1)) (fun a => match a with | ⟨0, _⟩ => rfl | ⟨1, _⟩ => rfl)

theorem bcast_row_apply {α : Type} (v : S1x4096.Idx → α) (i j : Fin 4096) :
    broadcastInDim S4096x4096 ![0, 1] bcast_S1x4096_S4096x4096_0_1 v (ix2 i j) = v (ix2 (0 : Fin 1) j) :=
  broadcastInDim_apply _ _ v (ix2 i j) (ix2 (0 : Fin 1) j) (fun a => match a with | ⟨0, _⟩ => rfl | ⟨1, _⟩ => rfl)

theorem as_col_apply {α : Type} (v : S4096.Idx → α) (i : Fin 4096) :
    broadcastInDim S4096x1 ![0] bcast_S4096_S4096x1_0 v (ix2 i (0 : Fin 1)) = v (ix1 i) :=
  broadcastInDim_apply _ _ v (ix2 i (0 : Fin 1)) (ix1 i) (fun a => match a with | ⟨0, _⟩ => rfl)

theorem as_row_apply {α : Type} (v : S4096.Idx → α) (j : Fin 4096) :
    broadcastInDim S1x4096 ![1] bcast_S4096_S1x4096_1 v (ix2 (0 : Fin 1) j) = v (ix1 j) :=
  broadcastInDim_apply _ _ v (ix2 (0 : Fin 1) j) (ix1 j) (fun a => match a with | ⟨0, _⟩ => rfl)

theorem v16_apply (y : IVec S4096 32) (i j : Fin 4096) : v16 y (ix2 i j) = if y (ix1 i) = y (ix1 j) then 1#1 else 0#1 := by
  unfold v16 v15 v14 v13 v12
  show IntOp.cmpi .eq _ _ = _
  rw [bcast_col_apply, bcast_row_apply, as_col_apply, as_row_apply, cmpi_eq_ite]

theorem ofNat32_inj {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem v21_apply (i j : Fin 4096) : v21 (ix2 i j) = if i = j then 1#1 else 0#1 := by
  unfold v21 v20 v19 v18 v17 c
  show IntOp.cmpi .eq (IntOp.addi (BitVec.ofNat 32 i.val) _) (BitVec.ofNat 32 j.val) = _
  rw [broadcastInDim_scalar_apply]
  show IntOp.cmpi .eq (BitVec.ofNat 32 i.val + 0#32) (BitVec.ofNat 32 j.val) = _
  rw [BitVec.add_zero, cmpi_eq_ite]
  simp only [ofNat32_inj (lt_trans i.isLt (by norm_num)) (lt_trans j.isLt (by norm_num)), Fin.val_inj]

theorem v24_apply (y : IVec S4096 32) (i j : Fin 4096) : v24 y (ix2 i j) = if y (ix1 i) = y (ix1 j) then 0#1 else 1#1 := by
  unfold v24
  show ~~~(v16 y (ix2 i j)) = _
  rw [v16_apply]
  by_cases h1 : y (ix1 i) = y (ix1 j) <;> simp [h1]

-- pos: one label, off the diagonal.
theorem v23_eq_one_iff (y : IVec S4096 32) (i j : Fin 4096) : v23 y (ix2 i j) = 1#1 ↔ (y (ix1 i) = y (ix1 j) ∧ i ≠ j) := by
  unfold v23 v22
  show IntOp.andi (v16 y (ix2 i j)) (~~~(v21 (ix2 i j))) = _ ↔ _
  rw [v16_apply, v21_apply]
  unfold IntOp.andi
  by_cases h1 : y (ix1 i) = y (ix1 j) <;> by_cases h2 : i = j <;> simp [h1, h2]
theorem v24_eq_one_iff (y : IVec S4096 32) (i j : Fin 4096) : v24 y (ix2 i j) = 1#1 ↔ y (ix1 i) ≠ y (ix1 j) := by
  rw [v24_apply]; by_cases h : y (ix1 i) = y (ix1 j) <;> simp [h]

theorem toInt_ofNat32 {n : Nat} (hn : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split <;> omega

theorem slt_ofNat32_zero {n : Nat} (hn : n < 2 ^ 31) : IntOp.cmpi .slt (BitVec.ofNat 32 n) 0#32 = 0#1 := by
  unfold IntOp.cmpi
  have h : (BitVec.ofNat 32 n).slt 0#32 = false := by
    rw [BitVec.slt, toInt_ofNat32 hn]
    simp
  simp [h]

-- The updates: the similarity d/4 + 1/4 where the labels differ, 0 where they agree.
theorem v36_apply (xn : FVec Ideal S4096x1024 .f32) (yv : IVec S4096 32) (xnf : Fin 4096 → Fin 1024 → EReal) (y : Fin 4096 → BitVec 32)
    (hx : ∀ i k, xn (ix2 i k) = xnf i k) (hr : ∀ i k, ∃ r : ℝ, xnf i k = (r : EReal)) (hy : ∀ i, yv (ix1 i) = y i) (i j : Fin 4096) :
    v36 xn yv (ix2 i j) = if y i = y j then 0 else Cert.CLCE.dotE xnf i j * Cert.CLCE.quarter + Cert.CLCE.quarter := by
  unfold v36 call7_v1 call7_v0 cst_7
  rw [select_apply, v24_apply, broadcastInDim_scalar_apply, hy, hy]
  show Scalar.select _ _ (Ideal.ofBits .f32 0x00000000#32) = _
  rw [Ideal.ofBits_zero_f32]
  by_cases h : y i = y j
  · rw [if_pos h, if_pos h, select_zero]
  · obtain ⟨d, hd⟩ := dotE_real xnf hr i j
    rw [if_neg h, if_neg h, select_one, v11_apply xn xnf hx, hd]
    unfold Cert.CLCE.quarter
    rw [← EReal.coe_one, ← EReal.coe_add, ← EReal.coe_mul, ← EReal.coe_mul, ← EReal.coe_mul, ← EReal.coe_add]
    congr 1
    ring

theorem v47_apply (i j : Fin 4096) : v47 (ix2 i j) = BitVec.ofNat 32 i.val := by
  unfold v47 v41 v40 v39 v38 v37 v34 v33 c_8 c_9
  rw [bcast_col_apply, select_apply]
  show Scalar.select (IntOp.cmpi .slt _ _) _ _ = _
  rw [as_col_apply, broadcastInDim_scalar_apply]
  show Scalar.select (IntOp.cmpi .slt (BitVec.ofNat 32 i.val) 0#32) _ (BitVec.ofNat 32 i.val) = _
  rw [slt_ofNat32_zero (lt_trans i.isLt (by norm_num)), select_zero]

end Cert.ReferenceIdeal.RVal

end
-- ==== Proof.RefStages.lean ====
import proofs.«401202_j76493367542062_3_alg».proof.Proof.RefReads
import proofs.«401202_j76493367542062_3_alg».proof.Proof.RefVals

noncomputable section

namespace Cert.ReferenceIdeal.HRun

open Cert.ReferenceIdeal Cert.ReferenceIdeal.Gen Idealize.ShloMosaic Idealize.ShloMosaic.TcCoe Idealize.SL.Sem Idealize.ShloMosaic.StableHlo Cert.Lib.Line

variable (V : Valuation τ sig (Elt Ideal))

attribute [local irreducible] Host.reduce Host.reduce2 Host.reduceAdd Host.reduceWindow Host.gather Host.scatter Host.scatterAdd
  extractStridedSlice transpose broadcastInDim concatenate iotaInDim shapeCast

theorem st_v4 :
    after ops V main_v4 = RVal.v4 (after ops V main_v3) := by
  rw [rd_v4 V]; rfl
theorem st_v5 :
    after ops V main_v5 = RVal.v5 (after ops V main_v3) := by
  rw [rd_v5 V, st_v4 V]; rfl
theorem st_cst_0 :
    after ops V main_cst_0 = RVal.cst_0 := by
  rw [rd_cst_0 V]; rfl
theorem st_v6 :
    after ops V main_v6 = RVal.v6 := by
  rw [rd_v6 V, st_cst_0 V]; rfl
theorem st_v7 :
    after ops V main_v7 = RVal.v7 (after ops V main_v3) := by
  rw [rd_v7 V, st_v5 V, st_v6 V]; rfl
theorem st_cst_1 :
    after ops V main_cst_1 = RVal.cst_1 := by
  rw [rd_cst_1 V]; rfl
theorem st_v8 :
    after ops V main_v8 = RVal.v8 := by
  rw [rd_v8 V, st_cst_1 V]; rfl
theorem st_v9 :
    after ops V main_v9 = RVal.v9 (after ops V main_v3) := by
  rw [rd_v9 V, st_v7 V, st_v8 V]; rfl
theorem st_cst_2 :
    after ops V main_cst_2 = RVal.cst_2 := by
  rw [rd_cst_2 V]; rfl
theorem st_v10 :
    after ops V main_v10 = RVal.v10 := by
  rw [rd_v10 V, st_cst_2 V]; rfl
theorem st_v11 :
    after ops V main_v11 = RVal.v11 (after ops V main_v3) := by
  rw [rd_v11 V, st_v9 V, st_v10 V]; rfl
theorem st_v12 :
    after ops V main_v12 = RVal.v12 (after ops V main_arg1) := by
  rw [rd_v12 V]; rfl
theorem st_v13 :
    after ops V main_v13 = RVal.v13 (after ops V main_arg1) := by
  rw [rd_v13 V]; rfl
theorem st_v14 :
    after ops V main_v14 = RVal.v14 (after ops V main_arg1) := by
  rw [rd_v14 V, st_v12 V]; rfl
theorem st_v15 :
    after ops V main_v15 = RVal.v15 (after ops V main_arg1) := by
  rw [rd_v15 V, st_v13 V]; rfl
theorem st_v16 :
    after ops V main_v16 = RVal.v16 (after ops V main_arg1) := by
  rw [rd_v16 V, st_v14 V, st_v15 V]; rfl
theorem st_v17 :
    after ops V main_v17 = RVal.v17 := by
  rw [rd_v17 V]; rfl
theorem st_v18 :
    after ops V main_v18 = RVal.v18 := by
  rw [rd_v18 V]; rfl
theorem st_c :
    after ops V main_c = RVal.c := by
  rw [rd_c V]; rfl
theorem st_v19 :
    after ops V main_v19 = RVal.v19 := by
  rw [rd_v19 V, st_c V]; rfl
theorem st_v20 :
    after ops V main_v20 = RVal.v20 := by
  rw [rd_v20 V, st_v17 V, st_v19 V]; rfl
theorem st_v21 :
    after ops V main_v21 = RVal.v21 := by
  rw [rd_v21 V, st_v20 V, st_v18 V]; rfl
theorem st_v22 :
    after ops V main_v22 = RVal.v22 := by
  rw [rd_v22 V, st_v21 V]; rfl
theorem st_v23 :
    after ops V main_v23 = RVal.v23 (after ops V main_arg1) := by
  rw [rd_v23 V, st_v16 V, st_v22 V]; rfl
theorem st_v24 :
    after ops V main_v24 = RVal.v24 (after ops V main_arg1) := by
  rw [rd_v24 V, st_v16 V]; rfl
theorem st_call2_v0 :
    after ops V main_call2_v0 = RVal.call2_v0 := by
  rw [rd_call2_v0 V]; rfl
theorem st_call2_c :
    after ops V main_call2_c = RVal.call2_c := by
  rw [rd_call2_c V]; rfl
theorem st_call2_c_0 :
    after ops V main_call2_c_0 = RVal.call2_c_0 := by
  rw [rd_call2_c_0 V]; rfl
theorem st_v25 :
    after ops V main_v25 = RVal.v25 (after ops V main_arg1) := by
  rw [rd_v25 V, st_v23 V, st_call2_v0 V, st_call2_c V, st_call2_c_0 V]; rfl
theorem st_c_3 :
    after ops V main_c_3 = RVal.c_3 := by
  rw [rd_c_3 V]; rfl
theorem st_v26 :
    after ops V main_v26 = RVal.v26 (after ops V main_arg1) := by
  rw [rd_v26 V, st_v23 V, st_c_3 V]; rfl
theorem st_v27 :
    after ops V main_v27 = RVal.v27 (after ops V main_arg1) := by
  rw [rd_v27 V, st_v25 V]; rfl
theorem st_call3_c :
    after ops V main_call3_c = RVal.call3_c := by
  rw [rd_call3_c V]; rfl
theorem st_call3_v0 :
    after ops V main_call3_v0 = RVal.call3_v0 := by
  rw [rd_call3_v0 V, st_call3_c V]; rfl
theorem st_call3_v1 :
    after ops V main_call3_v1 = RVal.call3_v1 (after ops V main_arg1) := by
  rw [rd_call3_v1 V, st_v27 V, st_call3_v0 V]; rfl
theorem st_call3_c_0 :
    after ops V main_call3_c_0 = RVal.call3_c_0 := by
  rw [rd_call3_c_0 V]; rfl
theorem st_call3_v2 :
    after ops V main_call3_v2 = RVal.call3_v2 := by
  rw [rd_call3_v2 V, st_call3_c_0 V]; rfl
theorem st_call3_v3 :
    after ops V main_call3_v3 = RVal.call3_v3 (after ops V main_arg1) := by
  rw [rd_call3_v3 V, st_v27 V, st_call3_v2 V]; rfl
theorem st_call3_v4 :
    after ops V main_call3_v4 = RVal.call3_v4 (after ops V main_arg1) := by
  rw [rd_call3_v4 V, st_call3_v1 V, st_call3_v3 V, st_v27 V]; rfl
theorem st_call3_v5 :
    after ops V main_call3_v5 = RVal.call3_v5 (after ops V main_arg1) := by
  rw [rd_call3_v5 V, st_call3_v4 V]; rfl
theorem st_call3_c_1 :
    after ops V main_call3_c_1 = RVal.call3_c_1 := by
  rw [rd_call3_c_1 V]; rfl
theorem st_call3_c_2 :
    after ops V main_call3_c_2 = RVal.call3_c_2 := by
  rw [rd_call3_c_2 V]; rfl
theorem st_call3_v6 :
    after ops V main_call3_v6 = RVal.call3_v6 := by
  rw [rd_call3_v6 V, st_call3_c_2 V]; rfl
theorem st_call3_v7 :
    after ops V main_call3_v7 = RVal.call3_v7 (after ops V main_arg1) := by
  rw [rd_call3_v7 V, st_call3_v5 V, st_call3_v6 V]; rfl
theorem st_call3_v8 :
    after ops V main_call3_v8 = RVal.call3_v8 := by
  rw [rd_call3_v8 V, st_call3_c_1 V]; rfl
theorem st_call3_v9 :
    after ops V main_call3_v9 = RVal.call3_v9 := by
  rw [rd_call3_v9 V, st_call3_v8 V]; rfl
theorem st_call3_v10 :
    after ops V main_call3_v10 = RVal.call3_v10 (after ops V main_arg1) := by
  rw [rd_call3_v10 V, st_call3_v5 V, st_call3_v9 V]; rfl
theorem st_call3_v11 :
    after ops V main_call3_v11 = RVal.call3_v11 (after ops V main_arg1) := by
  rw [rd_call3_v11 V, st_call3_v7 V, st_call3_v10 V]; rfl
theorem st_call3_c_3 :
    after ops V main_call3_c_3 = RVal.call3_c_3 := by
  rw [rd_call3_c_3 V]; rfl
theorem st_call3_v12 :
    after ops V main_call3_v12 = RVal.call3_v12 (after ops V main_arg1) := by
  rw [rd_call3_v12 V, st_call3_v11 V, st_call3_c_3 V]; rfl
theorem st_call3_v13 :
    after ops V main_call3_v13 = RVal.call3_v13 (after ops V main_v3) (after ops V main_arg1) := by
  rw [rd_call3_v13 V, st_v11 V, st_call3_v5 V]; rfl
theorem st_call3_cst :
    after ops V main_call3_cst = RVal.call3_cst := by
  rw [rd_call3_cst V]; rfl
theorem st_call3_v14 :
    after ops V main_call3_v14 = RVal.call3_v14 := by
  rw [rd_call3_v14 V, st_call3_cst V]; rfl
theorem st_v28 :
    after ops V main_v28 = RVal.v28 (after ops V main_v3) (after ops V main_arg1) := by
  rw [rd_v28 V, st_call3_v12 V, st_call3_v13 V, st_call3_v14 V]; rfl
theorem st_v29 :
    after ops V main_v29 = RVal.v29 (after ops V main_v3) (after ops V main_arg1) := by
  rw [rd_v29 V, st_v28 V]; rfl
theorem st_cst_4 :
    after ops V main_cst_4 = RVal.cst_4 := by
  rw [rd_cst_4 V]; rfl
theorem st_call4_v0 :
    after ops V main_call4_v0 = RVal.call4_v0 := by
  rw [rd_call4_v0 V, st_cst_4 V]; rfl
theorem st_call4_v1 :
    after ops V main_call4_v1 = RVal.call4_v1 := by
  rw [rd_call4_v1 V, st_call4_v0 V]; rfl
theorem st_v30 :
    after ops V main_v30 = RVal.v30 (after ops V main_v3) (after ops V main_arg1) := by
  rw [rd_v30 V, st_v26 V, st_v29 V, st_call4_v1 V]; rfl
theorem st_call5_v0 :
    after ops V main_call5_v0 = RVal.call5_v0 (after ops V main_arg1) := by
  rw [rd_call5_v0 V, st_v24 V]; rfl
theorem st_call5_call0_c :
    after ops V main_call5_call0_c = RVal.call5_call0_c := by
  rw [rd_call5_call0_c V]; rfl
theorem st_call5_call0_v0 :
    after ops V main_call5_call0_v0 = RVal.call5_call0_v0 := by
  rw [rd_call5_call0_v0 V, st_call5_call0_c V]; rfl
theorem st_v31 :
    after ops V main_v31 = RVal.v31 (after ops V main_arg1) := by
  rw [rd_v31 V, st_call5_v0 V, st_call5_call0_v0 V]; rfl
theorem st_c_5 :
    after ops V main_c_5 = RVal.c_5 := by
  rw [rd_c_5 V]; rfl
theorem st_call6_v0 :
    after ops V main_call6_v0 = RVal.call6_v0 := by
  rw [rd_call6_v0 V, st_c_5 V]; rfl
theorem st_call6_v1 :
    after ops V main_call6_v1 = RVal.call6_v1 := by
  rw [rd_call6_v1 V, st_call6_v0 V]; rfl
theorem st_v32 :
    after ops V main_v32 = RVal.v32 (after ops V main_arg1) := by
  rw [rd_v32 V, st_v24 V, st_v31 V, st_call6_v1 V]; rfl
theorem st_v33 :
    after ops V main_v33 = RVal.v33 := by
  rw [rd_v33 V]; rfl
theorem st_v34 :
    after ops V main_v34 = RVal.v34 := by
  rw [rd_v34 V, st_v33 V]; rfl
theorem st_cst_6 :
    after ops V main_cst_6 = RVal.cst_6 := by
  rw [rd_cst_6 V]; rfl
theorem st_v35 :
    after ops V main_v35 = RVal.v35 := by
  rw [rd_v35 V, st_cst_6 V]; rfl
theorem st_cst_7 :
    after ops V main_cst_7 = RVal.cst_7 := by
  rw [rd_cst_7 V]; rfl
theorem st_call7_v0 :
    after ops V main_call7_v0 = RVal.call7_v0 := by
  rw [rd_call7_v0 V, st_cst_7 V]; rfl
theorem st_call7_v1 :
    after ops V main_call7_v1 = RVal.call7_v1 := by
  rw [rd_call7_v1 V, st_call7_v0 V]; rfl
theorem st_v36 :
    after ops V main_v36 = RVal.v36 (after ops V main_v3) (after ops V main_arg1) := by
  rw [rd_v36 V, st_v24 V, st_v11 V, st_call7_v1 V]; rfl
theorem st_c_8 :
    after ops V main_c_8 = RVal.c_8 := by
  rw [rd_c_8 V]; rfl
theorem st_v37 :
    after ops V main_v37 = RVal.v37 := by
  rw [rd_v37 V, st_c_8 V]; rfl
theorem st_v38 :
    after ops V main_v38 = RVal.v38 := by
  rw [rd_v38 V, st_v34 V, st_v37 V]; rfl
theorem st_c_9 :
    after ops V main_c_9 = RVal.c_9 := by
  rw [rd_c_9 V]; rfl
theorem st_v39 :
    after ops V main_v39 = RVal.v39 := by
  rw [rd_v39 V, st_c_9 V]; rfl
theorem st_v40 :
    after ops V main_v40 = RVal.v40 := by
  rw [rd_v40 V, st_v34 V, st_v39 V]; rfl
theorem st_v41 :
    after ops V main_v41 = RVal.v41 := by
  rw [rd_v41 V, st_v38 V, st_v40 V, st_v34 V]; rfl
theorem st_c_10 :
    after ops V main_c_10 = RVal.c_10 := by
  rw [rd_c_10 V]; rfl
theorem st_v42 :
    after ops V main_v42 = RVal.v42 := by
  rw [rd_v42 V, st_c_10 V]; rfl
theorem st_v43 :
    after ops V main_v43 = RVal.v43 (after ops V main_arg1) := by
  rw [rd_v43 V, st_v32 V, st_v42 V]; rfl
theorem st_c_11 :
    after ops V main_c_11 = RVal.c_11 := by
  rw [rd_c_11 V]; rfl
theorem st_v44 :
    after ops V main_v44 = RVal.v44 := by
  rw [rd_v44 V, st_c_11 V]; rfl
theorem st_v45 :
    after ops V main_v45 = RVal.v45 (after ops V main_arg1) := by
  rw [rd_v45 V, st_v32 V, st_v44 V]; rfl
theorem st_v46 :
    after ops V main_v46 = RVal.v46 (after ops V main_arg1) := by
  rw [rd_v46 V, st_v43 V, st_v45 V, st_v32 V]; rfl
theorem st_v47 :
    after ops V main_v47 = RVal.v47 := by
  rw [rd_v47 V, st_v41 V]; rfl
theorem st_v48 :
    after ops V main_v48 = RVal.v48 := by
  rw [rd_v48 V, st_v47 V]; rfl
theorem st_v49 :
    after ops V main_v49 = RVal.v49 (after ops V main_arg1) := by
  rw [rd_v49 V, st_v46 V]; rfl
theorem st_v50 :
    after ops V main_v50 = RVal.v50 (after ops V main_arg1) := by
  rw [rd_v50 V, st_v48 V, st_v49 V]; rfl
theorem st_v51 :
    after ops V main_v51 = RVal.v51 (after ops V main_v3) (after ops V main_arg1) := by
  rw [rd_v51 V, st_v35 V, st_v50 V, st_v36 V]; rfl
theorem st_c_12 :
    after ops V main_c_12 = RVal.c_12 := by
  rw [rd_c_12 V]; rfl
theorem st_v52 :
    after ops V main_v52 = RVal.v52 := by
  rw [rd_v52 V, st_c_12 V]; rfl
theorem st_v53 :
    after ops V main_v53 = RVal.v53 (after ops V main_v3) (after ops V main_arg1) := by
  rw [rd_v53 V, st_v51 V, st_v52 V, st_v30 V]; rfl
theorem st_v54 :
    after ops V main_v54 = RVal.v54 (after ops V main_v3) (after ops V main_arg1) := by
  rw [rd_v54 V, st_v53 V]; rfl

end Cert.ReferenceIdeal.HRun

end
-- ==== Proof.RefFront.lean ====
import proofs.«401202_j76493367542062_3_alg».proof.Proof.RefStages
import proofs.«401202_j76493367542062_3_alg».proof.Proof.PreFacts

noncomputable section

namespace Cert.ReferenceIdeal.HRun

open Cert.ReferenceIdeal Cert.ReferenceIdeal.Gen Idealize.ShloMosaic Idealize.ShloMosaic.TcCoe Idealize.SL.Sem Idealize.ShloMosaic.StableHlo Cert.Lib.Line

variable (V : Valuation τ sig (Elt Ideal))

attribute [local irreducible] Host.reduce Host.reduce2 Host.reduceAdd Host.reduceWindow Host.gather Host.scatter Host.scatterAdd
  extractStridedSlice transpose broadcastInDim concatenate iotaInDim shapeCast

theorem st_v3 :
    after ops V main_v3 = Cert.PreDecode.xnOf (V main_arg0) := by
  rw [rd_v3 V, rd_v2 V, rd_v1 V, rd_call1_v1 V, rd_call1_v0 V, rd_cst V, rd_v0 V, rd_call0_v2 V, rd_call0_v1 V,
    rd_call0_v0 V, rd_call0_cst V, arg0_eq V]
  rfl

theorem front_v54 :
    after ops V main_v54
      = RVal.v54 (Cert.PreDecode.xnOf (V main_arg0)) (V main_arg1) := by
  rw [st_v54 V, st_v3 V, arg1_eq V]

end Cert.ReferenceIdeal.HRun

end
-- ==== Proof.RefRowDefs.lean ====
import proofs.«401202_j76493367542062_3_alg».proof.ReferenceIdeal

noncomputable section

namespace Cert.ReferenceIdeal.RRow

open Idealize.ShloMosaic Cert.ReferenceIdeal
open Cert.ReferenceIdeal.Facts₀

variable [Facts]

section Stages

variable {F : FTy → Type} [FloatOps F] (LT : FVec F S4096x8191 .f32)

def rowMax : FVec F S4096 .f32 :=
  maximumf (broadcastInDim S4096 ![] bcast_S_S4096 (constant S_ .f32 0xFF800000#32))
    (Host.reduce FloatOps.maximumf LT (constant S_ .f32 0xFF800000#32) reducesTo_S4096x8191_S4096_d1 h_S_)

def shifted : FVec F S4096x8191 .f32 :=
  subf LT (broadcastInDim S4096x8191 ![0, 1] bcast_S4096x1_S4096x8191_0_1
    (broadcastInDim S4096x1 ![0] bcast_S4096_S4096x1_0 (rowMax LT)))

def logSumExp : FVec F S4096x1 .f32 :=
  Host.log (broadcastInDim S4096x1 ![0] bcast_S4096_S4096x1_0
    (Host.reduceAdd (Host.exp (shifted LT)) (constant S_ .f32 0x00000000#32) reducesTo_S4096x8191_S4096_d1 h_S_))

def logSoftmax : FVec F S4096x8191 .f32 :=
  subf (shifted LT) (broadcastInDim S4096x8191 ![0, 1] bcast_S4096x1_S4096x8191_0_1 (logSumExp LT))

def negLogSoftmax0 : FVec F S4096 .f32 :=
  Host.negf (shapeCast S4096 (extractStridedSlice S4096x1 ![0, 0] (logSoftmax LT) slices_S4096x8191_S4096x1_0_0)
    shapeCasts_S4096x1_S4096)

end Stages

end Cert.ReferenceIdeal.RRow

end
-- ==== Proof.RefRead2.lean ====
import proofs.«401202_j76493367542062_3_alg».proof.Proof.RefReads
import proofs.«401202_j76493367542062_3_alg».proof.Proof.RefRowDefs
import proofs.«401202_j76493367542062_3_alg».proof.Proof.Tails

set_option maxRecDepth 100000

noncomputable section

namespace Cert.ReferenceIdeal.HRun2

open Cert.ReferenceIdeal Cert.ReferenceIdeal.Gen Idealize.ShloMosaic Idealize.ShloMosaic.TcCoe Idealize.SL.Sem
  Idealize.ShloMosaic.StableHlo Cert.Lib.Line Cert.ReferenceIdeal.HRun Cert.CLCE

variable {F : FTy → Type} [FloatOps F] (V : Valuation τ sig (Elt F))

attribute [local irreducible] Host.reduce Host.reduce2 Host.reduceAdd Host.reduceWindow Host.gather Host.scatter
  Host.scatterAdd extractStridedSlice transpose broadcastInDim concatenate iotaInDim shapeCast

theorem call8_v2_eq :
    after ops V main_call8_v2 = RRow.rowMax (after ops V main_v54) := by
  rw [rd_call8_v2 V, rd_call8_v1 V, rd_call8_cst_0 V, rd_call8_v0 V, rd_call8_cst V]
  rfl

theorem call8_v5_eq :
    after ops V main_call8_v5 = RRow.shifted (after ops V main_v54) := by
  rw [rd_call8_v5 V, rd_call8_v4 V, rd_call8_v3 V, call8_v2_eq V]
  rfl

theorem call8_v9_eq :
    after ops V main_call8_v9 = RRow.logSumExp (after ops V main_v54) := by
  rw [rd_call8_v9 V, rd_call8_v8 V, rd_call8_v7 V, rd_call8_cst_1 V, rd_call8_v6 V, call8_v5_eq V]
  rfl

theorem v55_eq :
    after ops V main_v55 = RRow.logSoftmax (after ops V main_v54) := by
  rw [rd_v55 V, rd_call8_v10 V, call8_v9_eq V, call8_v5_eq V]
  rfl

theorem v58_eq :
    after ops V main_v58 = RRow.negLogSoftmax0 (after ops V main_v54) := by
  rw [rd_v58 V, rd_v57 V, rd_v56 V, v55_eq V]
  rfl

theorem v60_eq :
    after ops V main_v60 = Tails.rCl (after ops V main_v58) := by
  rw [rd_v60 V, rd_cst_14 V, rd_v59 V, rd_cst_13 V]
  rfl

theorem v61_eq :
    after ops V main_v61 = Tails.rLogSoftmax (after ops V main_arg2) := by
  rw [rd_v61 V, rd_call9_v10 V, rd_call9_v9 V, rd_call9_v8 V, rd_call9_v7 V, rd_call9_cst_1 V, rd_call9_v6 V,
    rd_call9_v5 V, rd_call9_v4 V, rd_call9_v3 V, rd_call9_v2 V, rd_call9_v1 V, rd_call9_cst_0 V, rd_call9_v0 V,
    rd_call9_cst V]
  rfl

theorem v63_eq :
    after ops V main_v63
      = Tails.rTakeAlong (after ops V main_v61) (after ops V main_v62) := by
  rw [rd_v63 V, rd_call10_v14 V, rd_call10_cst V, rd_call10_v13 V, rd_call10_v12 V, rd_call10_c_3 V, rd_call10_v11 V,
    rd_call10_v10 V, rd_call10_v9 V, rd_call10_v8 V, rd_call10_c_1 V, rd_call10_v7 V, rd_call10_v6 V, rd_call10_c_2 V,
    rd_call10_v5 V, rd_call10_v4 V, rd_call10_v3 V, rd_call10_v2 V, rd_call10_c_0 V, rd_call10_v1 V, rd_call10_v0 V,
    rd_call10_c V]
  rfl

theorem v66_eq :
    after ops V main_v66
      = Tails.rCe (after ops V main_arg2) (after ops V main_arg1) := by
  rw [rd_v66 V, rd_v65 V, rd_cst_16 V, rd_v64 V, rd_cst_15 V, v63_eq V, v61_eq V, rd_v62 V]
  rfl

theorem v69_eq :
    after ops V main_v69
      = Tails.refTail (after ops V main_v58) (after ops V main_arg2)
          (after ops V main_arg1) := by
  rw [rd_v69 V, rd_v68 V, rd_cst_18 V, v66_eq V, rd_v67 V, rd_cst_17 V, v60_eq V]
  rfl

theorem back :
    after ops V main_v69
      = Tails.refTail (RRow.negLogSoftmax0 (after ops V main_v54)) (after ops V main_arg2)
          (after ops V main_arg1) := by
  rw [v69_eq V, v58_eq V]

theorem result_of_table :
    after ops V main_v69
      = Tails.refTail (RRow.negLogSoftmax0 (after ops V main_v54)) (V main_arg2)
          (V main_arg1) := by
  rw [v69_eq V, v58_eq V, arg2_eq V, arg1_eq V]

end Cert.ReferenceIdeal.HRun2

end
-- ==== Proof.RefResult.lean ====
import proofs.«401202_j76493367542062_3_alg».proof.Proof.RefFront
import proofs.«401202_j76493367542062_3_alg».proof.Proof.RefRead2

noncomputable section

namespace Cert.ReferenceIdeal.HRun2

open Cert.ReferenceIdeal Cert.ReferenceIdeal.Gen Idealize.ShloMosaic Idealize.ShloMosaic.TcCoe Idealize.SL.Sem
  Idealize.ShloMosaic.StableHlo Cert.Lib.Line Cert.ReferenceIdeal.HRun Cert.CLCE

variable (V : Valuation τ sig (Elt Ideal))

theorem ref_result :
    after ops V main_v69
      = Tails.refTail
          (RRow.negLogSoftmax0
            (RVal.v54 (Cert.PreDecode.xnOf (V main_arg0)) (V main_arg1)))
          (V main_arg2) (V main_arg1) := by
  rw [result_of_table V, front_v54 V]

end Cert.ReferenceIdeal.HRun2

end
-- ==== Proof.LibRowFold.lean ====
import Idealize.ShloMosaic.PureOps.Reduce
import Idealize.ShloMosaic.Lib.ValueIdx

namespace Idealize.ShloMosaic.RowFold

open Idealize.ShloMosaic Idealize.ShloMosaic.ValueIdx

variable {α β : Type} {n m : Nat}

theorem drop_eq_iff (h : (⟨2, ![n, m]⟩ : Shape).ReducesTo [1] ⟨1, ![n]⟩) (i : (⟨2, ![n, m]⟩ : Shape).Idx)
    (p : Fin n) : h.drop i = ix1 p ↔ i 0 = p := by
  have hv : (h.drop i 0 : Nat) = i 0 := Shape.ReducesTo.drop_apply_val h i 0
  constructor
  · intro e; rw [e] at hv; exact Fin.ext hv.symm
  · intro e; funext b; have hb : b = 0 := Subsingleton.elim _ _; subst hb; exact Fin.ext (by rw [hv, e]; rfl)

-- The source indices that drop to row p are, in row-major order, exactly that row's entries.
theorem filter_drop_row (h : (⟨2, ![n, m]⟩ : Shape).ReducesTo [1] ⟨1, ![n]⟩) (p : Fin n) :
    (((List.finRange (⟨2, ![n, m]⟩ : Shape).numel).map (⟨2, ![n, m]⟩ : Shape).rowMajor.symm).filter
        fun i => h.drop i = ix1 p)
      = (List.finRange m).map fun q => ix2 p q := by
  have e2 : (List.finRange m).map (fun q => (ix2 p q : (⟨2, ![n, m]⟩ : Shape).Idx))
      = ((List.finRange m).map fun q => (⟨2, ![n, m]⟩ : Shape).rowMajor (ix2 p q)).map
          (⟨2, ![n, m]⟩ : Shape).rowMajor.symm := by
    rw [List.map_map]; exact List.map_congr_left fun q _ => (Equiv.symm_apply_apply _ _).symm
  rw [List.filter_map, e2]
  congr 1
  refine List.Pairwise.eq_of_mem_iff (r := (· < ·)) ((List.pairwise_lt_finRange _).filter _) ?_ ?_
  · rw [List.pairwise_map]
    refine (List.pairwise_lt_finRange _).imp fun {a b} hab => ?_
    show (_ : Fin _).val < (_ : Fin _).val
    rw [Shape.rowMajor_val_two, Shape.rowMajor_val_two]
    show p.val * _ + a.val < p.val * _ + b.val
    have : a.val < b.val := hab
    omega
  · intro k
    simp only [List.mem_filter, List.mem_finRange, true_and, Function.comp_apply, decide_eq_true_eq, List.mem_map]
    constructor
    · intro hk
      refine ⟨(⟨2, ![n, m]⟩ : Shape).rowMajor.symm k 1, ?_⟩
      have e : ix2 p ((⟨2, ![n, m]⟩ : Shape).rowMajor.symm k 1) = (⟨2, ![n, m]⟩ : Shape).rowMajor.symm k := by
        rw [← (drop_eq_iff h _ p).1 hk]; exact (eq_ix2 _).symm
      exact (congrArg (⟨2, ![n, m]⟩ : Shape).rowMajor e).trans (Equiv.apply_symm_apply _ _)
    · rintro ⟨q, rfl⟩
      rw [Equiv.symm_apply_apply]
      exact (drop_eq_iff h _ p).2 rfl

theorem reduce_row {u : Shape} (f : α → α → α) (x : (⟨2, ![n, m]⟩ : Shape).Idx → α) (init : u.Idx → α)
    (h : (⟨2, ![n, m]⟩ : Shape).ReducesTo [1] ⟨1, ![n]⟩) (hu : 0 < u.numel) (p : Fin n) :
    Host.reduce f x init h hu (ix1 p)
      = (List.finRange m).foldl (fun r q => f r (x (ix2 p q))) (init (Shape.Idx.first hu)) := by
  rw [Host.reduce_eq_foldl, filter_drop_row, List.foldl_map]

theorem reduce2_row {u : Shape} (f : α × β → α × β → α × β) (x : (⟨2, ![n, m]⟩ : Shape).Idx → α)
    (y : (⟨2, ![n, m]⟩ : Shape).Idx → β) (ix : u.Idx → α) (iy : u.Idx → β)
    (h : (⟨2, ![n, m]⟩ : Shape).ReducesTo [1] ⟨1, ![n]⟩) (hu : 0 < u.numel) (p : Fin n) :
    Host.reduce2 f x y ix iy h hu (ix1 p)
      = (List.finRange m).foldl (fun r q => f r (x (ix2 p q), y (ix2 p q)))
          (ix (Shape.Idx.first hu), iy (Shape.Idx.first hu)) := by
  have key := Shape.foldl_filter_rowMajor_eq_foldl h.drop f (ix (Shape.Idx.first hu), iy (Shape.Idx.first hu))
    (fun i => (x i, y i)) (ix1 p)
  rw [filter_drop_row, List.foldl_map] at key
  exact key

theorem foldl_finRange_cast {γ : Type} {N M : Nat} (e : N = M) (g : γ → Fin N → γ) (b : γ) :
    (List.finRange N).foldl g b = (List.finRange M).foldl (fun r k => g r (k.cast e.symm)) b := by
  subst e; rfl

theorem window_symm_val (k : Fin (⟨2, ![1, m]⟩ : Shape).numel) :
    ((⟨2, ![1, m]⟩ : Shape).rowMajor.symm k 0).val = 0 ∧ ((⟨2, ![1, m]⟩ : Shape).rowMajor.symm k 1).val = k.val := by
  have h2 := Shape.rowMajor_val_two ((⟨2, ![1, m]⟩ : Shape).rowMajor.symm k)
  rw [Equiv.apply_symm_apply] at h2
  generalize (⟨2, ![1, m]⟩ : Shape).rowMajor.symm k = w at h2 ⊢
  have h0 : (w 0).val < 1 := (w 0).isLt
  have h00 : (w 0).val = 0 := by omega
  refine ⟨h00, ?_⟩
  rw [h00] at h2
  simpa using h2.symm

theorem reduceWindow_row {u : Shape} (f : α → α → α) (x : (⟨2, ![n, m]⟩ : Shape).Idx → α) (init : u.Idx → α)
    (p : Nat) (hp : p + 1 = m)
    (h : (⟨2, ![n, m]⟩ : Shape).ReduceWindows (![1, m] : Fin 2 → Nat) ![1, 1] ![0, p] ![0, 0] ⟨2, ![n, m]⟩)
    (hu : 0 < u.numel) (i : Fin n) (j : Fin m) :
    Host.reduceWindow f ![1, m] ![1, 1] ![0, p] ![0, 0] x init h hu (ix2 i j)
      = (List.finRange m).foldl (fun r k => f r (if hk : p ≤ j.val + k.val
            then x (ix2 i ⟨j.val + k.val - p, by have := j.isLt; have := k.isLt; omega⟩)
            else init (Shape.Idx.first hu))) (init (Shape.Idx.first hu)) := by
  have hN : (⟨2, ![1, m]⟩ : Shape).numel = m := by simp [Shape.numel, Fin.prod_univ_two]
  unfold Host.reduceWindow
  simp only []
  rw [foldl_finRange_cast hN]
  congr 1
  funext r k
  congr 1
  obtain ⟨w0, w1⟩ := window_symm_val (k.cast hN.symm)
  set w := (⟨2, ![1, m]⟩ : Shape).rowMajor.symm (k.cast hN.symm)
  have w1' : (w 1).val = k.val := w1
  have hi := i.isLt
  have hj := j.isLt
  have hk := k.isLt
  refine dite_congr (propext ?_) ?_ fun _ => rfl
  · constructor
    · intro hall
      have h1 := (hall 1).1
      change p ≤ j.val * 1 + (w 1).val at h1
      omega
    · intro hq a
      rcases a with ⟨_ | _ | a, ha⟩
      · change 0 ≤ i.val * 1 + (w 0).val ∧ i.val * 1 + (w 0).val - 0 < n
        omega
      · change p ≤ j.val * 1 + (w 1).val ∧ j.val * 1 + (w 1).val - p < m
        omega
      · exact absurd ha (by simp)
  · intro hq
    refine congrArg x (funext fun a => Fin.ext ?_)
    rcases a with ⟨_ | _ | a, ha⟩
    · change i.val * 1 + (w 0).val - 0 = i.val
      omega
    · change j.val * 1 + (w 1).val - p = j.val + k.val - p
      omega
    · exact absurd ha (by simp)

theorem foldl_add_finRange [AddCommMonoid α] {N : Nat} (g : Fin N → α) :
    (List.finRange N).foldl (fun r k => r + g k) 0 = ∑ k, g k := by
  rw [Fin.sum_univ_def, List.sum_eq_foldl, List.foldl_map]

-- The window at column j reaches back over columns 0 to j, so the window sum is the running sum.
theorem reduceWindow_row_sum [AddCommMonoid α] {u : Shape} (x : (⟨2, ![n, m]⟩ : Shape).Idx → α) (init : u.Idx → α)
    (p : Nat) (hp : p + 1 = m)
    (h : (⟨2, ![n, m]⟩ : Shape).ReduceWindows (![1, m] : Fin 2 → Nat) ![1, 1] ![0, p] ![0, 0] ⟨2, ![n, m]⟩)
    (hu : 0 < u.numel) (h0 : init (Shape.Idx.first hu) = 0) (i : Fin n) (j : Fin m) :
    Host.reduceWindow (· + ·) ![1, m] ![1, 1] ![0, p] ![0, 0] x init h hu (ix2 i j)
      = ∑ j' ∈ Finset.univ.filter (fun j' : Fin m => j'.val ≤ j.val), x (ix2 i j') := by
  rw [reduceWindow_row (· + ·) x init p hp h hu i j, h0, foldl_add_finRange]
  have hj := j.isLt
  rw [← Finset.sum_filter_of_ne (p := fun k : Fin m => p ≤ j.val + k.val)
    (fun k _ hne => by by_contra hP; exact hne (dif_neg hP))]
  refine Finset.sum_bij' (fun k _ => (⟨j.val + k.val - p, by have := k.isLt; omega⟩ : Fin m))
    (fun j' hj' => (⟨j'.val + p - j.val, by have := (Finset.mem_filter.1 hj').2; omega⟩ : Fin m)) ?_ ?_ ?_ ?_
    fun k hk => dif_pos (Finset.mem_filter.1 hk).2
  all_goals intro a ha; have ha2 := (Finset.mem_filter.1 ha).2; have := a.isLt
  · exact Finset.mem_filter.2 ⟨Finset.mem_univ _, by show j.val + a.val - p ≤ j.val; omega⟩
  · exact Finset.mem_filter.2 ⟨Finset.mem_univ _, by show p ≤ j.val + (a.val + p - j.val); omega⟩
  · exact Fin.ext (by show j.val + a.val - p + p - j.val = a.val; omega)
  · exact Fin.ext (by show j.val + (a.val + p - j.val) - p = a.val; omega)

end Idealize.ShloMosaic.RowFold
-- ==== Proof.RefInt.lean ====
import proofs.«401202_j76493367542062_3_alg».proof.ReferenceIdeal
import proofs.«401202_j76493367542062_3_alg».proof.Proof.Spec
import proofs.«401202_j76493367542062_3_alg».proof.Proof.LibRowFold
import Idealize.ShloMosaic.Lib.StableHlo.Predicate
import Mathlib.Data.BitVec

namespace Cert.ReferenceIdeal.RInt

open Idealize.ShloMosaic Idealize.ShloMosaic.ValueIdx Cert.CLCE
open Idealize.ShloMosaic.StableHlo.Predicate (toInt_ofNat_small)

def prefCount (pm : IVec S4096x4096 1) (i j : Fin 4096) : ℕ :=
  (Finset.univ.filter fun j' : Fin 4096 => j'.val ≤ j.val ∧ pm (ix2 i j') = 1#1).card

-- Below 2³¹ the signed order of two words is the order of the numbers.
theorem slt_ofNat (a b : ℕ) (ha : a < 2 ^ 31) (hb : b < 2 ^ 31) :
    (BitVec.ofNat 32 a).slt (BitVec.ofNat 32 b) = decide (a < b) := by
  simp only [BitVec.slt, toInt_ofNat_small a ha, toInt_ofNat_small b hb, Nat.cast_lt]

-- The reducer keeps the larger flag and, on equal flags, the smaller index.
theorem reducer_eq (a1 b1 : BitVec 1) (a2 b2 : BitVec 32) :
    reducer_argmax_i1_i32 (a1, a2) (b1, b2)
      = (if b1.ult a1 then a1 else b1, if (b1.ult a1 || (a1 == b1 && a2.slt b2)) then a2 else b2) := by
  rcases BitVec.eq_zero_or_eq_one a1 with rfl | rfl <;> rcases BitVec.eq_zero_or_eq_one b1 with rfl | rfl <;>
    cases hs : a2.slt b2 <;>
    simp [reducer_argmax_i1_i32, IntOp.cmpi, IntOp.ori, IntOp.andi, Scalar.select, hs]

def step (b : Fin 4096 → BitVec 1) (r : BitVec 1 × BitVec 32) (q : Fin 4096) : BitVec 1 × BitVec 32 :=
  reducer_argmax_i1_i32 r (b q, BitVec.ofNat 32 q.val)

theorem step_zero_set (b : Fin 4096 → BitVec 1) (q : Fin 4096) (hq : b q = 1#1) :
    step b (0#1, 0#32) q = (1#1, BitVec.ofNat 32 q.val) := by
  unfold step; rw [reducer_eq, hq]; rfl

theorem step_zero_unset (b : Fin 4096 → BitVec 1) (q : Fin 4096) (hq : b q ≠ 1#1) :
    step b (0#1, 0#32) q = (0#1, 0#32) := by
  have hq0 : b q = 0#1 := eq_zero_of_ne_one hq
  have hlt : q.val < 2 ^ 31 := lt_trans q.isLt (by norm_num)
  unfold step; rw [reducer_eq, hq0]
  have hs := slt_ofNat 0 q.val (by norm_num) hlt
  by_cases h0 : 0 < q.val
  · rw [show (0#32 : BitVec 32) = BitVec.ofNat 32 0 from rfl, hs, decide_eq_true h0]; rfl
  · have : q.val = 0 := by omega
    rw [this]; cases (0#32 : BitVec 32).slt (BitVec.ofNat 32 0) <;> rfl

theorem step_one (b : Fin 4096 → BitVec 1) (q0 q : Fin 4096) (h : q0 < q) :
    step b (1#1, BitVec.ofNat 32 q0.val) q = (1#1, BitVec.ofNat 32 q0.val) := by
  have hlt0 : q0.val < 2 ^ 31 := lt_trans q0.isLt (by norm_num)
  have hlt : q.val < 2 ^ 31 := lt_trans q.isLt (by norm_num)
  have hs := slt_ofNat q0.val q.val hlt0 hlt
  rw [decide_eq_true (show q0.val < q.val from h)] at hs
  unfold step; rw [reducer_eq, hs]
  rcases BitVec.eq_zero_or_eq_one (b q) with e | e <;> rw [e] <;> rfl

-- A state that every listed step leaves alone is left alone by the fold.
theorem foldl_fixed {α β : Type} (f : β → α → β) (r : β) (P : α → Prop) (hf : ∀ q, P q → f r q = r) :
    ∀ l : List α, (∀ q ∈ l, P q) → l.foldl f r = r
  | [], _ => rfl
  | a :: l, h => by
    rw [List.foldl_cons, hf a (h a List.mem_cons_self)]
    exact foldl_fixed f r P hf l fun q hq => h q (List.mem_cons_of_mem _ hq)

-- Over an increasing list the fold settles on the first set position.
theorem foldl_step_first (b : Fin 4096 → BitVec 1) (q0 : Fin 4096) (hb : b q0 = 1#1) :
    ∀ l : List (Fin 4096), l.Pairwise (· < ·) → q0 ∈ l → (∀ q ∈ l, q < q0 → b q ≠ 1#1) →
      l.foldl (step b) (0#1, 0#32) = (1#1, BitVec.ofNat 32 q0.val)
  | [], _, hm, _ => absurd hm List.not_mem_nil
  | a :: l, hp, hm, hmin => by
    obtain ⟨ha, hp'⟩ := List.pairwise_cons.1 hp
    rw [List.foldl_cons]
    rcases List.mem_cons.1 hm with rfl | hm'
    · rw [step_zero_set b q0 hb]; exact foldl_fixed _ _ (q0 < ·) (step_one b q0) l ha
    · rw [step_zero_unset b a (hmin a List.mem_cons_self (ha q0 hm'))]
      exact foldl_step_first b q0 hb l hp' hm' fun q hq => hmin q (List.mem_cons_of_mem _ hq)

-- The row reduction returns the least positive of the row, or 0 when there is none.
theorem argmax_row_firstPos (y : Fin 4096 → BitVec 32) (pm : IVec S4096x4096 1)
    (hpm : ∀ i j, pm (ix2 i j) = 1#1 ↔ (j ≠ i ∧ y j = y i))
    (h : S4096x4096.ReducesTo [1] S4096) (hu : 0 < S_.numel) (i : Fin 4096) :
    (Host.reduce2 reducer_argmax_i1_i32 pm (iotaInDim S4096x4096 32 1) (constantI S_ 1 0#1) (constantI S_ 32 0#32)
        h hu (ix1 i)).2 = BitVec.ofNat 32 (firstPos y i).val := by
  have hS : ∀ j, pm (ix2 i j) = 1#1 ↔ j ∈ posSet y i := fun j =>
    (hpm i j).trans (by simp only [posSet, Finset.mem_filter, Finset.mem_univ, true_and])
  rw [RowFold.reduce2_row]
  show ((List.finRange 4096).foldl (step fun q => pm (ix2 i q)) (0#1, 0#32)).2 = _
  unfold firstPos
  split
  · rename_i hne
    exact (congrArg Prod.snd (foldl_step_first _ ((posSet y i).min' hne) ((hS _).2 ((posSet y i).min'_mem hne)) _
      (List.pairwise_lt_finRange _) (List.mem_finRange _)
      fun q _ hq hset => absurd (Finset.min'_le _ q ((hS q).1 hset)) (not_le.2 hq))).trans rfl
  · rename_i hne
    exact (congrArg Prod.snd (foldl_fixed _ _ (fun q => pm (ix2 i q) ≠ 1#1) (step_zero_unset _) _
      fun q _ hset => hne ⟨q, (hS q).1 hset⟩)).trans rfl

theorem ori_eq_one (a b : BitVec 1) : IntOp.ori a b = 1#1 ↔ a = 1#1 ∨ b = 1#1 := by
  rcases BitVec.eq_zero_or_eq_one a with rfl | rfl <;> rcases BitVec.eq_zero_or_eq_one b with rfl | rfl <;> decide

-- An or-fold is set exactly when its start or one of its entries is.
theorem foldl_ori {ι : Type} (b : ι → BitVec 1) :
    ∀ (l : List ι) (init : BitVec 1),
      l.foldl (fun r q => IntOp.ori r (b q)) init = 1#1 ↔ init = 1#1 ∨ ∃ q ∈ l, b q = 1#1
  | [], init => by simp
  | a :: l, init => by
    rw [List.foldl_cons, foldl_ori b l, ori_eq_one]
    simp only [List.mem_cons, exists_eq_or_imp, or_assoc]

theorem or_row_posSet (y : Fin 4096 → BitVec 32) (pm : IVec S4096x4096 1)
    (hpm : ∀ i j, pm (ix2 i j) = 1#1 ↔ (j ≠ i ∧ y j = y i))
    (h : S4096x4096.ReducesTo [1] S4096) (hu : 0 < S_.numel) (i : Fin 4096) :
    Host.reduce IntOp.ori pm (constantI S_ 1 0#1) h hu (ix1 i) = 1#1 ↔ (posSet y i).Nonempty := by
  rw [RowFold.reduce_row]
  show (List.finRange 4096).foldl (fun r q => IntOp.ori r (pm (ix2 i q))) 0#1 = 1#1 ↔ _
  rw [foldl_ori fun q => pm (ix2 i q)]
  constructor
  · rintro (h0 | ⟨q, _, hq⟩)
    · exact absurd h0 (by decide)
    · exact ⟨q, Finset.mem_filter.2 ⟨Finset.mem_univ _, (hpm i q).1 hq⟩⟩
  · rintro ⟨q, hq⟩; exact Or.inr ⟨q, List.mem_finRange _, (hpm i q).2 (Finset.mem_filter.1 hq).2⟩

theorem setWidth_bit (b : BitVec 1) : b.setWidth 32 = if b = 1#1 then (1 : BitVec 32) else 0 := by
  rcases BitVec.eq_zero_or_eq_one b with rfl | rfl <;> rfl

variable (pm : IVec S4096x4096 1)

-- The windowed sum along a row counts the set bits up to the column.
theorem cumsum_at (v : IVec S_ 32) (hv : ∀ k, v k = 0#32) (hw : 1 < 32)
    (h : S4096x4096.ReduceWindows (![1, 4096] : Fin 2 → Nat) ![1, 1] ![0, 4095] ![0, 0] S4096x4096)
    (hu : 0 < S_.numel) (i j : Fin 4096) :
    Host.reduceWindow IntOp.addi ![1, 4096] ![1, 1] ![0, 4095] ![0, 0] (extui 32 pm hw) v h hu (ix2 i j)
      = BitVec.ofNat 32 (prefCount pm i j) := by
  have key := RowFold.reduceWindow_row_sum (extui 32 pm hw) v 4095 rfl h hu (hv _) i j
  rw [show (IntOp.addi : BitVec 32 → BitVec 32 → BitVec 32) = (· + ·) from rfl, key]
  show ∑ j' ∈ Finset.univ.filter (fun j' : Fin 4096 => j'.val ≤ j.val), (pm (ix2 i j')).setWidth 32 = _
  simp only [setWidth_bit]
  rw [Finset.sum_boole, Finset.filter_filter]
  rfl

theorem prefCount_le (i j : Fin 4096) : prefCount pm i j ≤ j.val + 1 := by
  unfold prefCount
  calc _ ≤ (Finset.range (j.val + 1)).card :=
        Finset.card_le_card_of_injOn Fin.val
          (fun a ha => Finset.mem_coe.2 (Finset.mem_range.2
            (Nat.lt_succ_of_le (Finset.mem_filter.1 (Finset.mem_coe.1 ha)).2.1)))
          (fun a _ b _ e => Fin.ext e)
    _ = j.val + 1 := Finset.card_range _

theorem prefCount_pos (i j : Fin 4096) (hj : pm (ix2 i j) = 1#1) : 1 ≤ prefCount pm i j :=
  Finset.card_pos.2 ⟨j, Finset.mem_filter.2 ⟨Finset.mem_univ _, le_refl _, hj⟩⟩

theorem prefCount_le_of_unset (i j j0 : Fin 4096) (h0 : pm (ix2 i j0) ≠ 1#1) :
    prefCount pm i j ≤ 4095 := by
  have hsub : (Finset.univ.filter fun j' : Fin 4096 => j'.val ≤ j.val ∧ pm (ix2 i j') = 1#1) ⊆ Finset.univ.erase j0 :=
    fun a ha => Finset.mem_erase.2 ⟨fun e => h0 (e ▸ (Finset.mem_filter.1 ha).2.2), Finset.mem_univ _⟩
  have hc : (Finset.univ.erase j0 : Finset (Fin 4096)).card = 4095 := by
    rw [Finset.card_erase_of_mem (Finset.mem_univ _), Finset.card_univ, Fintype.card_fin]
  unfold prefCount
  exact hc ▸ Finset.card_le_card hsub

-- Passing a set column strictly raises the count.
theorem prefCount_lt (i : Fin 4096) {j k : Fin 4096} (hjk : j < k) (hk : pm (ix2 i k) = 1#1) :
    prefCount pm i j < prefCount pm i k := by
  refine Finset.card_lt_card ((Finset.ssubset_iff_of_subset fun a ha =>
    Finset.mem_filter.2 ⟨Finset.mem_univ _, le_trans (Finset.mem_filter.1 ha).2.1 (le_of_lt hjk),
      (Finset.mem_filter.1 ha).2.2⟩).2 ⟨k, Finset.mem_filter.2 ⟨Finset.mem_univ _, le_refl _, hk⟩, fun hmem => ?_⟩)
  exact absurd (Finset.mem_filter.1 hmem).2.1 (not_le.2 hjk)

theorem prefCount_inj (i : Fin 4096) {j k : Fin 4096} (hj : pm (ix2 i j) = 1#1)
    (hk : pm (ix2 i k) = 1#1) (e : prefCount pm i j = prefCount pm i k) : j = k :=
  le_antisymm (not_lt.1 fun h => (prefCount_lt pm i h hj).ne' e) (not_lt.1 fun h => (prefCount_lt pm i h hk).ne e)

end Cert.ReferenceIdeal.RInt
-- ==== Proof.RefVals2.lean ====
import proofs.«401202_j76493367542062_3_alg».proof.Proof.RefVals
import proofs.«401202_j76493367542062_3_alg».proof.Proof.RefInt

noncomputable section

open scoped BigOperators

namespace Cert.ReferenceIdeal.RVal

open Idealize.ShloMosaic Idealize.ShloMosaic.ValueIdx Cert.ReferenceIdeal
open Cert.ReferenceIdeal.Facts₀

variable [Facts]

theorem call5_call0_v0_apply (k : S_.Idx) : call5_call0_v0 k = 0#32 := by
  unfold call5_call0_v0 call5_call0_c
  rw [broadcastInDim_scalar_apply]
  rfl

section
variable (yv : IVec S4096 32) (y : Fin 4096 → BitVec 32) (hy : ∀ i, yv (ix1 i) = y i) (i j : Fin 4096)
include hy

theorem v32_apply : v32 yv (ix2 i j) = if y i = y j then 8191#32 else BitVec.ofNat 32 (RInt.prefCount (v24 yv) i j) := by
  have hcum := RInt.cumsum_at (v24 yv) call5_call0_v0 call5_call0_v0_apply natLt_1_32
    reduceWindows_S4096x4096_S4096x4096_w1s1p0_0_w4096s1p4095_0 h_S_ i j
  unfold v32 call6_v1 call6_v0 c_5
  rw [select_apply, v24_apply, hy, hy, broadcastInDim_scalar_apply]
  unfold v31 call5_v0
  rw [hcum]
  show Scalar.select _ _ (8191#32) = _
  by_cases h : y i = y j
  · rw [if_pos h, if_pos h, select_zero]
  · rw [if_neg h, if_neg h, select_one]

-- A negative's column is its rank among the row's negatives; every other entry is sent to 8191.
theorem v46_apply : v46 yv (ix2 i j) = if y i = y j then 8191#32 else BitVec.ofNat 32 (RInt.prefCount (v24 yv) i j) := by
  obtain ⟨n, hn, hv⟩ : ∃ n : ℕ, n < 2 ^ 31 ∧ v32 yv (ix2 i j) = BitVec.ofNat 32 n := by
    rw [v32_apply yv y hy]
    by_cases h : y i = y j
    · exact ⟨8191, by norm_num, by rw [if_pos h]⟩
    · exact ⟨RInt.prefCount (v24 yv) i j, by have := RInt.prefCount_le (v24 yv) i j; have := j.isLt; omega, by rw [if_neg h]⟩
  rw [← v32_apply yv y hy i j]
  unfold v46 v43 v42 c_10
  rw [select_apply]
  show Scalar.select (IntOp.cmpi .slt (v32 yv (ix2 i j)) _) _ _ = _
  rw [broadcastInDim_scalar_apply, hv]
  show Scalar.select (IntOp.cmpi .slt (BitVec.ofNat 32 n) 0#32) _ _ = _
  rw [slt_ofNat32_zero hn, select_zero]

end

end Cert.ReferenceIdeal.RVal

end
-- ==== Proof.RefScatter.lean ====
import proofs.«401202_j76493367542062_3_alg».proof.ReferenceIdeal
import Idealize.ShloMosaic.Lib.ValueIdx

noncomputable section

open scoped BigOperators

namespace Cert.ReferenceIdeal.RScat

open Idealize.ShloMosaic Idealize.ShloMosaic.ValueIdx

variable [Facts₀]
open Facts₀

abbrev idxPairs (rows cols : IVec S4096x4096 32) : IVec S4096x4096x2 32 :=
  concatenate S4096x4096x2 2
    [⟨S4096x4096x1, broadcastInDim S4096x4096x1 ![0, 1] bcast_S4096x4096_S4096x4096x1_0_1 rows⟩,
     ⟨S4096x4096x1, broadcastInDim S4096x4096x1 ![0, 1] bcast_S4096x4096_S4096x4096x1_0_1 cols⟩]
    concatenates_S4096x4096x1_S4096x4096x1_S4096x4096x2_d2

theorem idxPairs_row (rows cols : IVec S4096x4096 32) (i j : Fin 4096) :
    idxPairs rows cols (ix3 i j (0 : Fin 2)) = rows (ix2 i j) := by
  show rows _ = rows _
  congr 1
  funext a
  match a with
  | ⟨0, _⟩ => rfl
  | ⟨1, _⟩ => rfl

theorem idxPairs_col (rows cols : IVec S4096x4096 32) (i j : Fin 4096) :
    idxPairs rows cols (ix3 i j (1 : Fin 2)) = cols (ix2 i j) := by
  show cols _ = cols _
  congr 1
  funext a
  match a with
  | ⟨0, _⟩ => rfl
  | ⟨1, _⟩ => rfl

-- An update lands on an index exactly when start plus window offset equals it on every axis.
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hi := Option.some.inj h
      have hv := congrArg (fun f => (f a).val) hi
      simp only at hv
      have := (hin a).1
      omega
    · exact absurd h (by simp)
  · intro h
    have hin : ∀ a, 0 ≤ d.start j idx a + (d.window j a : Int) ∧ d.start j idx a + (d.window j a : Int) < (s.size a : Int) := by
      intro a; rw [h a]; exact ⟨Int.natCast_nonneg _, by exact_mod_cast (i a).isLt⟩
    rw [dif_pos hin]
    congr 1
    funext a
    refine Fin.ext ?_
    show (d.start j idx a + (d.window j a : Int)).toNat = (i a).val
    rw [h a]; exact Int.toNat_natCast _

private abbrev dA : ScatterDims S4096x8192 S4096x4096x2 S4096x4096 := scatter_S4096x8192_S4096x4096x2_S4096x4096_n_01_01_2

private theorem dA_window (j : S4096x4096.Idx) (a : Fin 2) : dA.window j a = 0 := by
  unfold ScatterDims.window
  rw [dif_neg]
  show a ∉ Shape.kept S4096x8192 ([0, 1] : List (Fin 2))
  revert a; decide

private theorem dA_start (idx : IVec S4096x4096x2 32) (j : S4096x4096.Idx) (k : Fin 2) :
    dA.start j idx k = (idx (ix3 (n0 := 4096) (n1 := 4096) (j 0) (j 1) k)).toInt := by
  unfold ScatterDims.start
  have hk : k ∈ dA.scatterDimsToOperandDims := by
    show k ∈ ([0, 1] : List (Fin 2))
    revert k; decide
  rw [dif_pos hk]
  congr 2
  funext b
  refine Fin.ext ?_
  match k with
  | ⟨0, _⟩ =>
    match b with
    | ⟨0, _⟩ => rfl
    | ⟨1, _⟩ => rfl
    | ⟨2, _⟩ => rfl
  | ⟨1, _⟩ =>
    match b with
    | ⟨0, _⟩ => rfl
    | ⟨1, _⟩ => rfl
    | ⟨2, _⟩ => rfl

private theorem dA_resultIdx_iff (idx : IVec S4096x4096x2 32) (j : S4096x4096.Idx) (r : Fin 4096) (c : Fin 8192) :
    dA.resultIdx? j idx = some (ix2 r c) ↔
      (idx (ix3 (n0 := 4096) (n1 := 4096) (j 0) (j 1) (0 : Fin 2))).toInt = (r.val : Int)
        ∧ (idx (ix3 (n0 := 4096) (n1 := 4096) (j 0) (j 1) (1 : Fin 2))).toInt = (c.val : Int) := by
  rw [resultIdx?_eq_some_iff, Fin.forall_fin_two]
  simp only [dA_window, dA_start, Nat.cast_zero, add_zero]

-- When every row index is its own row, element (r, c) collects the updates of row r whose column index is c.
theorem scatterAdd_row (Z : FVec Ideal S4096x8192 .f32) (idx : IVec S4096x4096x2 32) (upd : FVec Ideal S4096x4096 .f32)
    (hrow : ∀ i j : Fin 4096, (idx (ix3 i j (0 : Fin 2))).toInt = (i.val : Int)) (r : Fin 4096) (c : Fin 8192) :
    Host.scatterAdd (F := Ideal) scatter_S4096x8192_S4096x4096x2_S4096x4096_n_01_01_2 Z idx upd (ix2 r c)
      = Z (ix2 r c) + ∑ j ∈ Finset.univ.filter (fun j : Fin 4096 => (idx (ix3 r j (1 : Fin 2))).toInt = (c.val : Int)),
          upd (ix2 r j) := by
  unfold Host.scatterAdd
  rw [Ideal.hostScatterAdd_def]
  unfold Ideal.hostScatterAdd
  refine congrArg (fun t => Z (ix2 r c) + t) ?_
  have hp0 : ∀ p : S4096x4096.Idx, dA.resultIdx? p idx = some (ix2 r c) → p = ix2 r (p 1) := fun p h => by
    have h1 := (hrow (p 0) (p 1)).symm.trans ((dA_resultIdx_iff idx p r c).1 h).1
    exact (eq_ix2 p).trans (congrArg (fun a => ix2 a (p 1)) (Fin.ext (by exact_mod_cast h1)))
  refine Finset.sum_bij' (fun p _ => p 1) (fun j _ => ix2 r j) ?_ ?_ ?_ ?_ ?_
  · intro p hp
    have h := (Finset.mem_filter.mp hp).2
    have h2 := ((dA_resultIdx_iff idx p r c).1 h).2
    rw [show p 0 = r from congrFun (hp0 p h) 0] at h2
    exact Finset.mem_filter.mpr ⟨Finset.mem_univ _, h2⟩
  · intro j hj
    exact Finset.mem_filter.mpr ⟨Finset.mem_univ _,
      (dA_resultIdx_iff idx (ix2 r j) r c).2 ⟨hrow r j, (Finset.mem_filter.mp hj).2⟩⟩
  · exact fun p hp => (hp0 p (Finset.mem_filter.mp hp).2).symm
  · exact fun j _ => rfl
  · exact fun p hp => congrArg upd (hp0 p (Finset.mem_filter.mp hp).2)

-- An overwriting fold leaves alone a key that no step names.
private theorem foldl_set_miss {ι κ α : Type} [DecidableEq κ] (g : ι → κ) (v : ι → α) (l : List ι) (x : κ → α) (k : κ)
    (h : ∀ n ∈ l, g n ≠ k) : l.foldl (fun r n i' => if i' = g n then v n else r i') x k = x k := by
  induction l generalizing x with
  | nil => rfl
  | cons m l ih =>
    rw [List.foldl_cons, ih _ fun n hn => h n (List.mem_cons_of_mem _ hn)]
    exact if_neg fun e => h m List.mem_cons_self e.symm

-- A key named by exactly one step of an overwriting fold ends with that step's value.
private theorem foldl_set_hit {ι κ α : Type} [DecidableEq κ] (g : ι → κ) (v : ι → α) (l : List ι) (hl : l.Nodup) (x : κ → α)
    (k : κ) (n : ι) (hn : n ∈ l) (hk : g n = k) (huniq : ∀ m ∈ l, g m = k → m = n) :
    l.foldl (fun r n i' => if i' = g n then v n else r i') x k = v n := by
  induction l generalizing x with
  | nil => cases hn
  | cons m l ih =>
    rw [List.foldl_cons]
    have hnd := List.nodup_cons.mp hl
    by_cases hmn : m = n
    · subst hmn
      rw [foldl_set_miss g v l _ k fun n' hn' e => hnd.1 (huniq n' (List.mem_cons_of_mem _ hn') e ▸ hn')]
      exact if_pos hk.symm
    · exact ih hnd.2 _ ((List.mem_cons.mp hn).resolve_left fun e => hmn e.symm) fun m' hm' =>
        huniq m' (List.mem_cons_of_mem _ hm')

private abbrev dS : ScatterDims S4096x8192 S1 S4096 := scatter_S4096x8192_S1_S4096_0_1_1_0

private theorem dS_resultIdx (idx0 : IVec S1 32) (h0 : (idx0 (ix1 (0 : Fin 1))).toInt = 0) (j : S4096.Idx) :
    dS.resultIdx? j idx0 = some (ix2 (n0 := 4096) (n1 := 8192) (j 0) (0 : Fin 8192)) := by
  rw [resultIdx?_eq_some_iff, Fin.forall_fin_two]
  constructor
  · show dS.start j idx0 (0 : Fin 2) + (dS.window j (0 : Fin 2) : Int) = ((j 0).val : Int)
    have hs : dS.start j idx0 (0 : Fin 2) = 0 := by
      unfold ScatterDims.start
      have hk : (0 : Fin 2) ∉ dS.scatterDimsToOperandDims := (by decide : (0 : Fin 2) ∉ ([1] : List (Fin 2)))
      rw [dif_neg hk]
    have hw : dS.window j (0 : Fin 2) = (j 0).val := by
      unfold ScatterDims.window
      have hk : (0 : Fin 2) ∈ dS.sKept := (by decide : (0 : Fin 2) ∈ Shape.kept S4096x8192 ([1] : List (Fin 2)))
      rw [dif_pos hk]
      rfl
    rw [hs, hw, zero_add]
  · show dS.start j idx0 (1 : Fin 2) + (dS.window j (1 : Fin 2) : Int) = ((0 : Fin 8192).val : Int)
    have hs : dS.start j idx0 (1 : Fin 2) = 0 := by
      unfold ScatterDims.start
      have hk : (1 : Fin 2) ∈ dS.scatterDimsToOperandDims := (by decide : (1 : Fin 2) ∈ ([1] : List (Fin 2)))
      rw [dif_pos hk]
      rw [← h0]
      congr 2
      funext b
      refine Fin.ext ?_
      match b with
      | ⟨0, _⟩ => rfl
    have hw : dS.window j (1 : Fin 2) = 0 := by
      unfold ScatterDims.window
      have hk : (1 : Fin 2) ∉ dS.sKept := (by decide : (1 : Fin 2) ∉ Shape.kept S4096x8192 ([1] : List (Fin 2)))
      rw [dif_neg hk]
    rw [hs, hw]
    rfl

-- The second scatter overwrites column 0 of every row and nothing else.
theorem scatterSet_apply {α : Type} (T : S4096x8192.Idx → α) (idx0 : IVec S1 32) (s : S4096.Idx → α)
    (h0 : (idx0 (ix1 (0 : Fin 1))).toInt = 0) (r : Fin 4096) (c : Fin 8192) :
    Host.scatter scatter_S4096x8192_S1_S4096_0_1_1_0 (fun _ b => b) T idx0 s (ix2 r c)
      = if c.val = 0 then s (ix1 r) else T (ix2 r c) := by
  unfold Host.scatter
  simp only [dS_resultIdx idx0 h0]
  by_cases hc : c.val = 0
  · rw [if_pos hc]
    obtain rfl : c = (0 : Fin 8192) := Fin.ext hc
    refine (foldl_set_hit _ _ _ (List.nodup_finRange _) T _ (S4096.rowMajor (ix1 r)) (List.mem_finRange _) ?_
      fun m _ hm => ?_).trans ?_
    · rw [Equiv.symm_apply_apply]
    · have h1 : (S4096.rowMajor.symm m) 0 = r := congrArg (fun i : S4096x8192.Idx => i 0) hm
      exact (Equiv.symm_apply_eq _).1 ((eq_ix1 _).trans (congrArg ix1 h1))
    · rw [Equiv.symm_apply_apply]
  · rw [if_neg hc]
    exact foldl_set_miss _ _ _ T _ fun n _ hn => hc (congrArg (fun i : S4096x8192.Idx => (i 1).val) hn).symm

theorem slice_apply {α : Type} (T : S4096x8192.Idx → α) (r : Fin 4096) (c : Fin 8191) :
    extractStridedSlice S4096x8191 ![0, 0] T slices_S4096x8192_S4096x8191_0_0 (ix2 r c)
      = T (ix2 r (⟨c.val, by omega⟩ : Fin 8192)) := by
  unfold extractStridedSlice
  congr 1
  funext a
  match a with
  | ⟨0, _⟩ => exact Fin.ext (Nat.zero_add _)
  | ⟨1, _⟩ => exact Fin.ext (Nat.zero_add _)

private abbrev dG : GatherDims S4096x4096 S4096x1x1 S4096x1 := gather_S4096x4096_S4096x1x1_S4096x1_n_1_0_0_1_2_11

-- The gather reads row i at the column its start index names, when that column is in range.
theorem gather_apply_of_lt {α : Type} (x : S4096x4096.Idx → α) (idx : IVec S4096x1x1 32) (i : Fin 4096)
    (h : (idx (ix3 i (0 : Fin 1) (0 : Fin 1))).toInt.toNat < 4096) :
    Host.gather gather_S4096x4096_S4096x1x1_S4096x1_n_1_0_0_1_2_11 x idx (ix2 i (0 : Fin 1))
      = x (ix2 i (⟨(idx (ix3 i (0 : Fin 1) (0 : Fin 1))).toInt.toNat, h⟩ : Fin 4096)) := by
  unfold Host.gather
  congr 1
  funext a
  refine Fin.ext ?_
  match a with
  | ⟨0, _⟩ =>
    show dG.start (ix2 i (0 : Fin 1)) idx (0 : Fin 2) + dG.batchCoord (ix2 i (0 : Fin 1)) (0 : Fin 2)
      + dG.offCoord (ix2 i (0 : Fin 1)) (0 : Fin 2) = i.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show dG.start (ix2 i (0 : Fin 1)) idx (1 : Fin 2) + dG.batchCoord (ix2 i (0 : Fin 1)) (1 : Fin 2)
      + dG.offCoord (ix2 i (0 : Fin 1)) (1 : Fin 2) = _
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dG.startIndexMap from List.mem_singleton.mpr rfl)]
    have hsi : dG.siIdx (ix2 i (0 : Fin 1)) ⟨List.idxOf (1 : Fin 2) dG.startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    show min _ 4095 = _
    exact Nat.min_eq_left (by omega)

variable (Z : FVec Ideal S4096x8192 .f32) (rows cols : IVec S4096x4096 32) (upd : FVec Ideal S4096x4096 .f32)
    (idx0 : IVec S1 32) (s : FVec Ideal S4096 .f32)

abbrev LT : FVec Ideal S4096x8191 .f32 :=
  extractStridedSlice S4096x8191 ![0, 0]
    (Host.scatter scatter_S4096x8192_S1_S4096_0_1_1_0 (fun _ b => b)
      (Host.scatterAdd (F := Ideal) scatter_S4096x8192_S4096x4096x2_S4096x4096_n_01_01_2 Z (idxPairs rows cols) upd) idx0 s)
    slices_S4096x8192_S4096x8191_0_0

theorem LT_zero (h0 : (idx0 (ix1 (0 : Fin 1))).toInt = 0) (r : Fin 4096) :
    LT Z rows cols upd idx0 s (ix2 r (0 : Fin 8191)) = s (ix1 r) :=
  (slice_apply _ r (0 : Fin 8191)).trans ((scatterSet_apply _ idx0 s h0 r _).trans (if_pos rfl))

theorem LT_pos (hZ : ∀ i, Z i = 0) (hrows : ∀ i j : Fin 4096, (rows (ix2 i j)).toInt = (i.val : Int))
    (h0 : (idx0 (ix1 (0 : Fin 1))).toInt = 0) (r : Fin 4096) (c : Fin 8191) (hc : 1 ≤ c.val) :
    LT Z rows cols upd idx0 s (ix2 r c)
      = ∑ j ∈ Finset.univ.filter (fun j : Fin 4096 => (cols (ix2 r j)).toInt = (c.val : Int)), upd (ix2 r j) := by
  refine (slice_apply _ r c).trans ((scatterSet_apply _ idx0 s h0 r _).trans ((if_neg ?_).trans ?_))
  · show ¬ c.val = 0
    omega
  rw [scatterAdd_row Z _ upd (fun i j => by rw [idxPairs_row]; exact hrows i j) r _, hZ, zero_add]
  simp only [idxPairs_col]

end Cert.ReferenceIdeal.RScat

end
-- ==== Proof.RefRow.lean ====
import proofs.«401202_j76493367542062_3_alg».proof.ReferenceIdeal
import proofs.«401202_j76493367542062_3_alg».proof.Proof.RefRowDefs
import proofs.«401202_j76493367542062_3_alg».proof.Proof.Spec
import proofs.«401202_j76493367542062_3_alg».proof.Proof.RealLaws
import Idealize.ShloMosaic.Lib.ValueIdx
import Idealize.ShloMosaic.Lib.IdealHost
import Idealize.ShloMosaic.PureOps.Ideal.Laws
import Idealize.ShloMosaic.Lib.Pipeline.Value
import Idealize.ShloMosaic.Lib.StableHlo.Predicate

noncomputable section

open scoped BigOperators

namespace Cert.ReferenceIdeal.RRow

open Idealize.ShloMosaic Idealize.ShloMosaic.ValueIdx Cert.ReferenceIdeal Cert.CLCE Finset
open Cert.ReferenceIdeal.Facts₀

variable [Facts]

theorem bcastCol_apply {α : Type} (v : S4096.Idx → α) (i : Fin 4096) :
    broadcastInDim S4096x1 ![0] bcast_S4096_S4096x1_0 v (ix2 i (0 : Fin 1)) = v (ix1 i) :=
  broadcastInDim_apply _ _ v _ (ix1 i) fun a => match a with | ⟨0, _⟩ => rfl

theorem bcastRow_apply {α : Type} (v : S4096x1.Idx → α) (i : Fin 4096) (c : Fin 8191) :
    broadcastInDim S4096x8191 ![0, 1] bcast_S4096x1_S4096x8191_0_1 v (ix2 i c) = v (ix2 i (0 : Fin 1)) :=
  broadcastInDim_apply _ _ v _ (ix2 i (0 : Fin 1)) fun a => match a with | ⟨0, _⟩ => rfl | ⟨1, _⟩ => rfl

theorem sliceCol0_apply {α : Type} (x : S4096x8191.Idx → α) (i : Fin 4096) :
    extractStridedSlice S4096x1 ![0, 0] x slices_S4096x8191_S4096x1_0_0 (ix2 i (0 : Fin 1)) = x (ix2 i (0 : Fin 8191)) :=
  extractStridedSlice_apply _ x _ _ (ix2 i (0 : Fin 8191)) fun a =>
    match a with | ⟨0, _⟩ => (Nat.zero_add _).symm | ⟨1, _⟩ => (Nat.zero_add _).symm

theorem reshapeCol_apply {α : Type} (x : S4096x1.Idx → α) (i : Fin 4096) :
    shapeCast S4096 x shapeCasts_S4096x1_S4096 (ix1 i) = x (ix2 i (0 : Fin 1)) :=
  shapeCast_apply x _ (ix1 i) (ix2 i (0 : Fin 1)) (by
    rw [Shape.rowMajor_val_two, Shape.rowMajor_val_one]
    show i.val * 1 + 0 = i.val
    omega)

theorem ofBits_neg_inf : Ideal.ofBits .f32 0xFF800000#32 = ⊥ := by simp [Ideal.ofBits, Ideal.ieee]

theorem reduces_cols : S4096x8191.Reduces [1] S4096 :=
  ⟨reducesTo_S4096x8191_S4096_d1.1, Nat.one_pos, reducesTo_S4096x8191_S4096_d1.2⟩

theorem lift_cols (i : Fin 4096) (c : Fin 8191) : reduces_cols.lift (ix1 i) c = ix2 i c :=
  funext fun a => Fin.ext (match a with | ⟨0, _⟩ => rfl | ⟨1, _⟩ => rfl)

theorem quarter_form_eq (d : ℝ) :
    ((d : ℝ) : EReal) * ((0.25 : ℝ) : EReal) + ((0.25 : ℝ) : EReal)
      = (((d : ℝ) : EReal) + 1) * ((0.5 : ℝ) : EReal) * ((0.5 : ℝ) : EReal) := by
  rw [← EReal.coe_one, ← EReal.coe_add d 1, ← EReal.coe_mul, ← EReal.coe_mul, ← EReal.coe_mul, ← EReal.coe_add,
    Cert.CLCE.Math.sim_eq]

theorem rowMax_real (LT : FVec Ideal S4096x8191 .f32) (i : Fin 4096)
    (hr : ∀ c : Fin 8191, ∃ r : ℝ, LT (ix2 i c) = (r : EReal)) : ∃ M : ℝ, rowMax LT (ix1 i) = (M : EReal) := by
  have h : rowMax LT (ix1 i) = max (⊥ : EReal) (Finset.univ.sup (LT ∘ reduces_cols.lift (ix1 i))) := by
    unfold rowMax
    rw [maximumf_apply, broadcastInDim_scalar_apply, Host.reduce_eq_fold_single _ _ _ _ reduces_cols,
      constant_apply, constant_apply, ofBits_neg_inf]
    rfl
  obtain ⟨c, -, hc⟩ := Finset.exists_mem_eq_sup Finset.univ ⟨⟨0, by decide⟩, Finset.mem_univ _⟩
    (LT ∘ reduces_cols.lift (ix1 i))
  obtain ⟨M, hM⟩ := hr c
  exact ⟨M, by rw [h, hc, max_bot_left]; exact (congrArg LT (lift_cols i c)).trans hM⟩

theorem negLogSoftmax0_apply_of_max (LT : FVec Ideal S4096x8191 .f32) (i : Fin 4096) :
    negLogSoftmax0 LT (ix1 i)
      = -((LT (ix2 i (0 : Fin 8191)) - rowMax LT (ix1 i))
          - Ideal.log (0 + ∑ c : Fin 8191, Ideal.exp (LT (ix2 i c) - rowMax LT (ix1 i)))) := by
  have hsh : ∀ c : Fin 8191, shifted LT (ix2 i c) = LT (ix2 i c) - rowMax LT (ix1 i) := by
    intro c
    unfold shifted
    rw [subf_apply, bcastRow_apply, bcastCol_apply]
  unfold negLogSoftmax0
  rw [show ∀ v : FVec Ideal S4096 .f32, Host.negf v (ix1 i) = -(v (ix1 i)) from fun _ => rfl, reshapeCol_apply,
    sliceCol0_apply]
  unfold logSoftmax
  rw [subf_apply, bcastRow_apply, hsh]
  unfold logSumExp
  rw [show ∀ v : FVec Ideal S4096x1 .f32, Host.log v (ix2 i (0 : Fin 1)) = Ideal.log (v (ix2 i (0 : Fin 1))) from fun _ => rfl,
    bcastCol_apply, hostReduceAdd_apply, Ideal.hostReduceAdd_single _ reduces_cols, constant_apply, Ideal.ofBits_zero_f32]
  refine congrArg (fun t : EReal => -((LT (ix2 i (0 : Fin 8191)) - rowMax LT (ix1 i)) - Ideal.log (0 + t)))
    (Finset.sum_congr rfl fun c _ => ?_)
  exact (congrArg (fun j => Host.exp (shifted LT) j) (lift_cols i c)).trans (congrArg Ideal.exp (hsh c))

-- Each negative sits alone at its rank, so the row of logits is slot 0, the negatives' similarities, and zeros.
theorem clR_eq (xnf : Fin 4096 → Fin 1024 → EReal) (hr : ∀ i k, ∃ r : ℝ, xnf i k = (r : EReal)) (y : Fin 4096 → BitVec 32)
    (LT : FVec Ideal S4096x8191 .f32) (cols : IVec S4096x4096 32) (upd : FVec Ideal S4096x4096 .f32) (i : Fin 4096)
    (cnt : Fin 4096 → ℕ)
    (h0 : LT (ix2 i (0 : Fin 8191)) = slot0E xnf y i)
    (hLT : ∀ c : Fin 8191, 1 ≤ c.val →
      LT (ix2 i c) = ∑ j ∈ univ.filter (fun j : Fin 4096 => (cols (ix2 i j)).toInt = (c.val : Int)), upd (ix2 i j))
    (hupd : ∀ j : Fin 4096, upd (ix2 i j) = if y i = y j then 0 else dotE xnf i j * quarter + quarter)
    (hcols : ∀ j : Fin 4096, cols (ix2 i j) = if y i = y j then 8191#32 else BitVec.ofNat 32 (cnt j))
    (hpos : ∀ j, ¬ y i = y j → 1 ≤ cnt j) (hlt : ∀ j, ¬ y i = y j → cnt j < 8191)
    (hinj : ∀ j k, ¬ y i = y j → ¬ y i = y k → cnt j = cnt k → j = k) :
    negLogSoftmax0 LT (ix1 i) = rowE xnf y i := by
  choose xr hx using hr
  have hLT' : ∀ c : Fin 8191, 1 ≤ c.val →
      LT (ix2 i c) = ∑ j ∈ univ.filter (fun j : Fin 4096 => ¬ y i = y j ∧ cnt j = c.val),
        ((dotE xnf i j + 1) * ((0.5 : ℝ) : EReal)) * ((0.5 : ℝ) : EReal) := by
    intro c hc
    rw [hLT c hc]
    refine Finset.sum_congr (Finset.filter_congr fun j _ => ?_) fun j hj => ?_
    · by_cases h : y i = y j
      · rw [hcols, if_pos h]
        show (8191 : Int) = _ ↔ _
        have := c.isLt
        exact ⟨fun e => by omega, fun e => absurd h e.1⟩
      · rw [hcols, if_neg h, StableHlo.Predicate.toInt_ofNat_small _ (lt_trans (hlt j h) (by norm_num))]
        exact ⟨fun e => ⟨h, by exact_mod_cast e⟩, fun e => by exact_mod_cast e.2⟩
    · rw [hupd, if_neg (Finset.mem_filter.mp hj).2.1, Cert.CLCE.Math.dotE_coe xnf xr hx, Cert.CLCE.Math.quarter_eq,
        quarter_form_eq]
  have hrow : ∀ c : Fin 8191, ∃ r : ℝ, LT (ix2 i c) = (r : EReal) := by
    intro c
    by_cases hc : c.val = 0
    · obtain rfl : c = 0 := Fin.ext hc
      rw [h0, Cert.CLCE.Math.slot0E_coe xnf xr hx]
      exact ⟨_, rfl⟩
    · rw [hLT' c (by omega)]
      refine ⟨∑ j ∈ univ.filter (fun j : Fin 4096 => ¬ y i = y j ∧ cnt j = c.val),
        ((Cert.CLCE.Math.dotR xr i j + 1) * 0.5) * 0.5, ?_⟩
      rw [← Cert.CLCE.Math.coe_sum]
      refine Finset.sum_congr rfl fun j _ => ?_
      rw [Cert.CLCE.Math.dotE_coe xnf xr hx, ← EReal.coe_one, ← EReal.coe_add, ← EReal.coe_mul, ← EReal.coe_mul]
  obtain ⟨M, hM⟩ := rowMax_real LT i hrow
  rw [negLogSoftmax0_apply_of_max, hM]
  exact Cert.CLCE.Math.ref_row_eq_rowE xnf xr hx y i cnt (fun j hj k hk e => hinj j k hj hk e) (fun j h => ⟨hpos j h, hlt j h⟩) (fun c => LT (ix2 i c)) M h0 hLT'

end Cert.ReferenceIdeal.RRow

end
-- ==== Proof.RefVals3.lean ====
import proofs.«401202_j76493367542062_3_alg».proof.Proof.RefVals
import proofs.«401202_j76493367542062_3_alg».proof.Proof.RefInt
import proofs.«401202_j76493367542062_3_alg».proof.Proof.RefScatter
import proofs.«401202_j76493367542062_3_alg».proof.Proof.RefRow

noncomputable section

open scoped BigOperators

namespace Cert.ReferenceIdeal.RVal

open Idealize.ShloMosaic Idealize.ShloMosaic.ValueIdx Cert.ReferenceIdeal Cert.CLCE
open Cert.ReferenceIdeal.Facts₀

variable [Facts]

theorem v54_eq (xn : FVec Ideal S4096x1024 .f32) (yv : IVec S4096 32) :
    v54 xn yv = RScat.LT v35 v47 (v46 yv) (v36 xn yv) v52 (v30 xn yv) := by
  unfold v54 v53 v51 v50 v49 v48
  with_reducible rfl

theorem v35_zero (k : S4096x8192.Idx) : v35 k = 0 := by
  unfold v35 cst_6
  rw [broadcastInDim_scalar_apply, constant_apply, Ideal.ofBits_zero_f32]

theorem v47_toInt (i j : Fin 4096) : (v47 (ix2 i j)).toInt = (i.val : Int) := by
  rw [v47_apply]
  exact toInt_ofNat32 (by have := i.isLt; omega)

theorem v52_toInt : (v52 (ix1 (0 : Fin 1))).toInt = 0 := by
  unfold v52 c_12
  rw [broadcastInDim_scalar_apply]
  rfl

-- The reference's row loss, from the column and slot-0 facts.
theorem clR_eq_of (xn : FVec Ideal S4096x1024 .f32) (yv : IVec S4096 32) (xnf : Fin 4096 → Fin 1024 → EReal)
    (y : Fin 4096 → BitVec 32) (hx : ∀ i k, xn (ix2 i k) = xnf i k) (hr : ∀ i k, ∃ r : ℝ, xnf i k = (r : EReal))
    (hy : ∀ i, yv (ix1 i) = y i) (i : Fin 4096)
    (hcols : ∀ j : Fin 4096,
      v46 yv (ix2 i j) = if y i = y j then 8191#32 else BitVec.ofNat 32 (RInt.prefCount (v24 yv) i j))
    (hslot : v30 xn yv (ix1 i) = slot0E xnf y i) :
    RRow.negLogSoftmax0 (v54 xn yv) (ix1 i) = rowE xnf y i := by

  have hmask : ∀ j, ¬ y i = y j → v24 yv (ix2 i j) = 1#1 := fun j h =>
    (v24_eq_one_iff yv i j).mpr (by rw [hy, hy]; exact h)
  have hdiag : v24 yv (ix2 i i) ≠ 1#1 := fun h => (v24_eq_one_iff yv i i).mp h rfl
  refine RRow.clR_eq xnf hr y (v54 xn yv) (v46 yv) (v36 xn yv) i (fun j => RInt.prefCount (v24 yv) i j)
    ?_ ?_ ?_ hcols ?_ ?_ ?_
  · rw [v54_eq, RScat.LT_zero _ _ _ _ _ _ v52_toInt, hslot]
  · intro c hc
    rw [v54_eq]
    exact RScat.LT_pos _ _ _ _ _ _ v35_zero v47_toInt v52_toInt i c hc
  · exact fun j => v36_apply xn yv xnf y hx hr hy i j
  · exact fun j h => RInt.prefCount_pos _ i j (hmask j h)
  · exact fun j _ => lt_of_le_of_lt (RInt.prefCount_le_of_unset _ i j i hdiag) (by norm_num)
  · exact fun j k hj hk e => RInt.prefCount_inj _ i (hmask j hj) (hmask k hk) e

end Cert.ReferenceIdeal.RVal

end
-- ==== Proof.RefSlot0.lean ====
import proofs.«401202_j76493367542062_3_alg».proof.Proof.RefVals2
import proofs.«401202_j76493367542062_3_alg».proof.Proof.RefScatter
import proofs.«401202_j76493367542062_3_alg».proof.Proof.RefVals3

noncomputable section

open scoped BigOperators

namespace Cert.ReferenceIdeal.RVal

open Idealize.ShloMosaic Idealize.ShloMosaic.ValueIdx Cert.ReferenceIdeal
open Cert.ReferenceIdeal.Facts₀
open Idealize.ShloMosaic.StableHlo.Predicate (sle_ofNat_iff)

variable [Facts]

theorem col_to_cube_apply {α : Type} (v : S4096x1.Idx → α) (i : Fin 4096) :
    shapeCast S4096x1x1 v shapeCasts_S4096x1_S4096x1x1 (ix3 i (0 : Fin 1) (0 : Fin 1)) = v (ix2 i (0 : Fin 1)) :=
  shapeCast_apply v _ (ix3 i (0 : Fin 1) (0 : Fin 1)) (ix2 i (0 : Fin 1)) (by
    rw [Shape.rowMajor_val_two, Shape.rowMajor_val_three]
    show i.val * 1 + 0 = (i.val * 1 + 0) * 1 + 0
    omega)

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

section
variable (xn : FVec Ideal S4096x1024 .f32) (yv : IVec S4096 32) (y : Fin 4096 → BitVec 32) (hy : ∀ i, yv (ix1 i) = y i)
include hy

theorem v23_iff (i j : Fin 4096) : v23 yv (ix2 i j) = 1#1 ↔ (j ≠ i ∧ y j = y i) := by
  rw [v23_eq_one_iff, hy, hy]
  exact ⟨fun h => ⟨h.2.symm, h.1.symm⟩, fun h => ⟨h.2.symm, h.1.symm⟩⟩

attribute [local irreducible] Host.reduce2 in

theorem v25_apply (i : Fin 4096) : v25 yv (ix1 i) = BitVec.ofNat 32 (Cert.CLCE.firstPos y i).val := by
  have h := RInt.argmax_row_firstPos y (v23 yv) (v23_iff yv y hy) reducesTo_S4096x4096_S4096_d1 h_S_ i

  have e : v25 yv = fun j => (Host.reduce2 reducer_argmax_i1_i32 (v23 yv) (iotaInDim S4096x4096 32 1) (constantI S_ 1 0#1)
      (constantI S_ 32 0#32) reducesTo_S4096x4096_S4096_d1 h_S_ j).2 := rfl
  exact (congrFun e (ix1 i)).trans h

theorem v26_eq_one_iff (i : Fin 4096) : v26 yv (ix1 i) = 1#1 ↔ (Cert.CLCE.posSet y i).Nonempty := by
  have h := RInt.or_row_posSet y (v23 yv) (v23_iff yv y hy) reducesTo_S4096x4096_S4096_d1 h_S_ i
  delta v26 c_3
  exact h

theorem call3_v4_apply (i : Fin 4096) : call3_v4 yv (ix2 i (0 : Fin 1)) = BitVec.ofNat 32 (Cert.CLCE.firstPos y i).val := by
  unfold call3_v4 call3_v3 call3_v1 call3_v0 call3_c v27
  rw [select_apply]
  show Scalar.select (IntOp.cmpi .slt _ _) _ _ = _
  rw [as_col_apply, broadcastInDim_scalar_apply, v25_apply yv y hy]
  show Scalar.select (IntOp.cmpi .slt (BitVec.ofNat 32 _) 0#32) _ _ = _
  rw [slt_ofNat32_zero (lt_trans (Cert.CLCE.firstPos y i).isLt (by norm_num)), select_zero]

theorem call3_v5_apply (i : Fin 4096) : call3_v5 yv (ix3 i (0 : Fin 1) (0 : Fin 1)) = BitVec.ofNat 32 (Cert.CLCE.firstPos y i).val := by
  unfold call3_v5
  rw [col_to_cube_apply, call3_v4_apply yv y hy]

theorem call3_v11_apply (k : S4096x1x1.Idx) : call3_v11 yv k = 1#1 := by
  obtain ⟨a, b, c, rfl⟩ : ∃ (a : Fin 4096) (b : Fin 1) (c : Fin 1), k = ix3 a b c := ⟨k 0, k 1, k 2, eq_ix3 k⟩
  obtain rfl : b = 0 := Subsingleton.elim _ _
  obtain rfl : c = 0 := Subsingleton.elim _ _
  have hfp : (Cert.CLCE.firstPos y a).val < 2 ^ 31 := lt_trans (Cert.CLCE.firstPos y a).isLt (by norm_num)
  unfold call3_v11 call3_v10 call3_v9 call3_v8 call3_v7 call3_v6 call3_c_1 call3_c_2
  show IntOp.andi (IntOp.cmpi .sge (call3_v5 yv _) _) (IntOp.cmpi .sle (call3_v5 yv _) _) = 1#1
  rw [call3_v5_apply yv y hy, broadcastInDim_scalar_apply]
  show IntOp.andi (IntOp.cmpi .sge (BitVec.ofNat 32 _) 0#32) (IntOp.cmpi .sle (BitVec.ofNat 32 _) (BitVec.ofNat 32 4095)) = 1#1
  have h4 := (Cert.CLCE.firstPos y a).isLt
  rw [show IntOp.cmpi .sge (BitVec.ofNat 32 _) 0#32 = 1#1 from (sle_ofNat_iff 0 _ (by norm_num) hfp).2 (Nat.zero_le _),
    show IntOp.cmpi .sle (BitVec.ofNat 32 _) (BitVec.ofNat 32 4095) = 1#1 from (sle_ofNat_iff _ 4095 hfp (by norm_num)).2 (by omega)]
  decide

theorem call3_v12_apply (j : S4096x1.Idx) : call3_v12 yv j = 1#1 := by
  unfold call3_v12 call3_c_3
  rw [Host.reduce_eq_foldl]
  exact foldl_andi_one (call3_v11 yv) (call3_v11_apply yv y hy) _

attribute [local irreducible] Host.reduce2 Host.reduce Host.gather in

-- The gathered entry is the similarity at the row's first positive.
theorem v28_apply (i : Fin 4096) : v28 xn yv (ix2 i (0 : Fin 1)) = v11 xn (ix2 i (Cert.CLCE.firstPos y i)) := by
  have h5 := call3_v5_apply yv y hy i
  have hfp : (Cert.CLCE.firstPos y i).val < 2 ^ 31 := lt_trans (Cert.CLCE.firstPos y i).isLt (by norm_num)
  have hnat : (call3_v5 yv (ix3 i (0 : Fin 1) (0 : Fin 1))).toInt.toNat = (Cert.CLCE.firstPos y i).val := by
    rw [h5, toInt_ofNat32 hfp]; exact Int.toNat_natCast _
  have hlt : (call3_v5 yv (ix3 i (0 : Fin 1) (0 : Fin 1))).toInt.toNat < 4096 := by
    rw [hnat]; exact (Cert.CLCE.firstPos y i).isLt
  unfold v28 call3_v13
  rw [select_apply, call3_v12_apply yv y hy, select_one, RScat.gather_apply_of_lt (v11 xn) (call3_v5 yv) i hlt]
  exact congrArg (fun q => v11 xn (ix2 i q)) (Fin.ext hnat)

theorem slot0R_eq (xnf : Fin 4096 → Fin 1024 → EReal) (hx : ∀ i k, xn (ix2 i k) = xnf i k)
    (hr : ∀ i k, ∃ r : ℝ, xnf i k = (r : EReal)) (i : Fin 4096) : v30 xn yv (ix1 i) = Cert.CLCE.slot0E xnf y i := by
  unfold v30 call4_v1 call4_v0 cst_4 Cert.CLCE.slot0E
  rw [select_apply, broadcastInDim_scalar_apply]
  show Scalar.select (v26 yv (ix1 i)) (v29 xn yv (ix1 i)) (Ideal.ofBits .f32 0x00000000#32) = _
  rw [Ideal.ofBits_zero_f32]
  by_cases hne : (Cert.CLCE.posSet y i).Nonempty
  · rw [(v26_eq_one_iff yv y hy i).mpr hne, select_one, if_pos hne]
    unfold v29
    rw [RRow.reshapeCol_apply, v28_apply xn yv y hy, v11_apply xn xnf hx]

    obtain ⟨d, hd⟩ := dotE_real xnf hr i (Cert.CLCE.firstPos y i)
    rw [hd]
    unfold Cert.CLCE.quarter
    rw [← EReal.coe_one, ← EReal.coe_add, ← EReal.coe_mul, ← EReal.coe_mul, ← EReal.coe_mul]
    congr 1
    ring
  · rw [eq_zero_of_ne_one (fun e => hne ((v26_eq_one_iff yv y hy i).mp e)), select_zero, if_neg hne]

end

theorem clR_eq (xn : FVec Ideal S4096x1024 .f32) (yv : IVec S4096 32) (xnf : Fin 4096 → Fin 1024 → EReal) (y : Fin 4096 → BitVec 32)
    (hx : ∀ i k, xn (ix2 i k) = xnf i k) (hr : ∀ i k, ∃ r : ℝ, xnf i k = (r : EReal)) (hy : ∀ i, yv (ix1 i) = y i) (i : Fin 4096) :
    RRow.negLogSoftmax0 (v54 xn yv) (ix1 i) = Cert.CLCE.rowE xnf y i :=
  clR_eq_of xn yv xnf y hx hr hy i (fun j => v46_apply yv y hy i j) (slot0R_eq xn yv y hy xnf hx hr i)

end Cert.ReferenceIdeal.RVal

end
-- ==== Proof.Bridge.lean ====
import proofs.«401202_j76493367542062_3_alg».proof.Defs
import proofs.«401202_j76493367542062_3_alg».proof.Proof.Spec
import proofs.«401202_j76493367542062_3_alg».proof.Proof.PreFacts
import proofs.«401202_j76493367542062_3_alg».proof.Proof.Tails
import proofs.«401202_j76493367542062_3_alg».proof.Proof.RefRun
import proofs.«401202_j76493367542062_3_alg».proof.Proof.KValue
import proofs.«401202_j76493367542062_3_alg».proof.Proof.KRunBits
import proofs.«401202_j76493367542062_3_alg».proof.Proof.RefResult
import proofs.«401202_j76493367542062_3_alg».proof.Proof.RefSlot0

noncomputable section

open scoped BigOperators

namespace Cert.Proof.Bridge

open Idealize.ShloMosaic Idealize.ShloMosaic.ValueIdx Idealize.SL.Sem Idealize.ShloMosaic.TcCoe Idealize.ShloMosaic.StableHlo

section Claims

variable [hK : Cert.KernelIdeal.Facts] [hR : Cert.ReferenceIdeal.Facts] [hP : Cert.Pre_finite_inputs.Facts]

abbrev rLoc (c : Dev Cert.ReferenceIdeal.nD) (b : Ref Cert.ReferenceIdeal.sig .tc) :
    Loc Cert.ReferenceIdeal.nD Cert.ReferenceIdeal.τ Cert.ReferenceIdeal.sig :=
  (c.tc : Thread Cert.ReferenceIdeal.nD Cert.ReferenceIdeal.τ).loc b

def rowsOf (x : FVec Ideal ⟨2, ![4096, 1024]⟩ .f32) : Fin 4096 → Fin 1024 → EReal :=
  fun i k => Cert.PreDecode.xnOf x (ix2 i k)

def labelsOf (y : IVec ⟨1, ![4096]⟩ 32) : Fin 4096 → BitVec 32 := fun i => y (ix1 i)

open Cert.ReferenceIdeal in
theorem ref_result_rows (V : Valuation τ sig (Elt Ideal))
    (hx : ∀ j : (⟨2, ![4096, 1024]⟩ : Shape).Idx, ∃ r : ℝ,
      V (main_arg0 : DevRef τ sig) j = (r : EReal)) :
    ∃ CL : FVec Ideal S4096 .f32,
      after (HRun.ops (F := Ideal)) V (main_v69 : DevRef τ sig)
        = Cert.CLCE.Tails.refTail (F := Ideal) CL
            (V (main_arg2 : DevRef τ sig))
            (V (main_arg1 : DevRef τ sig))
      ∧ ∀ i : Fin 4096, CL (ix1 i)
        = Cert.CLCE.rowE (rowsOf (V (main_arg0 : DevRef τ sig)))
            (labelsOf (V (main_arg1 : DevRef τ sig))) i := by
  exact ⟨_, HRun2.ref_result V, fun i =>
    RVal.clR_eq _ _ _ _ (fun _ _ => rfl) (fun i k => Cert.PreDecode.xnOf_real_ix _ hx i k) (fun _ => rfl) i⟩

open Cert.ReferenceIdeal in
theorem reference_value (m : (ℓ : Loc nD τ sig) → Buf (Elt Ideal) ℓ)
    (ρ : Dev nD → PrngReg) (hpre : Cert.Pre_ReferenceIdeal m) :
    ∃ CL : Dev nD → FVec Ideal S4096 .f32,
      (∀ (c : Dev nD) (i : Fin 4096), CL c (ix1 i)
          = Cert.CLCE.rowE (rowsOf (m (rLoc c main_arg0))) (labelsOf (m (rLoc c main_arg1))) i)
      ∧ θ_run (defs (F := Ideal)) (onTc (τ := τ) (main (F := Ideal)))
          ⟨m, fun _ => 0, ρ⟩ (fun r => ∀ c : Dev nD,
            r.2.mem (rLoc c main_v69)
              = Cert.CLCE.Tails.refTail (F := Ideal) (CL c) (m (rLoc c main_arg2)) (m (rLoc c main_arg1))
            ∧ r.2.mem (rLoc c main_arg0) = m (rLoc c main_arg0)
            ∧ r.2.mem (rLoc c main_arg1) = m (rLoc c main_arg1)
            ∧ r.2.mem (rLoc c main_arg2) = m (rLoc c main_arg2)) := by
  choose CL hval hrows using fun c : Dev nD =>
    ref_result_rows (launchContents m c) (Cert.PreDecode.x_real _ _ _ (hpre c))
  refine ⟨CL, hrows, ?_⟩
  exact (θ_run (defs (F := Ideal)) _ _).mono
    (fun r h c => ⟨(h c main_v69).trans (hval c),
      (h c main_arg0).trans (HRun.arg0_eq _),
      (h c main_arg1).trans (HRun.arg1_eq _),
      (h c main_arg2).trans (HRun.arg2_eq _)⟩)
    (HRun.run_main (F := Ideal) m ρ)

theorem frame_Kernel [hKb : Cert.Kernel.Facts] : Cert.frame_Kernel := fun m ρ _ =>
  (θ_run (Cert.Kernel.defs (F := Bits)) _ _).mono (fun _ h c => (h c).2) (Cert.Kernel.Run.run_main m ρ)

theorem frame_KernelIdeal : Cert.frame_KernelIdeal := fun m ρ hpre => by
  obtain ⟨OUT, _, hrun⟩ := Cert.KernelIdeal.KVal.kernel_value m ρ hpre
  exact (θ_run (Cert.KernelIdeal.defs (F := Ideal)) _ _).mono (fun _ h c => (h c).2) hrun

theorem frame_ReferenceIdeal : Cert.frame_ReferenceIdeal := fun m ρ hpre => by
  obtain ⟨CL, _, hrun⟩ := reference_value m ρ hpre
  exact (θ_run (Cert.ReferenceIdeal.defs (F := Ideal)) _ _).mono (fun _ h c => (h c).2) hrun

theorem preserves : Cert.preserves_Kernel_KernelIdeal := trivial

-- Both programs end in the same tail applied to the same per-row losses.
theorem algebraic : Cert.algebraic_KernelIdeal_ReferenceIdeal := by
  intro m ρ m' ρ' hpre hagree
  have hpre' : Cert.Pre_ReferenceIdeal m' := fun c => by
    have := hpre c
    rw [← (hagree c).1, ← (hagree c).2.1, ← (hagree c).2.2] at this
    exact this
  obtain ⟨OUT, hOUT, hkrun⟩ := Cert.KernelIdeal.KVal.kernel_value m ρ hpre
  obtain ⟨CL, hCL, hrrun⟩ := reference_value m' ρ' hpre'
  refine ⟨_, hkrun, ?_⟩
  refine (θ_run (Cert.ReferenceIdeal.defs (F := Ideal)) _ _).mono (fun _ h c => ⟨(h c).1.trans ?_, (h c).2⟩) hrrun
  have hrows : ∀ i : Fin 4096, OUT c (ix2 i 0) = CL c (ix1 i) := fun i => by
    rw [hOUT c i, hCL c i, (hagree c).1, (hagree c).2.1]; rfl
  rw [(hagree c).2.1, (hagree c).2.2]
  exact (Cert.CLCE.Tails.tails_agree (OUT c) (CL c) _ _ hrows).symm

end Claims

theorem claim_of_facts (hKernel : Cert.Kernel.Facts) (hKernelIdeal : Cert.KernelIdeal.Facts)
    (hReferenceIdeal : Cert.ReferenceIdeal.Facts) (hPre : Cert.Pre_finite_inputs.Facts) : Cert.Claim :=
  ⟨hKernel, hKernelIdeal, hReferenceIdeal, hPre,
    frame_Kernel (hP := hPre) (hKb := hKernel),
    frame_KernelIdeal (hK := hKernelIdeal) (hP := hPre),
    frame_ReferenceIdeal (hR := hReferenceIdeal) (hP := hPre),
    preserves,
    algebraic (hK := hKernelIdeal) (hR := hReferenceIdeal) (hP := hPre)⟩

end Cert.Proof.Bridge

end
-- ==== Proof.lean ====
import proofs.«401202_j76493367542062_3_alg».proof.Defs
import proofs.«401202_j76493367542062_3_alg».proof.Proof.Gen.Kernel
import proofs.«401202_j76493367542062_3_alg».proof.Proof.Gen.KernelIdeal
import proofs.«401202_j76493367542062_3_alg».proof.Proof.Gen.ReferenceIdeal
import proofs.«401202_j76493367542062_3_alg».proof.Proof.Gen.Pre_finite_inputs
import proofs.«401202_j76493367542062_3_alg».proof.Proof.Bridge

noncomputable section

namespace Cert.Proof

theorem claim : Cert.Claim :=
  Cert.Proof.Bridge.claim_of_facts Cert.Kernel.Gen.facts Cert.KernelIdeal.Gen.facts Cert.ReferenceIdeal.Gen.facts
    Cert.Pre_finite_inputs.Gen.facts

end Cert.Proof

end
